-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2x2048 : Shape := ⟨2, ![2, 2048]⟩
abbrev S2048 : Shape := ⟨1, ![2048]⟩
abbrev S1003x2048 : Shape := ⟨2, ![1003, 2048]⟩
abbrev S512x2048 : Shape := ⟨2, ![512, 2048]⟩
abbrev S1000x512 : Shape := ⟨2, ![1000, 512]⟩
abbrev S128x2048 : Shape := ⟨2, ![128, 2048]⟩
abbrev S3000x128 : Shape := ⟨2, ![3000, 128]⟩
abbrev S32x2048 : Shape := ⟨2, ![32, 2048]⟩
abbrev S27000x32 : Shape := ⟨2, ![27000, 32]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S1003x2048 : S_.BroadcastsInDim S1003x2048 (![] : Fin 0 → Fin S1003x2048.rank)
  reducesTo_S1003x2048_S_d0_1 : S1003x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S1000x512 : S_.BroadcastsInDim S1000x512 (![] : Fin 0 → Fin S1000x512.rank)
  reducesTo_S1000x512_S_d0_1 : S1000x512.ReducesTo [0, 1] S_
  bcast_S_S128x2048 : S_.BroadcastsInDim S128x2048 (![] : Fin 0 → Fin S128x2048.rank)
  reducesTo_S128x2048_S_d0_1 : S128x2048.ReducesTo [0, 1] S_
  bcast_S_S3000x128 : S_.BroadcastsInDim S3000x128 (![] : Fin 0 → Fin S3000x128.rank)
  reducesTo_S3000x128_S_d0_1 : S3000x128.ReducesTo [0, 1] S_
  bcast_S_S32x2048 : S_.BroadcastsInDim S32x2048 (![] : Fin 0 → Fin S32x2048.rank)
  reducesTo_S32x2048_S_d0_1 : S32x2048.ReducesTo [0, 1] S_
  bcast_S_S27000x32 : S_.BroadcastsInDim S27000x32 (![] : Fin 0 → Fin S27000x32.rank)
  reducesTo_S27000x32_S_d0_1 : S27000x32.ReducesTo [0, 1] S_
  bcast_S_S2x2048 : S_.BroadcastsInDim S2x2048 (![] : Fin 0 → Fin S2x2048.rank)
  reducesTo_S2x2048_S_d0_1 : S2x2048.ReducesTo [0, 1] S_

variable [Facts]

def fn_part3 {F : FTy → Type} [FloatOps F] (main_v48 : IVec S_ 1) (main_v50 : IVec S2x2048 1) : IVec S_ 1 :=
  let main_c_19 : IVec S_ 1 := constantI S_ 1 1#1
  let main_v51 : IVec S_ 1 := (fun x v => Host.reduce IntOp.andi x v reducesTo_S2x2048_S_d0_1 h_S_) main_v50 main_c_19
  let main_v52 : IVec S_ 1 := andi main_v48 main_v51
  main_v52

def fn_part2 {F : FTy → Type} [FloatOps F] (main_arg1 : IVec S2x2048 32) (main_arg8 : FVec F S3000x128 .f32) (main_arg9 : FVec F S32x2048 .f32) (main_arg10 : FVec F S27000x32 .f32) (main_v33 : IVec S_ 1) : IVec S_ 1 :=
  let main_v34 : FVec F S3000x128 .f32 := Host.absf main_arg8
  let main_cst_12 : FVec F S_ .f32 := constant S_ .f32 0x7F800000#32
  let main_v35 : FVec F S3000x128 .f32 := broadcastInDim S3000x128 ![] bcast_S_S3000x128 main_cst_12
  let main_v36 : IVec S3000x128 1 := cmpf .olt main_v34 main_v35
  let main_c_13 : IVec S_ 1 := constantI S_ 1 1#1
  let main_v37 : IVec S_ 1 := (fun x v => Host.reduce IntOp.andi x v reducesTo_S3000x128_S_d0_1 h_S_) main_v36 main_c_13
  let main_v38 : IVec S_ 1 := andi main_v33 main_v37
  let main_v39 : FVec F S32x2048 .f32 := Host.absf main_arg9
  let main_cst_14 : FVec F S_ .f32 := constant S_ .f32 0x7F800000#32
  let main_v40 : FVec F S32x2048 .f32 := broadcastInDim S32x2048 ![] bcast_S_S32x2048 main_cst_14
  let main_v41 : IVec S32x2048 1 := cmpf .olt main_v39 main_v40
  let main_c_15 : IVec S_ 1 := constantI S_ 1 1#1
  let main_v42 : IVec S_ 1 := (fun x v => Host.reduce IntOp.andi x v reducesTo_S32x2048_S_d0_1 h_S_) main_v41 main_c_15
  let main_v43 : IVec S_ 1 := andi main_v38 main_v42
  let main_v44 : FVec F S27000x32 .f32 := Host.absf main_arg10
  let main_cst_16 : FVec F S_ .f32 := constant S_ .f32 0x7F800000#32
  let main_v45 : FVec F S27000x32 .f32 := broadcastInDim S27000x32 ![] bcast_S_S27000x32 main_cst_16
  let main_v46 : IVec S27000x32 1 := cmpf .olt main_v44 main_v45
  let main_c_17 : IVec S_ 1 := constantI S_ 1 1#1
  let main_v47 : IVec S_ 1 := (fun x v => Host.reduce IntOp.andi x v reducesTo_S27000x32_S_d0_1 h_S_) main_v46 main_c_17
  let main_v48 : IVec S_ 1 := andi main_v43 main_v47
  let main_c_18 : IVec S_ 32 := constantI S_ 32 0#32
  let main_v49 : IVec S2x2048 32 := broadcastInDim S2x2048 ![] bcast_S_S2x2048 main_c_18
  let main_v50 : IVec S2x2048 1 := cmpi .sge main_arg1 main_v49
  fn_part3 (F := F) main_v48 main_v50

def fn_part1 {F : FTy → Type} [FloatOps F] (main_arg1 : IVec S2x2048 32) (main_arg5 : FVec F S512x2048 .f32) (main_arg6 : FVec F S1000x512 .f32) (main_arg7 : FVec F S128x2048 .f32) (main_arg8 : FVec F S3000x128 .f32) (main_arg9 : FVec F S32x2048 .f32) (main_arg10 : FVec F S27000x32 .f32) (main_v13 : IVec S_ 1) (main_v16 : IVec S1003x2048 1) : IVec S_ 1 :=
  let main_c_5 : IVec S_ 1 := constantI S_ 1 1#1
  let main_v17 : IVec S_ 1 := (fun x v => Host.reduce IntOp.andi x v reducesTo_S1003x2048_S_d0_1 h_S_) main_v16 main_c_5
  let main_v18 : IVec S_ 1 := andi main_v13 main_v17
  let main_v19 : FVec F S512x2048 .f32 := Host.absf main_arg5
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S1000x512 .f32 := Host.absf main_arg6
  let main_cst_8 : FVec F S_ .f32 := constant S_ .f32 0x7F800000#32
  let main_v25 : FVec F S1000x512 .f32 := broadcastInDim S1000x512 ![] bcast_S_S1000x512 main_cst_8
  let main_v26 : IVec S1000x512 1 := cmpf .olt main_v24 main_v25
  let main_c_9 : IVec S_ 1 := constantI S_ 1 1#1
  let main_v27 : IVec S_ 1 := (fun x v => Host.reduce IntOp.andi x v reducesTo_S1000x512_S_d0_1 h_S_) main_v26 main_c_9
  let main_v28 : IVec S_ 1 := andi main_v23 main_v27
  let main_v29 : FVec F S128x2048 .f32 := Host.absf main_arg7
  let main_cst_10 : FVec F S_ .f32 := constant S_ .f32 0x7F800000#32
  let main_v30 : FVec F S128x2048 .f32 := broadcastInDim S128x2048 ![] bcast_S_S128x2048 main_cst_10
  let main_v31 : IVec S128x2048 1 := cmpf .olt main_v29 main_v30
  let main_c_11 : IVec S_ 1 := constantI S_ 1 1#1
  let main_v32 : IVec S_ 1 := (fun x v => Host.reduce IntOp.andi x v reducesTo_S128x2048_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S2x2048x2048 .f32) (main_arg1 : IVec S2x2048 32) (main_arg2 : FVec F S2048 .f32) (main_arg3 : FVec F S2048 .f32) (main_arg4 : FVec F S1003x2048 .f32) (main_arg5 : FVec F S512x2048 .f32) (main_arg6 : FVec F S1000x512 .f32) (main_arg7 : FVec F S128x2048 .f32) (main_arg8 : FVec F S3000x128 .f32) (main_arg9 : FVec F S32x2048 .f32) (main_arg10 : FVec F S27000x32 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2048 .f32 := Host.absf main_arg2
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1003x2048 .f32 := Host.absf main_arg4
  let main_cst_4 : FVec F S_ .f32 := constant S_ .f32 0x7F800000#32
  let main_v15 : FVec F S1003x2048 .f32 := broadcastInDim S1003x2048 ![] bcast_S_S1003x2048 main_cst_4
  let main_v16 : IVec S1003x2048 1 := cmpf .olt main_v14 main_v15
  fn_part1 (F := F) main_arg1 main_arg5 main_arg6 main_arg7 main_arg8 main_arg9 main_arg10 main_v13 main_v16
-- ==== Kernel.lean ====
abbrev S2x2048x2048 : Shape := ⟨3, ![2, 2048, 2048]⟩
abbrev S2x2048 : Shape := ⟨2, ![2, 2048]⟩
abbrev S2048 : Shape := ⟨1, ![2048]⟩
abbrev S1003x2048 : Shape := ⟨2, ![1003, 2048]⟩
abbrev S512x2048 : Shape := ⟨2, ![512, 2048]⟩
abbrev S1000x512 : Shape := ⟨2, ![1000, 512]⟩
abbrev S128x2048 : Shape := ⟨2, ![128, 2048]⟩
abbrev S3000x128 : Shape := ⟨2, ![3000, 128]⟩
abbrev S32x2048 : Shape := ⟨2, ![32, 2048]⟩
abbrev S27000x32 : Shape := ⟨2, ![27000, 32]⟩
abbrev S4096x2048 : Shape := ⟨2, ![4096, 2048]⟩
abbrev S2x2047 : Shape := ⟨2, ![2, 2047]⟩
abbrev S_ : Shape := ⟨0, ![]⟩
abbrev S4096x1 : Shape := ⟨2, ![4096, 1]⟩
abbrev S2048x1003 : Shape := ⟨2, ![2048, 1003]⟩
abbrev S672x2048 : Shape := ⟨2, ![672, 2048]⟩
abbrev S2048x672 : Shape := ⟨2, ![2048, 672]⟩
abbrev S512x1000 : Shape := ⟨2, ![512, 1000]⟩
abbrev S128x3000 : Shape := ⟨2, ![128, 3000]⟩
abbrev S32x27000 : Shape := ⟨2, ![32, 27000]⟩
abbrev S16x128 : Shape := ⟨2, ![16, 128]⟩
abbrev S128x1 : Shape := ⟨2, ![128, 1]⟩
abbrev S8x128 : Shape := ⟨2, ![8, 128]⟩
abbrev S128 : Shape := ⟨1, ![128]⟩
abbrev S1x2048 : Shape := ⟨2, ![1, 2048]⟩
abbrev S128x1003 : Shape := ⟨2, ![128, 1003]⟩
abbrev S128x1000 : Shape := ⟨2, ![128, 1000]⟩
abbrev S128x672 : Shape := ⟨2, ![128, 672]⟩
abbrev S128x512 : Shape := ⟨2, ![128, 512]⟩
abbrev S128x128 : Shape := ⟨2, ![128, 128]⟩
abbrev S128x32 : Shape := ⟨2, ![128, 32]⟩
abbrev S32x2250 : Shape := ⟨2, ![32, 2250]⟩
abbrev S128x2250 : Shape := ⟨2, ![128, 2250]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 34
  | .vmem => 13
  | .smem => 0
  | _ => 0

abbrev bufTy : (tb : Table) → Fin (tcTables nBuf tb) → BufTy
  | .hbm, ⟨0, _⟩ => ⟨S2x2048x2048, .f32⟩
  | .hbm, ⟨1, _⟩ => ⟨S2x2048, .i32⟩
  | .hbm, ⟨2, _⟩ => ⟨S2048, .f32⟩
  | .hbm, ⟨3, _⟩ => ⟨S2048, .f32⟩
  | .hbm, ⟨4, _⟩ => ⟨S1003x2048, .f32⟩
  | .hbm, ⟨5, _⟩ => ⟨S512x2048, .f32⟩
  | .hbm, ⟨6, _⟩ => ⟨S1000x512, .f32⟩
  | .hbm, ⟨7, _⟩ => ⟨S128x2048, .f32⟩
  | .hbm, ⟨8, _⟩ => ⟨S3000x128, .f32⟩
  | .hbm, ⟨9, _⟩ => ⟨S32x2048, .f32⟩
  | .hbm, ⟨10, _⟩ => ⟨S27000x32, .f32⟩
  | .hbm, ⟨11, _⟩ => ⟨S4096x2048, .f32⟩
  | .hbm, ⟨12, _⟩ => ⟨S2x2047, .i32⟩
  | .hbm, ⟨13, _⟩ => ⟨S_, .i32⟩
  | .hbm, ⟨14, _⟩ => ⟨S_, .i32⟩
  | .hbm, ⟨15, _⟩ => ⟨S2x2048, .i32⟩
  | .hbm, ⟨16, _⟩ => ⟨S4096x1, .i32⟩
  | .hbm, ⟨17, _⟩ => ⟨S1003x2048, .bf16⟩
  | .hbm, ⟨18, _⟩ => ⟨S2048x1003, .bf16⟩
  | .hbm, ⟨19, _⟩ => ⟨S672x2048, .f32⟩
  | .hbm, ⟨20, _⟩ => ⟨S672x2048, .bf16⟩
  | .hbm, ⟨21, _⟩ => ⟨S2048x672, .bf16⟩
  | .hbm, ⟨22, _⟩ => ⟨S1000x512, .bf16⟩
  | .hbm, ⟨23, _⟩ => ⟨S512x1000, .bf16⟩
  | .hbm, ⟨24, _⟩ => ⟨S3000x128, .bf16⟩
  | .hbm, ⟨25, _⟩ => ⟨S128x3000, .bf16⟩
  | .hbm, ⟨26, _⟩ => ⟨S27000x32, .bf16⟩
  | .hbm, ⟨27, _⟩ => ⟨S32x27000, .bf16⟩
  | .hbm, ⟨28, _⟩ => ⟨S16x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S128x2048, .f32⟩
  | .local _ .vmem, ⟨1, _⟩ => ⟨S128x2048, .f32⟩
  | .local _ .vmem, ⟨2, _⟩ => ⟨S128x1, .i32⟩
  | .local _ .vmem, ⟨3, _⟩ => ⟨S128x1, .i32⟩
  | .local _ .vmem, ⟨4, _⟩ => ⟨S2048, .f32⟩
  | .local _ .vmem, ⟨5, _⟩ => ⟨S2048, .f32⟩
  | .local _ .vmem, ⟨6, _⟩ => ⟨S2048x1003, .bf16⟩
  | .local _ .vmem, ⟨7, _⟩ => ⟨S2048x672, .bf16⟩
  | .local _ .vmem, ⟨8, _⟩ => ⟨S512x1000, .bf16⟩
  | .local _ .vmem, ⟨9, _⟩ => ⟨S128x3000, .bf16⟩
  | .local _ .vmem, ⟨10, _⟩ => ⟨S32x27000, .bf16⟩
  | .local _ .vmem, ⟨11, _⟩ => ⟨S8x128, .f32⟩
  | .local _ .vmem, ⟨12, _⟩ => ⟨S8x128, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1003 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x672 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1000 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x3000 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x27000 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S2x2048x2048_S4096x2048 : S2x2048x2048.ShapeCasts S4096x2048
  slices_S2x2048_S2x2047_0_1 : S2x2048.Slices ![0, 1] S2x2047
  pads_S2x2047_S2x2048_000_010 : S2x2047.Pads (![0, 0] : Fin 2 → Nat) ![0, 1] ![0, 0] S2x2048
  h_S_ : 0 < S_.numel
  shapeCasts_S2x2048_S4096x1 : S2x2048.ShapeCasts S4096x1
  bitsLt_bf16_f32 : FTy.bits .bf16 < FTy.bits .f32
  transposes_S1003x2048_S2048x1003_1_0 : S1003x2048.Transposes [1, 0] S2048x1003
  concatenates_S512x2048_S128x2048_S32x2048_S672x2048_d0 : Shape.Concatenates [S512x2048, S128x2048, S32x2048] S672x2048 0
  transposes_S672x2048_S2048x672_1_0 : S672x2048.Transposes [1, 0] S2048x672
  transposes_S1000x512_S512x1000_1_0 : S1000x512.Transposes [1, 0] S512x1000
  transposes_S3000x128_S128x3000_1_0 : S3000x128.Transposes [1, 0] S128x3000
  transposes_S27000x32_S32x27000_1_0 : S27000x32.Transposes [1, 0] S32x27000
  inb_S8x128_S8x128_0_0 : ∀ a, (![0, 0] : Fin 2 → Nat) a + S8x128.size a ≤ S8x128.size a
  h_S8x128 : 0 < S8x128.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  reduces_S128x2048_S128 : S128x2048.Reduces [1] S128
  shapeCasts_S128_S128x1 : S128.ShapeCasts S128x1
  broadcasts_S128x1_S128x2048 : S128x1.Broadcasts S128x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S2048x1003_S2048x1003_0_0 : ∀ a, (![0, 0] : Fin 2 → Nat) a + S2048x1003.size a ≤ S2048x1003.size a
  h_S2048x1003 : 0 < S2048x1003.numel
  shapeCasts_S2048x1003_S2048x1003 : S2048x1003.ShapeCasts S2048x1003
  reduces_S128x1003_S128 : S128x1003.Reduces [1] S128
  broadcasts_S128x1_S128x1003 : S128x1.Broadcasts S128x1003
  slices_S128x1003_o0_0_S128x1000 : S128x1003.Slices ![0, 0] S128x1000
  iota_S128x1000_d1_w32 : S128x1000.Iotas .tc 32 [1]
  broadcasts_S128x1_S128x1000 : S128x1.Broadcasts S128x1000
  reduces_S128x1000_S128 : S128x1000.Reduces [1] S128
  inb_S2048x672_S2048x672_0_0 : ∀ a, (![0, 0] : Fin 2 → Nat) a + S2048x672.size a ≤ S2048x672.size a
  h_S2048x672 : 0 < S2048x672.numel
  shapeCasts_S2048x672_S2048x672 : S2048x672.ShapeCasts S2048x672
  slices_S128x672_o0_0_S128x512 : S128x672.Slices ![0, 0] S128x512
  slices_S128x672_o0_512_S128x128 : S128x672.Slices ![0, 512] S128x128
  slices_S128x672_o0_640_S128x32 : S128x672.Slices ![0, 640] S128x32
  inb_S512x1000_S512x1000_0_0 : ∀ a, (![0, 0] : Fin 2 → Nat) a + S512x1000.size a ≤ S512x1000.size a
  h_S512x1000 : 0 < S512x1000.numel
  shapeCasts_S512x1000_S512x1000 : S512x1000.ShapeCasts S512x1000
  slices_S128x1003_o0_1000_S128x1 : S128x1003.Slices ![0, 1000] S128x1
  inb_S128x3000_S128x3000_0_0 : ∀ a, (![0, 0] : Fin 2 → Nat) a + S128x3000.size a ≤ S128x3000.size a
  h_S128x3000 : 0 < S128x3000.numel
  shapeCasts_S128x3000_S128x3000 : S128x3000.ShapeCasts S128x3000
  reduces_S128x3000_S128 : S128x3000.Reduces [1] S128
  broadcasts_S128x1_S128x3000 : S128x1.Broadcasts S128x3000
  iota_S128x3000_d1_w32 : S128x3000.Iotas .tc 32 [1]
  slices_S128x1003_o0_1001_S128x1 : S128x1003.Slices ![0, 1001] S128x1
  inb_S32x27000_S32x27000_0_0 : ∀ a, (![0, 0] : Fin 2 → Nat) a + S32x27000.size a ≤ S32x27000.size a
  h_S32x27000 : 0 < S32x27000.numel
  shapeCasts_S32x27000_S32x27000 : S32x27000.ShapeCasts S32x27000
  slices_S32x27000_o0_0_S32x2250 : S32x27000.Slices ![0, 0] S32x2250
  reduces_S128x2250_S128 : S128x2250.Reduces [1] S128
  broadcasts_S128x1_S128x2250 : S128x1.Broadcasts S128x2250
  iota_S128x2250_d1_w32 : S128x2250.Iotas .tc 32 [1]
  slices_S32x27000_o0_2250_S32x2250 : S32x27000.Slices ![0, 2250] S32x2250
  slices_S32x27000_o0_4500_S32x2250 : S32x27000.Slices ![0, 4500] S32x2250
  slices_S32x27000_o0_6750_S32x2250 : S32x27000.Slices ![0, 6750] S32x2250
  slices_S32x27000_o0_9000_S32x2250 : S32x27000.Slices ![0, 9000] S32x2250
  slices_S32x27000_o0_11250_S32x2250 : S32x27000.Slices ![0, 11250] S32x2250
  slices_S32x27000_o0_13500_S32x2250 : S32x27000.Slices ![0, 13500] S32x2250
  slices_S32x27000_o0_15750_S32x2250 : S32x27000.Slices ![0, 15750] S32x2250
  slices_S32x27000_o0_18000_S32x2250 : S32x27000.Slices ![0, 18000] S32x2250
  slices_S32x27000_o0_20250_S32x2250 : S32x27000.Slices ![0, 20250] S32x2250
  slices_S32x27000_o0_22500_S32x2250 : S32x27000.Slices ![0, 22500] S32x2250
  slices_S32x27000_o0_24750_S32x2250 : S32x27000.Slices ![0, 24750] S32x2250
  slices_S128x1003_o0_1002_S128x1 : S128x1003.Slices ![0, 1002] S128x1
  shapeCasts_S128x1_S1x128x1 : S128x1.ShapeCasts S1x128x1
  reduces_S1x128x1_S1 : S1x128x1.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  shapeCasts_S8x128_S8x128 : S8x128.ShapeCasts S8x128
  reducesTo_S16x128_S_d0_1 : S16x128.ReducesTo [0, 1] S_
  dot_S128x2048_S2048x1003_S128x1003_1_0_0_1_n_n_wf : DotDims.WF S128x2048 S2048x1003 S128x1003 [1] [0] [0] [1] [] []
  dot_S128x2048_S2048x672_S128x672_1_0_0_1_n_n_wf : DotDims.WF S128x2048 S2048x672 S128x672 [1] [0] [0] [1] [] []
  dot_S128x512_S512x1000_S128x1000_1_0_0_1_n_n_wf : DotDims.WF S128x512 S512x1000 S128x1000 [1] [0] [0] [1] [] []
  dot_S128x128_S128x3000_S128x3000_1_0_0_1_n_n_wf : DotDims.WF S128x128 S128x3000 S128x3000 [1] [0] [0] [1] [] []
  dot_S128x32_S32x2250_S128x2250_1_0_0_1_n_n_wf : DotDims.WF S128x32 S32x2250 S128x2250 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S4096x2048.size a
  hwx0_0 : ∀ i : grid0.Coords, EltTy.bits .f32 = 32 ∨ (Rect.block (s := S4096x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .i32 = 32 ∨ (Rect.block (s := S4096x1) S128x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1003.size a ≤ S2048x1003.size a
  hwx0_4 : ∀ i : grid0.Coords, EltTy.bits .bf16 = 32 ∨ (Rect.block (s := S2048x1003) S2048x1003.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x672.size a ≤ S2048x672.size a
  hwx0_5 : ∀ i : grid0.Coords, EltTy.bits .bf16 = 32 ∨ (Rect.block (s := S2048x672) S2048x672.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1000.size a ≤ S512x1000.size a
  hwx0_6 : ∀ i : grid0.Coords, EltTy.bits .bf16 = 32 ∨ (Rect.block (s := S512x1000) S512x1000.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x3000.size a ≤ S128x3000.size a
  hwx0_7 : ∀ i : grid0.Coords, EltTy.bits .bf16 = 32 ∨ (Rect.block (s := S128x3000) S128x3000.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x27000.size a ≤ S32x27000.size a
  hwx0_8 : ∀ i : grid0.Coords, EltTy.bits .bf16 = 32 ∨ (Rect.block (s := S32x27000) S32x27000.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x128.size a ≤ S16x128.size a
  hwx0_9 : ∀ i : grid0.Coords, EltTy.bits .f32 = 32 ∨ (Rect.block (s := S16x128) S8x128.size (cc0_transform_9 i) (hinb0_9 i)).WholeWords (EltTy.packing .f32)

variable [Facts₀]

def dot_S128x2048_S2048x1003_S128x1003_1_0_0_1_n_n : DotDims S128x2048 S2048x1003 S128x1003 where
  lhsContracting := [1]
  rhsContracting := [0]
  lhsNonContracting := [0]
  rhsNonContracting := [1]
  lhsBatch := []
  rhsBatch := []
  wf := dot_S128x2048_S2048x1003_S128x1003_1_0_0_1_n_n_wf
def dot_S128x2048_S2048x672_S128x672_1_0_0_1_n_n : DotDims S128x2048 S2048x672 S128x672 where
  lhsContracting := [1]
  rhsContracting := [0]
  lhsNonContracting := [0]
  rhsNonContracting := [1]
  lhsBatch := []
  rhsBatch := []
  wf := dot_S128x2048_S2048x672_S128x672_1_0_0_1_n_n_wf
def dot_S128x512_S512x1000_S128x1000_1_0_0_1_n_n : DotDims S128x512 S512x1000 S128x1000 where
  lhsContracting := [1]
  rhsContracting := [0]
  lhsNonContracting := [0]
  rhsNonContracting := [1]
  lhsBatch := []
  rhsBatch := []
  wf := dot_S128x512_S512x1000_S128x1000_1_0_0_1_n_n_wf
def dot_S128x128_S128x3000_S128x3000_1_0_0_1_n_n : DotDims S128x128 S128x3000 S128x3000 where
  lhsContracting := [1]
  rhsContracting := [0]
  lhsNonContracting := [0]
  rhsNonContracting := [1]
  lhsBatch := []
  rhsBatch := []
  wf := dot_S128x128_S128x3000_S128x3000_1_0_0_1_n_n_wf
def dot_S128x32_S32x2250_S128x2250_1_0_0_1_n_n : DotDims S128x32 S32x2250 S128x2250 where
  lhsContracting := [1]
  rhsContracting := [0]
  lhsNonContracting := [0]
  rhsNonContracting := [1]
  lhsBatch := []
  rhsBatch := []
  wf := dot_S128x32_S32x2250_S128x2250_1_0_0_1_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1003.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S2048x672.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S512x1000.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S128x3000.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S32x27000.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S8x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x2048x2048 : Shape := ⟨3, ![2, 2048, 2048]⟩
abbrev S2x2048 : Shape := ⟨2, ![2, 2048]⟩
abbrev S2048 : Shape := ⟨1, ![2048]⟩
abbrev S1003x2048 : Shape := ⟨2, ![1003, 2048]⟩
abbrev S512x2048 : Shape := ⟨2, ![512, 2048]⟩
abbrev S1000x512 : Shape := ⟨2, ![1000, 512]⟩
abbrev S128x2048 : Shape := ⟨2, ![128, 2048]⟩
abbrev S3000x128 : Shape := ⟨2, ![3000, 128]⟩
abbrev S32x2048 : Shape := ⟨2, ![32, 2048]⟩
abbrev S27000x32 : Shape := ⟨2, ![27000, 32]⟩
abbrev S_ : Shape := ⟨0, ![]⟩
abbrev S2x2048x1 : Shape := ⟨3, ![2, 2048, 1]⟩
abbrev S1x1x2048 : Shape := ⟨3, ![1, 1, 2048]⟩
abbrev S2x2047x2048 : Shape := ⟨3, ![2, 2047, 2048]⟩
abbrev S4094x2048 : Shape := ⟨2, ![4094, 2048]⟩
abbrev S2x2047 : Shape := ⟨2, ![2, 2047]⟩
abbrev S4094 : Shape := ⟨1, ![4094]⟩
abbrev S2048x1003 : Shape := ⟨2, ![2048, 1003]⟩
abbrev S4094x1003 : Shape := ⟨2, ![4094, 1003]⟩
abbrev S4094x1 : Shape := ⟨2, ![4094, 1]⟩
abbrev S4094x2 : Shape := ⟨2, ![4094, 2]⟩
abbrev S2048x512 : Shape := ⟨2, ![2048, 512]⟩
abbrev S4094x512 : Shape := ⟨2, ![4094, 512]⟩
abbrev S512x1000 : Shape := ⟨2, ![512, 1000]⟩
abbrev S4094x1000 : Shape := ⟨2, ![4094, 1000]⟩
abbrev S2048x128 : Shape := ⟨2, ![2048, 128]⟩
abbrev S4094x128 : Shape := ⟨2, ![4094, 128]⟩
abbrev S128x3000 : Shape := ⟨2, ![128, 3000]⟩
abbrev S4094x3000 : Shape := ⟨2, ![4094, 3000]⟩
abbrev S2048x32 : Shape := ⟨2, ![2048, 32]⟩
abbrev S4094x32 : Shape := ⟨2, ![4094, 32]⟩
abbrev S32x27000 : Shape := ⟨2, ![32, 27000]⟩
abbrev S4094x27000 : Shape := ⟨2, ![4094, 27000]⟩

abbrev nBuf : Space → Nat
  | .hbm => 270
  | .vmem => 0
  | .smem => 0
  | _ => 0

abbrev hbmTy0_0 (i : Nat) : BufTy := match i % 128 with
  | 0 => ⟨S2x2048x2048, .f32⟩
  | 1 => ⟨S2x2048, .i32⟩
  | 2 => ⟨S2048, .f32⟩
  | 3 => ⟨S2048, .f32⟩
  | 4 => ⟨S1003x2048, .f32⟩
  | 5 => ⟨S512x2048, .f32⟩
  | 6 => ⟨S1000x512, .f32⟩
  | 7 => ⟨S128x2048, .f32⟩
  | 8 => ⟨S3000x128, .f32⟩
  | 9 => ⟨S32x2048, .f32⟩
  | 10 => ⟨S27000x32, .f32⟩
  | 11 => ⟨S_, .f32⟩
  | 12 => ⟨S2x2048, .f32⟩
  | 13 => ⟨S2x2048x1, .f32⟩
  | 14 => ⟨S_, .f32⟩
  | 15 => ⟨S2x2048x1, .f32⟩
  | 16 => ⟨S2x2048x1, .f32⟩
  | 17 => ⟨S2x2048x2048, .f32⟩
  | 18 => ⟨S2x2048x2048, .f32⟩
  | 19 => ⟨S2x2048x2048, .f32⟩
  | 20 => ⟨S_, .f32⟩
  | 21 => ⟨S2x2048, .f32⟩
  | 22 => ⟨S2x2048x1, .f32⟩
  | 23 => ⟨S_, .f32⟩
  | 24 => ⟨S2x2048x1, .f32⟩
  | 25 => ⟨S2x2048x1, .f32⟩
  | 26 => ⟨S2x2048x2048, .f32⟩
  | 27 => ⟨S2x2048x2048, .f32⟩
  | 28 => ⟨S_, .f32⟩
  | 29 => ⟨S2x2048x1, .f32⟩
  | 30 => ⟨S2x2048x1, .f32⟩
  | 31 => ⟨S2x2048x1, .f32⟩
  | 32 => ⟨S2x2048x2048, .f32⟩
  | 33 => ⟨S2x2048x2048, .f32⟩
  | 34 => ⟨S1x1x2048, .f32⟩
  | 35 => ⟨S2x2048x2048, .f32⟩
  | 36 => ⟨S2x2048x2048, .f32⟩
  | 37 => ⟨S1x1x2048, .f32⟩
  | 38 => ⟨S2x2048x2048, .f32⟩
  | 39 => ⟨S2x2048x2048, .f32⟩
  | 40 => ⟨S2x2047x2048, .f32⟩
  | 41 => ⟨S4094x2048, .f32⟩
  | 42 => ⟨S2x2047, .i32⟩
  | 43 => ⟨S4094, .i32⟩
  | 44 => ⟨S4094, .i32⟩
  | 45 => ⟨S2048x1003, .f32⟩
  | 46 => ⟨S4094x1003, .f32⟩
  | 47 => ⟨S_, .f32⟩
  | 48 => ⟨S4094, .f32⟩
  | 49 => ⟨S_, .f32⟩
  | 50 => ⟨S4094, .f32⟩
  | 51 => ⟨S4094, .f32⟩
  | 52 => ⟨S4094x1, .f32⟩
  | 53 => ⟨S4094x1003, .f32⟩
  | 54 => ⟨S4094x1003, .f32⟩
  | 55 => ⟨S4094x1003, .f32⟩
  | 56 => ⟨S_, .f32⟩
  | 57 => ⟨S4094, .f32⟩
  | 58 => ⟨S4094x1, .f32⟩
  | 59 => ⟨S4094x1, .f32⟩
  | 60 => ⟨S4094x1003, .f32⟩
  | 61 => ⟨S4094x1003, .f32⟩
  | 62 => ⟨S_, .i32⟩
  | 63 => ⟨S_, .i32⟩
  | 64 => ⟨S_, .i32⟩
  | 65 => ⟨S4094, .i32⟩
  | 66 => ⟨S4094, .i32⟩
  | 67 => ⟨S_, .i32⟩
  | 68 => ⟨S4094, .i32⟩
  | 69 => ⟨S4094, .i32⟩
  | 70 => ⟨S_, .i32⟩
  | 71 => ⟨S4094, .i32⟩
  | 72 => ⟨S4094, .i1⟩
  | 73 => ⟨S_, .i32⟩
  | 74 => ⟨S4094, .i32⟩
  | 75 => ⟨S4094, .i32⟩
  | 76 => ⟨S4094, .i32⟩
  | 77 => ⟨S_, .i32⟩
  | 78 => ⟨S4094, .i32⟩
  | 79 => ⟨S4094, .i1⟩
  | 80 => ⟨S_, .i32⟩
  | 81 => ⟨S4094, .i32⟩
  | 82 => ⟨S4094, .i32⟩
  | 83 => ⟨S4094, .i32⟩
  | 84 => ⟨S4094x1, .i32⟩
  | 85 => ⟨S4094x1, .i32⟩
  | 86 => ⟨S4094x2, .i32⟩
  | 87 => ⟨S4094, .f32⟩
  | 88 => ⟨S2048x512, .f32⟩
  | 89 => ⟨S4094x512, .f32⟩
  | 90 => ⟨S512x1000, .f32⟩
  | 91 => ⟨S4094x1000, .f32⟩
  | 92 => ⟨S_, .f32⟩
  | 93 => ⟨S4094, .f32⟩
  | 94 => ⟨S_, .f32⟩
  | 95 => ⟨S4094, .f32⟩
  | 96 => ⟨S4094, .f32⟩
  | 97 => ⟨S4094x1, .f32⟩
  | 98 => ⟨S4094x1000, .f32⟩
  | 99 => ⟨S4094x1000, .f32⟩
  | 100 => ⟨S4094x1000, .f32⟩
  | 101 => ⟨S_, .f32⟩
  | 102 => ⟨S4094, .f32⟩
  | 103 => ⟨S4094x1, .f32⟩
  | 104 => ⟨S4094x1, .f32⟩
  | 105 => ⟨S4094x1000, .f32⟩
  | 106 => ⟨S4094x1000, .f32⟩
  | 107 => ⟨S_, .i32⟩
  | 108 => ⟨S4094, .i32⟩
  | 109 => ⟨S4094, .i32⟩
  | 110 => ⟨S_, .i32⟩
  | 111 => ⟨S_, .i32⟩
  | 112 => ⟨S_, .i32⟩
  | 113 => ⟨S4094, .i32⟩
  | 114 => ⟨S4094, .i32⟩
  | 115 => ⟨S_, .i32⟩
  | 116 => ⟨S4094, .i32⟩
  | 117 => ⟨S4094, .i32⟩
  | 118 => ⟨S4094x1, .f32⟩
  | 119 => ⟨S4094, .f32⟩
  | 120 => ⟨S_, .i32⟩
  | 121 => ⟨S4094, .i32⟩
  | 122 => ⟨S4094, .i1⟩
  | 123 => ⟨S_, .i32⟩
  | 124 => ⟨S4094, .i32⟩
  | 125 => ⟨S4094, .i32⟩
  | 126 => ⟨S4094, .i32⟩
  | 127 => ⟨S_, .i32⟩
  | _ => ⟨S2x2048x2048, .f32⟩

abbrev hbmTy0_1 (i : Nat) : BufTy := match i % 128 with
  | 0 => ⟨S4094, .i32⟩
  | 1 => ⟨S4094, .i1⟩
  | 2 => ⟨S_, .i32⟩
  | 3 => ⟨S4094, .i32⟩
  | 4 => ⟨S4094, .i32⟩
  | 5 => ⟨S4094, .i32⟩
  | 6 => ⟨S4094x1, .i32⟩
  | 7 => ⟨S4094x1, .i32⟩
  | 8 => ⟨S4094x2, .i32⟩
  | 9 => ⟨S4094, .f32⟩
  | 10 => ⟨S4094, .f32⟩
  | 11 => ⟨S_, .i32⟩
  | 12 => ⟨S4094, .i32⟩
  | 13 => ⟨S4094, .i1⟩
  | 14 => ⟨S_, .i32⟩
  | 15 => ⟨S4094, .i32⟩
  | 16 => ⟨S4094, .i1⟩
  | 17 => ⟨S4094, .i1⟩
  | 18 => ⟨S4094, .f32⟩
  | 19 => ⟨S2048x128, .f32⟩
  | 20 => ⟨S4094x128, .f32⟩
  | 21 => ⟨S128x3000, .f32⟩
  | 22 => ⟨S4094x3000, .f32⟩
  | 23 => ⟨S_, .f32⟩
  | 24 => ⟨S4094, .f32⟩
  | 25 => ⟨S_, .f32⟩
  | 26 => ⟨S4094, .f32⟩
  | 27 => ⟨S4094, .f32⟩
  | 28 => ⟨S4094x1, .f32⟩
  | 29 => ⟨S4094x3000, .f32⟩
  | 30 => ⟨S4094x3000, .f32⟩
  | 31 => ⟨S4094x3000, .f32⟩
  | 32 => ⟨S_, .f32⟩
  | 33 => ⟨S4094, .f32⟩
  | 34 => ⟨S4094x1, .f32⟩
  | 35 => ⟨S4094x1, .f32⟩
  | 36 => ⟨S4094x3000, .f32⟩
  | 37 => ⟨S4094x3000, .f32⟩
  | 38 => ⟨S_, .i32⟩
  | 39 => ⟨S4094, .i32⟩
  | 40 => ⟨S4094, .i32⟩
  | 41 => ⟨S_, .i32⟩
  | 42 => ⟨S_, .i32⟩
  | 43 => ⟨S_, .i32⟩
  | 44 => ⟨S4094, .i32⟩
  | 45 => ⟨S4094, .i32⟩
  | 46 => ⟨S_, .i32⟩
  | 47 => ⟨S4094, .i32⟩
  | 48 => ⟨S4094, .i32⟩
  | 49 => ⟨S4094x1, .f32⟩
  | 50 => ⟨S4094, .f32⟩
  | 51 => ⟨S_, .i32⟩
  | 52 => ⟨S4094, .i32⟩
  | 53 => ⟨S4094, .i1⟩
  | 54 => ⟨S_, .i32⟩
  | 55 => ⟨S4094, .i32⟩
  | 56 => ⟨S4094, .i32⟩
  | 57 => ⟨S4094, .i32⟩
  | 58 => ⟨S_, .i32⟩
  | 59 => ⟨S4094, .i32⟩
  | 60 => ⟨S4094, .i1⟩
  | 61 => ⟨S_, .i32⟩
  | 62 => ⟨S4094, .i32⟩
  | 63 => ⟨S4094, .i32⟩
  | 64 => ⟨S4094, .i32⟩
  | 65 => ⟨S4094x1, .i32⟩
  | 66 => ⟨S4094x1, .i32⟩
  | 67 => ⟨S4094x2, .i32⟩
  | 68 => ⟨S4094, .f32⟩
  | 69 => ⟨S4094, .f32⟩
  | 70 => ⟨S_, .i32⟩
  | 71 => ⟨S4094, .i32⟩
  | 72 => ⟨S4094, .i1⟩
  | 73 => ⟨S_, .i32⟩
  | 74 => ⟨S4094, .i32⟩
  | 75 => ⟨S4094, .i1⟩
  | 76 => ⟨S4094, .i1⟩
  | 77 => ⟨S4094, .f32⟩
  | 78 => ⟨S2048x32, .f32⟩
  | 79 => ⟨S4094x32, .f32⟩
  | 80 => ⟨S32x27000, .f32⟩
  | 81 => ⟨S4094x27000, .f32⟩
  | 82 => ⟨S_, .f32⟩
  | 83 => ⟨S4094, .f32⟩
  | 84 => ⟨S_, .f32⟩
  | 85 => ⟨S4094, .f32⟩
  | 86 => ⟨S4094, .f32⟩
  | 87 => ⟨S4094x1, .f32⟩
  | 88 => ⟨S4094x27000, .f32⟩
  | 89 => ⟨S4094x27000, .f32⟩
  | 90 => ⟨S4094x27000, .f32⟩
  | 91 => ⟨S_, .f32⟩
  | 92 => ⟨S4094, .f32⟩
  | 93 => ⟨S4094x1, .f32⟩
  | 94 => ⟨S4094x1, .f32⟩
  | 95 => ⟨S4094x27000, .f32⟩
  | 96 => ⟨S4094x27000, .f32⟩
  | 97 => ⟨S_, .i32⟩
  | 98 => ⟨S4094, .i32⟩
  | 99 => ⟨S4094, .i32⟩
  | 100 => ⟨S_, .i32⟩
  | 101 => ⟨S_, .i32⟩
  | 102 => ⟨S_, .i32⟩
  | 103 => ⟨S4094, .i32⟩
  | 104 => ⟨S4094, .i32⟩
  | 105 => ⟨S_, .i32⟩
  | 106 => ⟨S4094, .i32⟩
  | 107 => ⟨S4094, .i32⟩
  | 108 => ⟨S4094x1, .f32⟩
  | 109 => ⟨S4094, .f32⟩
  | 110 => ⟨S_, .i32⟩
  | 111 => ⟨S4094, .i32⟩
  | 112 => ⟨S4094, .i1⟩
  | 113 => ⟨S_, .i32⟩
  | 114 => ⟨S4094, .i32⟩
  | 115 => ⟨S4094, .i32⟩
  | 116 => ⟨S4094, .i32⟩
  | 117 => ⟨S_, .i32⟩
  | 118 => ⟨S4094, .i32⟩
  | 119 => ⟨S4094, .i1⟩
  | 120 => ⟨S_, .i32⟩
  | 121 => ⟨S4094, .i32⟩
  | 122 => ⟨S4094, .i32⟩
  | 123 => ⟨S4094, .i32⟩
  | 124 => ⟨S4094x1, .i32⟩
  | 125 => ⟨S4094x1, .i32⟩
  | 126 => ⟨S4094x2, .i32⟩
  | 127 => ⟨S4094, .f32⟩
  | _ => ⟨S2x2048x2048, .f32⟩

abbrev hbmTy0_2 (i : Nat) : BufTy := match i % 128 with
  | 0 => ⟨S4094, .f32⟩
  | 1 => ⟨S_, .i32⟩
  | 2 => ⟨S4094, .i32⟩
  | 3 => ⟨S4094, .i1⟩
  | 4 => ⟨S_, .i32⟩
  | 5 => ⟨S4094, .i32⟩
  | 6 => ⟨S4094, .i1⟩
  | 7 => ⟨S4094, .i1⟩
  | 8 => ⟨S4094, .f32⟩
  | 9 => ⟨S_, .f32⟩
  | 10 => ⟨S_, .f32⟩
  | 11 => ⟨S_, .f32⟩
  | 12 => ⟨S_, .f32⟩
  | 13 => ⟨S_, .f32⟩
  | _ => ⟨S2x2048x2048, .f32⟩

abbrev hbmTy (i : Nat) : BufTy := match i / 128 with
  | 0 => hbmTy0_0 i
  | 1 => hbmTy0_1 i
  | 2 => hbmTy0_2 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_call0_cst_0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_cst_1 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_v31 : Ref sig .tc := ⟨.hbm, 61, rfl⟩
abbrev main_c : Ref sig .tc := ⟨.hbm, 62, rfl⟩
abbrev main_c_4 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_v32 : Ref sig .tc := ⟨.hbm, 69, rfl⟩
abbrev main_c_5 : Ref sig .tc := ⟨.hbm, 70, rfl⟩
abbrev main_v33 : Ref sig .tc := ⟨.hbm, 71, rfl⟩
abbrev main_v34 : Ref sig .tc := ⟨.hbm, 72, rfl⟩
abbrev main_c_6 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_c_7 : Ref sig .tc := ⟨.hbm, 77, rfl⟩
abbrev main_v38 : Ref sig .tc := ⟨.hbm, 78, rfl⟩
abbrev main_v39 : Ref sig .tc := ⟨.hbm, 79, rfl⟩
abbrev main_c_8 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_call2_cst : Ref sig .tc := ⟨.hbm, 92, rfl⟩
abbrev main_call2_v0 : Ref sig .tc := ⟨.hbm, 93, rfl⟩
abbrev main_call2_cst_0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_cst_1 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_v51 : Ref sig .tc := ⟨.hbm, 106, rfl⟩
abbrev main_c_9 : Ref sig .tc := ⟨.hbm, 107, rfl⟩
abbrev main_v52 : Ref sig .tc := ⟨.hbm, 108, rfl⟩
abbrev main_v53 : Ref sig .tc := ⟨.hbm, 109, rfl⟩
abbrev main_c_10 : Ref sig .tc := ⟨.hbm, 110, rfl⟩
abbrev main_c_11 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_c_12 : Ref sig .tc := ⟨.hbm, 120, rfl⟩
abbrev main_v57 : Ref sig .tc := ⟨.hbm, 121, rfl⟩
abbrev main_v58 : Ref sig .tc := ⟨.hbm, 122, rfl⟩
abbrev main_c_13 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_c_14 : Ref sig .tc := ⟨.hbm, 127, rfl⟩
abbrev main_v62 : Ref sig .tc := ⟨.hbm, 128, rfl⟩
abbrev main_v63 : Ref sig .tc := ⟨.hbm, 129, rfl⟩
abbrev main_c_15 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_c_16 : Ref sig .tc := ⟨.hbm, 139, rfl⟩
abbrev main_v72 : Ref sig .tc := ⟨.hbm, 140, rfl⟩
abbrev main_v73 : Ref sig .tc := ⟨.hbm, 141, rfl⟩
abbrev main_c_17 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_call5_cst : Ref sig .tc := ⟨.hbm, 151, rfl⟩
abbrev main_call5_v0 : Ref sig .tc := ⟨.hbm, 152, rfl⟩
abbrev main_call5_cst_0 : Ref sig .tc := ⟨.hbm, 153, rfl⟩
abbrev main_call5_v1 : Ref sig .tc := ⟨.hbm, 154, rfl⟩
abbrev main_call5_v2 : Ref sig .tc := ⟨.hbm, 155, rfl⟩
abbrev main_call5_v3 : Ref sig .tc := ⟨.hbm, 156, rfl⟩
abbrev main_call5_v4 : Ref sig .tc := ⟨.hbm, 157, rfl⟩
abbrev main_call5_v5 : Ref sig .tc := ⟨.hbm, 158, rfl⟩
abbrev main_call5_v6 : Ref sig .tc := ⟨.hbm, 159, rfl⟩
abbrev main_call5_cst_1 : Ref sig .tc := ⟨.hbm, 160, rfl⟩
abbrev main_call5_v7 : Ref sig .tc := ⟨.hbm, 161, rfl⟩
abbrev main_call5_v8 : Ref sig .tc := ⟨.hbm, 162, rfl⟩
abbrev main_call5_v9 : Ref sig .tc := ⟨.hbm, 163, rfl⟩
abbrev main_call5_v10 : Ref sig .tc := ⟨.hbm, 164, rfl⟩
abbrev main_v82 : Ref sig .tc := ⟨.hbm, 165, rfl⟩
abbrev main_c_18 : Ref sig .tc := ⟨.hbm, 166, rfl⟩
abbrev main_v83 : Ref sig .tc := ⟨.hbm, 167, rfl⟩
abbrev main_v84 : Ref sig .tc := ⟨.hbm, 168, rfl⟩
abbrev main_c_19 : Ref sig .tc := ⟨.hbm, 169, rfl⟩
abbrev main_c_20 : Ref sig .tc := ⟨.hbm, 170, rfl⟩
abbrev main_call6_v0 : Ref sig .tc := ⟨.hbm, 171, rfl⟩
abbrev main_call6_v1 : Ref sig .tc := ⟨.hbm, 172, rfl⟩
abbrev main_call6_v2 : Ref sig .tc := ⟨.hbm, 173, rfl⟩
abbrev main_call6_v3 : Ref sig .tc := ⟨.hbm, 174, rfl⟩
abbrev main_call6_v4 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_c_21 : Ref sig .tc := ⟨.hbm, 179, rfl⟩
abbrev main_v88 : Ref sig .tc := ⟨.hbm, 180, rfl⟩
abbrev main_v89 : Ref sig .tc := ⟨.hbm, 181, rfl⟩
abbrev main_c_22 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_c_23 : Ref sig .tc := ⟨.hbm, 186, rfl⟩
abbrev main_v93 : Ref sig .tc := ⟨.hbm, 187, rfl⟩
abbrev main_v94 : Ref sig .tc := ⟨.hbm, 188, rfl⟩
abbrev main_c_24 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_c_25 : Ref sig .tc := ⟨.hbm, 198, rfl⟩
abbrev main_v103 : Ref sig .tc := ⟨.hbm, 199, rfl⟩
abbrev main_v104 : Ref sig .tc := ⟨.hbm, 200, rfl⟩
abbrev main_c_26 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_v112 : Ref sig .tc := ⟨.hbm, 209, rfl⟩
abbrev main_call8_cst : Ref sig .tc := ⟨.hbm, 210, rfl⟩
abbrev main_call8_v0 : Ref sig .tc := ⟨.hbm, 211, rfl⟩
abbrev main_call8_cst_0 : Ref sig .tc := ⟨.hbm, 212, rfl⟩
abbrev main_call8_v1 : Ref sig .tc := ⟨.hbm, 213, rfl⟩
abbrev main_call8_v2 : Ref sig .tc := ⟨.hbm, 214, rfl⟩
abbrev main_call8_v3 : Ref sig .tc := ⟨.hbm, 215, rfl⟩
abbrev main_call8_v4 : Ref sig .tc := ⟨.hbm, 216, rfl⟩
abbrev main_call8_v5 : Ref sig .tc := ⟨.hbm, 217, rfl⟩
abbrev main_call8_v6 : Ref sig .tc := ⟨.hbm, 218, rfl⟩
abbrev main_call8_cst_1 : Ref sig .tc := ⟨.hbm, 219, rfl⟩
abbrev main_call8_v7 : Ref sig .tc := ⟨.hbm, 220, rfl⟩
abbrev main_call8_v8 : Ref sig .tc := ⟨.hbm, 221, rfl⟩
abbrev main_call8_v9 : Ref sig .tc := ⟨.hbm, 222, rfl⟩
abbrev main_call8_v10 : Ref sig .tc := ⟨.hbm, 223, rfl⟩
abbrev main_v113 : Ref sig .tc := ⟨.hbm, 224, rfl⟩
abbrev main_c_27 : Ref sig .tc := ⟨.hbm, 225, rfl⟩
abbrev main_v114 : Ref sig .tc := ⟨.hbm, 226, rfl⟩
abbrev main_v115 : Ref sig .tc := ⟨.hbm, 227, rfl⟩
abbrev main_c_28 : Ref sig .tc := ⟨.hbm, 228, rfl⟩
abbrev main_c_29 : Ref sig .tc := ⟨.hbm, 229, rfl⟩
abbrev main_call9_v0 : Ref sig .tc := ⟨.hbm, 230, rfl⟩
abbrev main_call9_v1 : Ref sig .tc := ⟨.hbm, 231, rfl⟩
abbrev main_call9_v2 : Ref sig .tc := ⟨.hbm, 232, rfl⟩
abbrev main_call9_v3 : Ref sig .tc := ⟨.hbm, 233, rfl⟩
abbrev main_call9_v4 : Ref sig .tc := ⟨.hbm, 234, rfl⟩
abbrev main_v116 : Ref sig .tc := ⟨.hbm, 235, rfl⟩
abbrev main_v117 : Ref sig .tc := ⟨.hbm, 236, rfl⟩
abbrev main_v118 : Ref sig .tc := ⟨.hbm, 237, rfl⟩
abbrev main_c_30 : Ref sig .tc := ⟨.hbm, 238, rfl⟩
abbrev main_v119 : Ref sig .tc := ⟨.hbm, 239, rfl⟩
abbrev main_v120 : Ref sig .tc := ⟨.hbm, 240, rfl⟩
abbrev main_c_31 : Ref sig .tc := ⟨.hbm, 241, rfl⟩
abbrev main_v121 : Ref sig .tc := ⟨.hbm, 242, rfl⟩
abbrev main_v122 : Ref sig .tc := ⟨.hbm, 243, rfl⟩
abbrev main_v123 : Ref sig .tc := ⟨.hbm, 244, rfl⟩
abbrev main_c_32 : Ref sig .tc := ⟨.hbm, 245, rfl⟩
abbrev main_v124 : Ref sig .tc := ⟨.hbm, 246, rfl⟩
abbrev main_v125 : Ref sig .tc := ⟨.hbm, 247, rfl⟩
abbrev main_c_33 : Ref sig .tc := ⟨.hbm, 248, rfl⟩
abbrev main_v126 : Ref sig .tc := ⟨.hbm, 249, rfl⟩
abbrev main_v127 : Ref sig .tc := ⟨.hbm, 250, rfl⟩
abbrev main_v128 : Ref sig .tc := ⟨.hbm, 251, rfl⟩
abbrev main_v129 : Ref sig .tc := ⟨.hbm, 252, rfl⟩
abbrev main_v130 : Ref sig .tc := ⟨.hbm, 253, rfl⟩
abbrev main_v131 : Ref sig .tc := ⟨.hbm, 254, rfl⟩
abbrev main_v132 : Ref sig .tc := ⟨.hbm, 255, rfl⟩
abbrev main_v133 : Ref sig .tc := ⟨.hbm, 256, rfl⟩
abbrev main_c_34 : Ref sig .tc := ⟨.hbm, 257, rfl⟩
abbrev main_v134 : Ref sig .tc := ⟨.hbm, 258, rfl⟩
abbrev main_v135 : Ref sig .tc := ⟨.hbm, 259, rfl⟩
abbrev main_c_35 : Ref sig .tc := ⟨.hbm, 260, rfl⟩
abbrev main_v136 : Ref sig .tc := ⟨.hbm, 261, rfl⟩
abbrev main_v137 : Ref sig .tc := ⟨.hbm, 262, rfl⟩
abbrev main_v138 : Ref sig .tc := ⟨.hbm, 263, rfl⟩
abbrev main_v139 : Ref sig .tc := ⟨.hbm, 264, rfl⟩
abbrev main_cst_36 : Ref sig .tc := ⟨.hbm, 265, rfl⟩
abbrev main_v140 : Ref sig .tc := ⟨.hbm, 266, rfl⟩
abbrev main_cst_37 : Ref sig .tc := ⟨.hbm, 267, rfl⟩
abbrev main_v141 : Ref sig .tc := ⟨.hbm, 268, rfl⟩
abbrev main_v142 : Ref sig .tc := ⟨.hbm, 269, rfl⟩

abbrev nD : Nat := 1
abbrev τ : Topo := Topo.v7x

variable {F : FTy → Type} [FloatOps F]

class Facts₀ : Prop where
  reducesTo_S2x2048x2048_S2x2048_d2 : S2x2048x2048.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x2048_0_1_2 : S2x2048x1.BroadcastsInDim S2x2048x2048 (![0, 1, 2] : Fin 3 → Fin S2x2048x2048.rank)
  bcast_S2048_S1x1x2048_2 : S2048.BroadcastsInDim S1x1x2048 (![2] : Fin 1 → Fin S1x1x2048.rank)
  bcast_S1x1x2048_S2x2048x2048_0_1_2 : S1x1x2048.BroadcastsInDim S2x2048x2048 (![0, 1, 2] : Fin 3 → Fin S2x2048x2048.rank)
  slices_S2x2048x2048_S2x2047x2048_0_0_0 : S2x2048x2048.Slices ![0, 0, 0] S2x2047x2048
  shapeCasts_S2x2047x2048_S4094x2048 : S2x2047x2048.ShapeCasts S4094x2048
  slices_S2x2048_S2x2047_0_1 : S2x2048.Slices ![0, 1] S2x2047
  shapeCasts_S2x2047_S4094 : S2x2047.ShapeCasts S4094
  transposes_S1003x2048_S2048x1003_1_0 : S1003x2048.Transposes [1, 0] S2048x1003
  reducesTo_S4094x1003_S4094_d1 : S4094x1003.ReducesTo [1] S4094
  bcast_S_S4094 : S_.BroadcastsInDim S4094 (![] : Fin 0 → Fin S4094.rank)
  bcast_S4094_S4094x1_0 : S4094.BroadcastsInDim S4094x1 (![0] : Fin 1 → Fin S4094x1.rank)
  bcast_S4094x1_S4094x1003_0_1 : S4094x1.BroadcastsInDim S4094x1003 (![0, 1] : Fin 2 → Fin S4094x1003.rank)
  concatenates_S4094x1_S4094x1_S4094x2_d1 : Shape.Concatenates [S4094x1, S4094x1] S4094x2 1
  transposes_S512x2048_S2048x512_1_0 : S512x2048.Transposes [1, 0] S2048x512
  transposes_S1000x512_S512x1000_1_0 : S1000x512.Transposes [1, 0] S512x1000
  reducesTo_S4094x1000_S4094_d1 : S4094x1000.ReducesTo [1] S4094
  bcast_S4094x1_S4094x1000_0_1 : S4094x1.BroadcastsInDim S4094x1000 (![0, 1] : Fin 2 → Fin S4094x1000.rank)
  slices_S4094x1003_S4094x1_0_1000 : S4094x1003.Slices ![0, 1000] S4094x1
  shapeCasts_S4094x1_S4094 : S4094x1.ShapeCasts S4094
  transposes_S128x2048_S2048x128_1_0 : S128x2048.Transposes [1, 0] S2048x128
  transposes_S3000x128_S128x3000_1_0 : S3000x128.Transposes [1, 0] S128x3000
  reducesTo_S4094x3000_S4094_d1 : S4094x3000.ReducesTo [1] S4094
  bcast_S4094x1_S4094x3000_0_1 : S4094x1.BroadcastsInDim S4094x3000 (![0, 1] : Fin 2 → Fin S4094x3000.rank)
  slices_S4094x1003_S4094x1_0_1001 : S4094x1003.Slices ![0, 1001] S4094x1
  transposes_S32x2048_S2048x32_1_0 : S32x2048.Transposes [1, 0] S2048x32
  transposes_S27000x32_S32x27000_1_0 : S27000x32.Transposes [1, 0] S32x27000
  reducesTo_S4094x27000_S4094_d1 : S4094x27000.ReducesTo [1] S4094
  bcast_S4094x1_S4094x27000_0_1 : S4094x1.BroadcastsInDim S4094x27000 (![0, 1] : Fin 2 → Fin S4094x27000.rank)
  slices_S4094x1003_S4094x1_0_1002 : S4094x1003.Slices ![0, 1002] S4094x1
  reducesTo_S4094_S_d0 : S4094.ReducesTo [0] S_
  dot_S4094x2048_S2048x1003_S4094x1003_1_0_0_1_n_n_wf : DotDims.WF S4094x2048 S2048x1003 S4094x1003 [1] [0] [0] [1] [] []
  gather_S4094x1003_S4094x2_S4094_n_01_n_n_01_1_11_wf : GatherDims.WF S4094x1003 S4094x2 S4094 [] [0, 1] [] [0, 1] [] 1 ![1, 1]
  dot_S4094x2048_S2048x512_S4094x512_1_0_0_1_n_n_wf : DotDims.WF S4094x2048 S2048x512 S4094x512 [1] [0] [0] [1] [] []
  dot_S4094x512_S512x1000_S4094x1000_1_0_0_1_n_n_wf : DotDims.WF S4094x512 S512x1000 S4094x1000 [1] [0] [0] [1] [] []
  gather_S4094x1000_S4094x2_S4094_n_01_n_n_01_1_11_wf : GatherDims.WF S4094x1000 S4094x2 S4094 [] [0, 1] [] [0, 1] [] 1 ![1, 1]
  dot_S4094x2048_S2048x128_S4094x128_1_0_0_1_n_n_wf : DotDims.WF S4094x2048 S2048x128 S4094x128 [1] [0] [0] [1] [] []
  dot_S4094x128_S128x3000_S4094x3000_1_0_0_1_n_n_wf : DotDims.WF S4094x128 S128x3000 S4094x3000 [1] [0] [0] [1] [] []
  gather_S4094x3000_S4094x2_S4094_n_01_n_n_01_1_11_wf : GatherDims.WF S4094x3000 S4094x2 S4094 [] [0, 1] [] [0, 1] [] 1 ![1, 1]
  dot_S4094x2048_S2048x32_S4094x32_1_0_0_1_n_n_wf : DotDims.WF S4094x2048 S2048x32 S4094x32 [1] [0] [0] [1] [] []
  dot_S4094x32_S32x27000_S4094x27000_1_0_0_1_n_n_wf : DotDims.WF S4094x32 S32x27000 S4094x27000 [1] [0] [0] [1] [] []
  gather_S4094x27000_S4094x2_S4094_n_01_n_n_01_1_11_wf : GatherDims.WF S4094x27000 S4094x2 S4094 [] [0, 1] [] [0, 1] [] 1 ![1, 1]

variable [Facts₀]

def dot_S4094x2048_S2048x1003_S4094x1003_1_0_0_1_n_n : DotDims S4094x2048 S2048x1003 S4094x1003 where
  lhsContracting := [1]
  rhsContracting := [0]
  lhsNonContracting := [0]
  rhsNonContracting := [1]
  lhsBatch := []
  rhsBatch := []
  wf := dot_S4094x2048_S2048x1003_S4094x1003_1_0_0_1_n_n_wf
def gather_S4094x1003_S4094x2_S4094_n_01_n_n_01_1_11 : GatherDims S4094x1003 S4094x2 S4094 where
  offsetDims := []
  collapsedSliceDims := [0, 1]
  operandBatchingDims := []
  startIndicesBatchingDims := []
  startIndexMap := [0, 1]
  indexVectorDim := 1
  sliceSizes := ![1, 1]
  wf := gather_S4094x1003_S4094x2_S4094_n_01_n_n_01_1_11_wf
def dot_S4094x2048_S2048x512_S4094x512_1_0_0_1_n_n : DotDims S4094x2048 S2048x512 S4094x512 where
  lhsContracting := [1]
  rhsContracting := [0]
  lhsNonContracting := [0]
  rhsNonContracting := [1]
  lhsBatch := []
  rhsBatch := []
  wf := dot_S4094x2048_S2048x512_S4094x512_1_0_0_1_n_n_wf
def dot_S4094x512_S512x1000_S4094x1000_1_0_0_1_n_n : DotDims S4094x512 S512x1000 S4094x1000 where
  lhsContracting := [1]
  rhsContracting := [0]
  lhsNonContracting := [0]
  rhsNonContracting := [1]
  lhsBatch := []
  rhsBatch := []
  wf := dot_S4094x512_S512x1000_S4094x1000_1_0_0_1_n_n_wf
def gather_S4094x1000_S4094x2_S4094_n_01_n_n_01_1_11 : GatherDims S4094x1000 S4094x2 S4094 where
  offsetDims := []
  collapsedSliceDims := [0, 1]
  operandBatchingDims := []
  startIndicesBatchingDims := []
  startIndexMap := [0, 1]
  indexVectorDim := 1
  sliceSizes := ![1, 1]
  wf := gather_S4094x1000_S4094x2_S4094_n_01_n_n_01_1_11_wf
def dot_S4094x2048_S2048x128_S4094x128_1_0_0_1_n_n : DotDims S4094x2048 S2048x128 S4094x128 where
  lhsContracting := [1]
  rhsContracting := [0]
  lhsNonContracting := [0]
  rhsNonContracting := [1]
  lhsBatch := []
  rhsBatch := []
  wf := dot_S4094x2048_S2048x128_S4094x128_1_0_0_1_n_n_wf
def dot_S4094x128_S128x3000_S4094x3000_1_0_0_1_n_n : DotDims S4094x128 S128x3000 S4094x3000 where
  lhsContracting := [1]
  rhsContracting := [0]
  lhsNonContracting := [0]
  rhsNonContracting := [1]
  lhsBatch := []
  rhsBatch := []
  wf := dot_S4094x128_S128x3000_S4094x3000_1_0_0_1_n_n_wf
def gather_S4094x3000_S4094x2_S4094_n_01_n_n_01_1_11 : GatherDims S4094x3000 S4094x2 S4094 where
  offsetDims := []
  collapsedSliceDims := [0, 1]
  operandBatchingDims := []
  startIndicesBatchingDims := []
  startIndexMap := [0, 1]
  indexVectorDim := 1
  sliceSizes := ![1, 1]
  wf := gather_S4094x3000_S4094x2_S4094_n_01_n_n_01_1_11_wf
def dot_S4094x2048_S2048x32_S4094x32_1_0_0_1_n_n : DotDims S4094x2048 S2048x32 S4094x32 where
  lhsContracting := [1]
  rhsContracting := [0]
  lhsNonContracting := [0]
  rhsNonContracting := [1]
  lhsBatch := []
  rhsBatch := []
  wf := dot_S4094x2048_S2048x32_S4094x32_1_0_0_1_n_n_wf
def dot_S4094x32_S32x27000_S4094x27000_1_0_0_1_n_n : DotDims S4094x32 S32x27000 S4094x27000 where
  lhsContracting := [1]
  rhsContracting := [0]
  lhsNonContracting := [0]
  rhsNonContracting := [1]
  lhsBatch := []
  rhsBatch := []
  wf := dot_S4094x32_S32x27000_S4094x27000_1_0_0_1_n_n_wf
def gather_S4094x27000_S4094x2_S4094_n_01_n_n_01_1_11 : GatherDims S4094x27000 S4094x2 S4094 where
  offsetDims := []
  collapsedSliceDims := [0, 1]
  operandBatchingDims := []
  startIndicesBatchingDims := []
  startIndexMap := [0, 1]
  indexVectorDim := 1
  sliceSizes := ![1, 1]
  wf := gather_S4094x27000_S4094x2_S4094_n_01_n_n_01_1_11_wf

class Facts : Prop extends Facts₀ where

variable [Facts]
-- ==== Proof.BitsFrameCond.lean ====
/- The output block is zeroed exactly at the grid points whose second coordinate is zero. -/
import proofs.«407706_j38671885534012_3_alg».proof.Proof.Gen.Kernel.Launch
import proofs.«407706_j38671885534012_3_alg».proof.Proof.Gen.Kernel.Skeleton
import proofs.«407706_j38671885534012_3_alg».proof.Proof.Gen.Kernel.Points
import Idealize.ShloMosaic.Lib.Decide

noncomputable section

namespace Cert.Kernel.Frame

open Idealize.ShloMosaic Idealize.SL.Sem Cert.Kernel Cert.Kernel.Gen

abbrev cond0_0 (i : grid0.Coords) : Prop :=
  (Scalar.cmpi .ne (Scalar.extui (Scalar.cmpi .eq (BitVec.ofNat 32 (i 1).val) 0#32)) 0#32) = 1#1

theorem hcond0_0 : ∀ t : Fin cfg0.N, cond0_0 (grid0.coords t) ↔ t.val % 16 = 0 :=
  (by decide +kernel : ∀ t : Fin grid0.N, cond0_0 (grid0.coords t) ↔ t.val % 16 = 0)

end Cert.Kernel.Frame

end
-- ==== Proof.BitsFrameKit.lean ====
import proofs.«407706_j38671885534012_3_alg».proof.Proof.BitsFrameCond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

abbrev V0 (c : Dev nD) : Valuation τ sig (Elt F) :=
  StableHlo.after (List.flatten [hostOps0, hostOps0_1, hostOps0_2]) (fun b => m (c, b))
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; repeat' constructor) main_chain

local macro "not_written" : tactic => `(tactic| (
  simp only [hostOps0, hostOps0_1, hostOps0_2, hostOps1, List.flatten_cons, List.flatten_nil, List.append_nil, List.cons_append,
    List.nil_append, List.Forall, StableHlo.TRef.unary, StableHlo.TRef.binary, StableHlo.nullary_writes, StableHlo.unary_writes,
    StableHlo.binary_writes, StableHlo.nary_writes, StableHlo.reshape_writes, Finset.mem_singleton]
  repeat' apply And.intro
  all_goals exact StableHlo.devRef_ne_of_ne (by decide)))

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  exact List.forall_mem_singleton.mpr fun op hop => Pipeline.sub_ucRefs op (List.forall_iff_forall_mem.mp hostOps1_sub op hop)
theorem sfx_fresh : ∀ ops ∈ ([hostOps1] : List (List (HloOp τ sig (Elt F)))), ∀ op ∈ ops, op.fresh = ∅ :=
  List.forall_mem_singleton.mpr (List.forall_iff_forall_mem.mp hostOps1_fresh)
theorem sfx_keeps : ∀ ops ∈ ([hostOps1] : List (List (HloOp τ sig (Elt F)))), ∀ op ∈ ops,
    ∀ w, Proc.devRef .tc (Pipeline.arrRef spec0 w) ∉ op.writes :=
  List.forall_mem_singleton.mpr fun op hop w => by
    revert op; fin_cases w <;> refine List.forall_iff_forall_mem.mp ?_ <;> not_written

-- Contents that no operation of a list writes are unchanged by running the list.
theorem V_keep (c : Dev nD) (b : Ref sig .tc)
    (hw : (List.flatten [hostOps0, hostOps0_1, hostOps0_2] : List (HloOp τ sig (Elt F))).Forall fun op => Proc.devRef .tc b ∉ op.writes) :
    V m c b = m ((c : Thread nD τ).loc b) :=
  StableHlo.after_of_forall_not_mem _ _ (List.forall_iff_forall_mem.mp hw)

theorem V_main_arg2 (c : Dev nD) : V m c main_arg2 = m ((c : Thread nD τ).loc main_arg2) := V_keep m c _ (by not_written)
theorem V_main_arg3 (c : Dev nD) : V m c main_arg3 = m ((c : Thread nD τ).loc main_arg3) := V_keep m c _ (by not_written)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

-- The eleven argument arrays hold in `mem`, on core `c`, what they hold in `m`.
abbrev ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)

variable (dats : (p : Fin 1) → (c : Dev nD) → Dat τ (Elt F) Unit ℕ (UR sig nD τ) ℕ (cfgs p) c)
  {r : PUnit × MemSt nD τ sig (Elt F)} (h : Pipeline.FramePost cfgs dats 0 (Pipeline.afterTail₀ cfgs dats 0 (V0 m) [hostOps1]) r)
include h

-- A reference outside the region's arrays that no operation writes holds at the end what it held at launch.
theorem rest_kept (c : Dev nD) (b : Ref sig .tc) (hs : b.isScoped = false) (harr : ∀ w, Pipeline.arrRef spec0 w ≠ b)
    (hw : (List.flatten [hostOps0, hostOps0_1, hostOps0_2] : List (HloOp τ sig (Elt F))).Forall fun op => Proc.devRef .tc b ∉ op.writes)
    (hw1 : (List.flatten [hostOps1] : List (HloOp τ sig (Elt F))).Forall fun op => Proc.devRef .tc b ∉ op.writes) :
    r.2.mem ((c.tc : Thread nD τ).loc b) = m ((c.tc : Thread nD τ).loc b) := by
  rw [(h c).2 b (Pipeline.mem_restRefs_of b hs harr)]
  unfold Pipeline.afterTail₀
  rw [StableHlo.after_of_forall_not_mem _ _ (List.forall_iff_forall_mem.mp hw1), Pipeline.withArrays_of_ne _ c _ _ b harr]
  exact V_keep m c b hw

-- Arguments 2 and 3 are inputs of the region; the other nine lie outside its arrays and no operation writes them.
theorem args_kept (hA : ∀ c w, (dats 0 c).A w = V m c (Pipeline.arrRef spec0 w)) (c : Dev nD) : ArgsKept m r.2.mem c := by
  refine ⟨?_, ?_, ((h c).1 2).trans (((dats 0 c).arrAt_in 2 rfl _).trans ((hA c 2).trans (V_main_arg2 m c))),
    ((h c).1 3).trans (((dats 0 c).arrAt_in 3 rfl _).trans ((hA c 3).trans (V_main_arg3 m c))), ?_, ?_, ?_, ?_, ?_, ?_, ?_⟩ <;>
  exact rest_kept m dats h c _ (by decide) (by decide) (by not_written) (by not_written)

omit h

abbrev VO0_9 : View sig .tc .vmem S8x128 .f32 := (Memref.whole cc0_stg9_0 : Memref sig .tc .vmem S8x128 .f32).view
abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1003 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x672 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1000 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x3000 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x27000 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)

end Cert.Kernel.Frame

end
-- ==== Proof.BitsFrameRuns.lean ====
/- The body run whole in each of its two cases: the output block zeroed first, or found as the point before left it. -/
import proofs.«407706_j38671885534012_3_alg».proof.Proof.BitsFrameCond
import Idealize.ShloMosaic.Lib.Pipeline.FrameBody
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun0_A (c : Dev nD) (i : grid0.Coords) (arg2 : Memref sig .tc .vmem S128x2048 .f32) (harg2 : arg2.IsWhole) (arg3 : Memref sig .tc .vmem S128x1 .i32) (harg3 : arg3.IsWhole) (arg4 : Memref sig .tc .vmem S2048 .f32) (harg4 : arg4.IsWhole) (arg5 : Memref sig .tc .vmem S2048 .f32) (harg5 : arg5.IsWhole) (arg6 : Memref sig .tc .vmem S2048x1003 .bf16) (harg6 : arg6.IsWhole) (arg7 : Memref sig .tc .vmem S2048x672 .bf16) (harg7 : arg7.IsWhole) (arg8 : Memref sig .tc .vmem S512x1000 .bf16) (harg8 : arg8.IsWhole) (arg9 : Memref sig .tc .vmem S128x3000 .bf16) (harg9 : arg9.IsWhole) (arg10 : Memref sig .tc .vmem S32x27000 .bf16) (harg10 : arg10.IsWhole) (arg11 : Memref sig .tc .vmem S8x128 .f32) (harg11 : arg11.IsWhole) (hc0 : cond0_0 i)
    (x0 : Vec F S128x2048 .f32) (x1 : Vec F S128x1 .i32) (x2 : Vec F S2048 .f32) (x3 : Vec F S2048 .f32) (x4 : Vec F S2048x1003 .bf16) (x5 : Vec F S2048x672 .bf16) (x6 : Vec F S512x1000 .bf16) (x7 : Vec F S128x3000 .bf16) (x8 : Vec F S32x27000 .bf16) :
    { L9 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

set_option maxHeartbeats 4000000 in

noncomputable def kernelRun0_B (c : Dev nD) (i : grid0.Coords) (arg2 : Memref sig .tc .vmem S128x2048 .f32) (harg2 : arg2.IsWhole) (arg3 : Memref sig .tc .vmem S128x1 .i32) (harg3 : arg3.IsWhole) (arg4 : Memref sig .tc .vmem S2048 .f32) (harg4 : arg4.IsWhole) (arg5 : Memref sig .tc .vmem S2048 .f32) (harg5 : arg5.IsWhole) (arg6 : Memref sig .tc .vmem S2048x1003 .bf16) (harg6 : arg6.IsWhole) (arg7 : Memref sig .tc .vmem S2048x672 .bf16) (harg7 : arg7.IsWhole) (arg8 : Memref sig .tc .vmem S512x1000 .bf16) (harg8 : arg8.IsWhole) (arg9 : Memref sig .tc .vmem S128x3000 .bf16) (harg9 : arg9.IsWhole) (arg10 : Memref sig .tc .vmem S32x27000 .bf16) (harg10 : arg10.IsWhole) (arg11 : Memref sig .tc .vmem S8x128 .f32) (harg11 : arg11.IsWhole) (hc0 : ¬cond0_0 i)
    (x0 : Vec F S128x2048 .f32) (x1 : Vec F S128x1 .i32) (x2 : Vec F S2048 .f32) (x3 : Vec F S2048 .f32) (x4 : Vec F S2048x1003 .bf16) (x5 : Vec F S2048x672 .bf16) (x6 : Vec F S512x1000 .bf16) (x7 : Vec F S128x3000 .bf16) (x8 : Vec F S32x27000 .bf16) (xo9 : Vec F S8x128 .f32) :
    { L9 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

end Cert.Kernel.Frame

end
-- ==== Proof.BitsFrameMain.lean ====
import proofs.«407706_j38671885534012_3_alg».proof.Proof.BitsFrameKit
import proofs.«407706_j38671885534012_3_alg».proof.Proof.BitsFrameRuns

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S128x2048 .f32) (harg2 : arg2.IsWhole) (arg3 : Memref sig .tc .vmem S128x1 .i32) (harg3 : arg3.IsWhole) (arg4 : Memref sig .tc .vmem S2048 .f32) (harg4 : arg4.IsWhole) (arg5 : Memref sig .tc .vmem S2048 .f32) (harg5 : arg5.IsWhole) (arg6 : Memref sig .tc .vmem S2048x1003 .bf16) (harg6 : arg6.IsWhole) (arg7 : Memref sig .tc .vmem S2048x672 .bf16) (harg7 : arg7.IsWhole) (arg8 : Memref sig .tc .vmem S512x1000 .bf16) (harg8 : arg8.IsWhole) (arg9 : Memref sig .tc .vmem S128x3000 .bf16) (harg9 : arg9.IsWhole) (arg10 : Memref sig .tc .vmem S32x27000 .bf16) (harg10 : arg10.IsWhole) (arg11 : Memref sig .tc .vmem S8x128 .f32) (harg11 : arg11.IsWhole)

section
variable (hc0 : cond0_0 i) (x0 : Vec F S128x2048 .f32) (x1 : Vec F S128x1 .i32) (x2 : Vec F S2048 .f32) (x3 : Vec F S2048 .f32) (x4 : Vec F S2048x1003 .bf16) (x5 : Vec F S2048x672 .bf16) (x6 : Vec F S512x1000 .bf16) (x7 : Vec F S128x3000 .bf16) (x8 : Vec F S32x27000 .bf16)

-- The stored pieces tile the shape, so every index lies in one of them.
theorem cover0_A_9 (y : S8x128.Idx) : ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7 x8).1, y ∈ pc.1.set :=
  View.cover_of_tiledL _ S8x128.size (by sl_kernel_rfl) y

def out0_A_9 : Vec F S8x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2 x3 x4 x5 x6 x7 x8).1)

end

section
variable (hc0 : ¬cond0_0 i) (x0 : Vec F S128x2048 .f32) (x1 : Vec F S128x1 .i32) (x2 : Vec F S2048 .f32) (x3 : Vec F S2048 .f32) (x4 : Vec F S2048x1003 .bf16) (x5 : Vec F S2048x672 .bf16) (x6 : Vec F S512x1000 .bf16) (x7 : Vec F S128x3000 .bf16) (x8 : Vec F S32x27000 .bf16) (xo9 : Vec F S8x128 .f32)

theorem cover0_B_9 (y : S8x128.Idx) : ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 x8 xo9).1, y ∈ pc.1.set :=
  View.cover_of_tiledL _ S8x128.size (by sl_kernel_rfl) y

def out0_B_9 : Vec F S8x128 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 hc0 x0 x1 x2 x3 x4 x5 x6 x7 x8 xo9).1)

end
end

-- One step of the accumulation: at a point divisible by sixteen it starts afresh from the inputs' blocks, elsewhere it continues from `prev`.
def outStep (c : Dev nD) (t : Fin cfg0.N) (prev : ¬t.val % 16 = 0 → Vec F S8x128 .f32) : Vec F S8x128 .f32 :=
  if h0 : t.val % 16 = 0 then
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (iblk m c 7 t) (iblk m c 8 t)
  else
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (prev h0)

-- The accumulated value after each point, by recursion on the point.
def outsAt0 (c : Dev nD) : (n : ℕ) → n < cfg0.N → Vec F S8x128 .f32
  | 0, hn => outStep m c ⟨0, hn⟩ fun h => absurd (Nat.zero_mod _) h
  | n + 1, hn => outStep m c ⟨n + 1, hn⟩ fun _ => outsAt0 c n (Nat.lt_of_succ_lt hn)

theorem outsAt0_A (c : Dev nD) (t : Fin cfg0.N) (h0 : t.val % 16 = 0) :
    outsAt0 m c t.val t.isLt = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt0 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_9 (c : Dev nD) (t : Fin cfg0.N) : (dats m 0 c).after 9 t = outsAt0 m c t.val t.isLt := by dsimp only [dats]

theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d
theorem before0_2 (c : Dev nD) (t : Fin cfg0.N) (d) : (dats m 0 c).before 2 t d = iblk m c 2 t :=
  (dats m 0 c).before_in_eq_fetched 2 rfl (fun _ => rfl) (fun _ _ _ => rfl) (fun _ => rfl) t d
theorem before0_3 (c : Dev nD) (t : Fin cfg0.N) (d) : (dats m 0 c).before 3 t d = iblk m c 3 t :=
  (dats m 0 c).before_in_eq_fetched 3 rfl (fun _ => rfl) (fun _ _ _ => rfl) (fun _ => rfl) t d
theorem before0_4 (c : Dev nD) (t : Fin cfg0.N) (d) : (dats m 0 c).before 4 t d = iblk m c 4 t :=
  (dats m 0 c).before_in_eq_fetched 4 rfl (fun _ => rfl) (fun _ _ _ => rfl) (fun _ => rfl) t d
theorem before0_5 (c : Dev nD) (t : Fin cfg0.N) (d) : (dats m 0 c).before 5 t d = iblk m c 5 t :=
  (dats m 0 c).before_in_eq_fetched 5 rfl (fun _ => rfl) (fun _ _ _ => rfl) (fun _ => rfl) t d
theorem before0_6 (c : Dev nD) (t : Fin cfg0.N) (d) : (dats m 0 c).before 6 t d = iblk m c 6 t :=
  (dats m 0 c).before_in_eq_fetched 6 rfl (fun _ => rfl) (fun _ _ _ => rfl) (fun _ => rfl) t d
theorem before0_7 (c : Dev nD) (t : Fin cfg0.N) (d) : (dats m 0 c).before 7 t d = iblk m c 7 t :=
  (dats m 0 c).before_in_eq_fetched 7 rfl (fun _ => rfl) (fun _ _ _ => rfl) (fun _ => rfl) t d
theorem before0_8 (c : Dev nD) (t : Fin cfg0.N) (d) : (dats m 0 c).before 8 t d = iblk m c 8 t :=
  (dats m 0 c).before_in_eq_fetched 8 rfl (fun _ => rfl) (fun _ _ _ => rfl) (fun _ => rfl) t d

theorem before0_9_B (c : Dev nD) (t : Fin cfg0.N) (h0 : ¬t.val % 16 = 0) (d) :
    (dats m 0 c).before 9 t d = outsAt0 m c (t.val - 1) (Nat.lt_of_le_of_lt (Nat.sub_le _ _) t.isLt) := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.castSucc ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (outsAt0 m c t.val t.isLt))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 16 = 0
  · rw [outsAt0_A m c t h0]
    unfold out0_A_9
    iapply ((kernelRun0_A (hc0 := (hcond0_0 t).mpr h0) ..).2 Set.univ _)
    iframe H0 H1 H2 H3 H4 H5 H6 H7 H8
    isplitl [H9]; · iexists _; iexact H9
    iintro ⟨H0, H1, H2, H3, H4, H5, H6, H7, H8, ⟨%e9, H9⟩⟩
    iframe HΦ Ho H0 H1 H2 H3 H4 H5 H6 H7 H8
    unfold owns; iexists _; isplitr
    swap; · iexact H9
    ipureintro; exact View.read_writes_of_cover _ _ _ _ _ fun _ => cover0_A_9 ..
  · rw [outsAt0_B m c t h0]
    simp only [before0_9_B m c t h0]
    unfold out0_B_9
    iapply ((kernelRun0_B (hc0 := fun h => h0 ((hcond0_0 t).mp h)) ..).2 Set.univ _)
    iframe H0 H1 H2 H3 H4 H5 H6 H7 H8 H9
    iintro ⟨H0, H1, H2, H3, H4, H5, H6, H7, H8, ⟨%e9, H9⟩⟩
    iframe HΦ Ho H0 H1 H2 H3 H4 H5 H6 H7 H8
    unfold owns; iexists _; isplitr
    swap; · iexact H9
    ipureintro; exact View.read_writes_of_cover _ _ _ _ _ fun _ => cover0_B_9 ..

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD, ArgsKept m r.2.mem c) :=
  (θ_run defs _ _).mono (fun _ h => args_kept m (dats m) h (A_eq m)) (run_main m ρ)

end Cert.Kernel.Frame

end
-- ==== Proof.FrameCond.lean ====
/- The output block is zeroed exactly at the grid points whose second coordinate is zero. -/
import proofs.«407706_j38671885534012_3_alg».proof.Proof.Gen.KernelIdeal.Launch
import proofs.«407706_j38671885534012_3_alg».proof.Proof.Gen.KernelIdeal.Skeleton
import proofs.«407706_j38671885534012_3_alg».proof.Proof.Gen.KernelIdeal.Points
import Idealize.ShloMosaic.Lib.Decide

noncomputable section

namespace Cert.KernelIdeal.Frame

open Idealize.ShloMosaic Idealize.SL.Sem Cert.KernelIdeal Cert.KernelIdeal.Gen

abbrev cond0_0 (i : grid0.Coords) : Prop :=
  (Scalar.cmpi .ne (Scalar.extui (Scalar.cmpi .eq (BitVec.ofNat 32 (i 1).val) 0#32)) 0#32) = 1#1

theorem hcond0_0 : ∀ t : Fin cfg0.N, cond0_0 (grid0.coords t) ↔ t.val % 16 = 0 :=
  (by decide +kernel : ∀ t : Fin grid0.N, cond0_0 (grid0.coords t) ↔ t.val % 16 = 0)

end Cert.KernelIdeal.Frame

end
-- ==== Proof.FrameKit.lean ====
import proofs.«407706_j38671885534012_3_alg».proof.Proof.FrameCond
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

abbrev V0 (c : Dev nD) : Valuation τ sig (Elt F) :=
  StableHlo.after (List.flatten [hostOps0, hostOps0_1, hostOps0_2]) (fun b => m (c, b))
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; repeat' constructor) main_chain

local macro "not_written" : tactic => `(tactic| (
  simp only [hostOps0, hostOps0_1, hostOps0_2, hostOps1, List.flatten_cons, List.flatten_nil, List.append_nil, List.cons_append,
    List.nil_append, List.Forall, StableHlo.TRef.unary, StableHlo.TRef.binary, StableHlo.nullary_writes, StableHlo.unary_writes,
    StableHlo.binary_writes, StableHlo.nary_writes, StableHlo.reshape_writes, Finset.mem_singleton]
  repeat' apply And.intro
  all_goals exact StableHlo.devRef_ne_of_ne (by decide)))

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  exact List.forall_mem_singleton.mpr fun op hop => Pipeline.sub_ucRefs op (List.forall_iff_forall_mem.mp hostOps1_sub op hop)
theorem sfx_fresh : ∀ ops ∈ ([hostOps1] : List (List (HloOp τ sig (Elt F)))), ∀ op ∈ ops, op.fresh = ∅ :=
  List.forall_mem_singleton.mpr (List.forall_iff_forall_mem.mp hostOps1_fresh)
theorem sfx_keeps : ∀ ops ∈ ([hostOps1] : List (List (HloOp τ sig (Elt F)))), ∀ op ∈ ops,
    ∀ w, Proc.devRef .tc (Pipeline.arrRef spec0 w) ∉ op.writes :=
  List.forall_mem_singleton.mpr fun op hop w => by
    revert op; fin_cases w <;> refine List.forall_iff_forall_mem.mp ?_ <;> not_written

-- Contents that no operation of a list writes are unchanged by running the list.
theorem V_keep (c : Dev nD) (b : Ref sig .tc)
    (hw : (List.flatten [hostOps0, hostOps0_1, hostOps0_2] : List (HloOp τ sig (Elt F))).Forall fun op => Proc.devRef .tc b ∉ op.writes) :
    V m c b = m ((c : Thread nD τ).loc b) :=
  StableHlo.after_of_forall_not_mem _ _ (List.forall_iff_forall_mem.mp hw)

theorem V_main_arg2 (c : Dev nD) : V m c main_arg2 = m ((c : Thread nD τ).loc main_arg2) := V_keep m c _ (by not_written)
theorem V_main_arg3 (c : Dev nD) : V m c main_arg3 = m ((c : Thread nD τ).loc main_arg3) := V_keep m c _ (by not_written)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

-- The eleven argument arrays hold in `mem`, on core `c`, what they hold in `m`.
abbrev ArgsKept (mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)

variable (dats : (p : Fin 1) → (c : Dev nD) → Dat τ (Elt F) Unit ℕ (UR sig nD τ) ℕ (cfgs p) c)
  {r : PUnit × MemSt nD τ sig (Elt F)} (h : Pipeline.FramePost cfgs dats 0 (Pipeline.afterTail₀ cfgs dats 0 (V0 m) [hostOps1]) r)
include h

-- A reference outside the region's arrays that no operation writes holds at the end what it held at launch.
theorem rest_kept (c : Dev nD) (b : Ref sig .tc) (hs : b.isScoped = false) (harr : ∀ w, Pipeline.arrRef spec0 w ≠ b)
    (hw : (List.flatten [hostOps0, hostOps0_1, hostOps0_2] : List (HloOp τ sig (Elt F))).Forall fun op => Proc.devRef .tc b ∉ op.writes)
    (hw1 : (List.flatten [hostOps1] : List (HloOp τ sig (Elt F))).Forall fun op => Proc.devRef .tc b ∉ op.writes) :
    r.2.mem ((c.tc : Thread nD τ).loc b) = m ((c.tc : Thread nD τ).loc b) := by
  rw [(h c).2 b (Pipeline.mem_restRefs_of b hs harr)]
  unfold Pipeline.afterTail₀
  rw [StableHlo.after_of_forall_not_mem _ _ (List.forall_iff_forall_mem.mp hw1), Pipeline.withArrays_of_ne _ c _ _ b harr]
  exact V_keep m c b hw

-- Arguments 2 and 3 are inputs of the region; the other nine lie outside its arrays and no operation writes them.
theorem args_kept (hA : ∀ c w, (dats 0 c).A w = V m c (Pipeline.arrRef spec0 w)) (c : Dev nD) : ArgsKept m r.2.mem c := by
  refine ⟨?_, ?_, ((h c).1 2).trans (((dats 0 c).arrAt_in 2 rfl _).trans ((hA c 2).trans (V_main_arg2 m c))),
    ((h c).1 3).trans (((dats 0 c).arrAt_in 3 rfl _).trans ((hA c 3).trans (V_main_arg3 m c))), ?_, ?_, ?_, ?_, ?_, ?_, ?_⟩ <;>
  exact rest_kept m dats h c _ (by decide) (by decide) (by not_written) (by not_written)

omit h

abbrev VO0_9 : View sig .tc .vmem S8x128 .f32 := (Memref.whole cc0_stg9_0 : Memref sig .tc .vmem S8x128 .f32).view
abbrev ms0_0 (t : Fin cfg0.N) : Memref sig .tc .vmem S128x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1003 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x672 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1000 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x3000 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x27000 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)

end Cert.KernelIdeal.Frame

end
-- ==== Proof.FrameRuns.lean ====
/- The body run whole in each of its two cases: the output block zeroed first, or found as the point before left it. -/
import proofs.«407706_j38671885534012_3_alg».proof.Proof.FrameCond
import Idealize.ShloMosaic.Lib.Pipeline.FrameBody
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in

noncomputable def kernelRun0_A (c : Dev nD) (i : grid0.Coords) (arg2 : Memref sig .tc .vmem S128x2048 .f32) (harg2 : arg2.IsWhole) (arg3 : Memref sig .tc .vmem S128x1 .i32) (harg3 : arg3.IsWhole) (arg4 : Memref sig .tc .vmem S2048 .f32) (harg4 : arg4.IsWhole) (arg5 : Memref sig .tc .vmem S2048 .f32) (harg5 : arg5.IsWhole) (arg6 : Memref sig .tc .vmem S2048x1003 .bf16) (harg6 : arg6.IsWhole) (arg7 : Memref sig .tc .vmem S2048x672 .bf16) (harg7 : arg7.IsWhole) (arg8 : Memref sig .tc .vmem S512x1000 .bf16) (harg8 : arg8.IsWhole) (arg9 : Memref sig .tc .vmem S128x3000 .bf16) (harg9 : arg9.IsWhole) (arg10 : Memref sig .tc .vmem S32x27000 .bf16) (harg10 : arg10.IsWhole) (arg11 : Memref sig .tc .vmem S8x128 .f32) (harg11 : arg11.IsWhole) (hc0 : cond0_0 i)
    (x0 : Vec F S128x2048 .f32) (x1 : Vec F S128x1 .i32) (x2 : Vec F S2048 .f32) (x3 : Vec F S2048 .f32) (x4 : Vec F S2048x1003 .bf16) (x5 : Vec F S2048x672 .bf16) (x6 : Vec F S512x1000 .bf16) (x7 : Vec F S128x3000 .bf16) (x8 : Vec F S32x27000 .bf16) :
    { L9 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

set_option maxHeartbeats 4000000 in

noncomputable def kernelRun0_B (c : Dev nD) (i : grid0.Coords) (arg2 : Memref sig .tc .vmem S128x2048 .f32) (harg2 : arg2.IsWhole) (arg3 : Memref sig .tc .vmem S128x1 .i32) (harg3 : arg3.IsWhole) (arg4 : Memref sig .tc .vmem S2048 .f32) (harg4 : arg4.IsWhole) (arg5 : Memref sig .tc .vmem S2048 .f32) (harg5 : arg5.IsWhole) (arg6 : Memref sig .tc .vmem S2048x1003 .bf16) (harg6 : arg6.IsWhole) (arg7 : Memref sig .tc .vmem S2048x672 .bf16) (harg7 : arg7.IsWhole) (arg8 : Memref sig .tc .vmem S512x1000 .bf16) (harg8 : arg8.IsWhole) (arg9 : Memref sig .tc .vmem S128x3000 .bf16) (harg9 : arg9.IsWhole) (arg10 : Memref sig .tc .vmem S32x27000 .bf16) (harg10 : arg10.IsWhole) (arg11 : Memref sig .tc .vmem S8x128 .f32) (harg11 : arg11.IsWhole) (hc0 : ¬cond0_0 i)
    (x0 : Vec F S128x2048 .f32) (x1 : Vec F S128x1 .i32) (x2 : Vec F S2048 .f32) (x3 : Vec F S2048 .f32) (x4 : Vec F S2048x1003 .bf16) (x5 : Vec F S2048x672 .bf16) (x6 : Vec F S512x1000 .bf16) (x7 : Vec F S128x3000 .bf16) (x8 : Vec F S32x27000 .bf16) (xo9 : Vec F S8x128 .f32) :
    { L9 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact H9

end Cert.KernelIdeal.Frame

end
-- ==== Proof.FrameMain.lean ====
import proofs.«407706_j38671885534012_3_alg».proof.Proof.FrameKit
import proofs.«407706_j38671885534012_3_alg».proof.Proof.FrameRuns

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S128x2048 .f32) (harg2 : arg2.IsWhole) (arg3 : Memref sig .tc .vmem S128x1 .i32) (harg3 : arg3.IsWhole) (arg4 : Memref sig .tc .vmem S2048 .f32) (harg4 : arg4.IsWhole) (arg5 : Memref sig .tc .vmem S2048 .f32) (harg5 : arg5.IsWhole) (arg6 : Memref sig .tc .vmem S2048x1003 .bf16) (harg6 : arg6.IsWhole) (arg7 : Memref sig .tc .vmem S2048x672 .bf16) (harg7 : arg7.IsWhole) (arg8 : Memref sig .tc .vmem S512x1000 .bf16) (harg8 : arg8.IsWhole) (arg9 : Memref sig .tc .vmem S128x3000 .bf16) (harg9 : arg9.IsWhole) (arg10 : Memref sig .tc .vmem S32x27000 .bf16) (harg10 : arg10.IsWhole) (arg11 : Memref sig .tc .vmem S8x128 .f32) (harg11 : arg11.IsWhole)

section
variable (hc0 : cond0_0 i) (x0 : Vec F S128x2048 .f32) (x1 : Vec F S128x1 .i32) (x2 : Vec F S2048 .f32) (x3 : Vec F S2048 .f32) (x4 : Vec F S2048x1003 .bf16) (x5 : Vec F S2048x672 .bf16) (x6 : Vec F S512x1000 .bf16) (x7 : Vec F S128x3000 .bf16) (x8 : Vec F S32x27000 .bf16)

-- The stored pieces tile the shape, so every index lies in one of them.
theorem cover0_A_9 (y : S8x128.Idx) : ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7 x8).1, y ∈ pc.1.set :=
  View.cover_of_tiledL _ S8x128.size (by sl_kernel_rfl) y

def out0_A_9 : Vec F S8x128 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2 x3 x4 x5 x6 x7 x8).1)

end

section
variable (hc0 : ¬cond0_0 i) (x0 : Vec F S128x2048 .f32) (x1 : Vec F S128x1 .i32) (x2 : Vec F S2048 .f32) (x3 : Vec F S2048 .f32) (x4 : Vec F S2048x1003 .bf16) (x5 : Vec F S2048x672 .bf16) (x6 : Vec F S512x1000 .bf16) (x7 : Vec F S128x3000 .bf16) (x8 : Vec F S32x27000 .bf16) (xo9 : Vec F S8x128 .f32)

theorem cover0_B_9 (y : S8x128.Idx) : ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 x8 xo9).1, y ∈ pc.1.set :=
  View.cover_of_tiledL _ S8x128.size (by sl_kernel_rfl) y

def out0_B_9 : Vec F S8x128 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 hc0 x0 x1 x2 x3 x4 x5 x6 x7 x8 xo9).1)

end
end

-- One step of the accumulation: at a point divisible by sixteen it starts afresh from the inputs' blocks, elsewhere it continues from `prev`.
def outStep (c : Dev nD) (t : Fin cfg0.N) (prev : ¬t.val % 16 = 0 → Vec F S8x128 .f32) : Vec F S8x128 .f32 :=
  if h0 : t.val % 16 = 0 then
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (iblk m c 7 t) (iblk m c 8 t)
  else
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (prev h0)

-- The accumulated value after each point, by recursion on the point.
def outsAt0 (c : Dev nD) : (n : ℕ) → n < cfg0.N → Vec F S8x128 .f32
  | 0, hn => outStep m c ⟨0, hn⟩ fun h => absurd (Nat.zero_mod _) h
  | n + 1, hn => outStep m c ⟨n + 1, hn⟩ fun _ => outsAt0 c n (Nat.lt_of_succ_lt hn)

theorem outsAt0_A (c : Dev nD) (t : Fin cfg0.N) (h0 : t.val % 16 = 0) :
    outsAt0 m c t.val t.isLt = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk m c 0 t) (iblk m c 1 t) (iblk m c 2 t) (iblk m c 3 t) (iblk m c 4 t) (iblk m c 5 t) (iblk m c 6 t) (iblk m c 7 t) (iblk m c 8 t) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outsAt0 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_9 (c : Dev nD) (t : Fin cfg0.N) : (dats m 0 c).after 9 t = outsAt0 m c t.val t.isLt := by dsimp only [dats]

theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d
theorem before0_2 (c : Dev nD) (t : Fin cfg0.N) (d) : (dats m 0 c).before 2 t d = iblk m c 2 t :=
  (dats m 0 c).before_in_eq_fetched 2 rfl (fun _ => rfl) (fun _ _ _ => rfl) (fun _ => rfl) t d
theorem before0_3 (c : Dev nD) (t : Fin cfg0.N) (d) : (dats m 0 c).before 3 t d = iblk m c 3 t :=
  (dats m 0 c).before_in_eq_fetched 3 rfl (fun _ => rfl) (fun _ _ _ => rfl) (fun _ => rfl) t d
theorem before0_4 (c : Dev nD) (t : Fin cfg0.N) (d) : (dats m 0 c).before 4 t d = iblk m c 4 t :=
  (dats m 0 c).before_in_eq_fetched 4 rfl (fun _ => rfl) (fun _ _ _ => rfl) (fun _ => rfl) t d
theorem before0_5 (c : Dev nD) (t : Fin cfg0.N) (d) : (dats m 0 c).before 5 t d = iblk m c 5 t :=
  (dats m 0 c).before_in_eq_fetched 5 rfl (fun _ => rfl) (fun _ _ _ => rfl) (fun _ => rfl) t d
theorem before0_6 (c : Dev nD) (t : Fin cfg0.N) (d) : (dats m 0 c).before 6 t d = iblk m c 6 t :=
  (dats m 0 c).before_in_eq_fetched 6 rfl (fun _ => rfl) (fun _ _ _ => rfl) (fun _ => rfl) t d
theorem before0_7 (c : Dev nD) (t : Fin cfg0.N) (d) : (dats m 0 c).before 7 t d = iblk m c 7 t :=
  (dats m 0 c).before_in_eq_fetched 7 rfl (fun _ => rfl) (fun _ _ _ => rfl) (fun _ => rfl) t d
theorem before0_8 (c : Dev nD) (t : Fin cfg0.N) (d) : (dats m 0 c).before 8 t d = iblk m c 8 t :=
  (dats m 0 c).before_in_eq_fetched 8 rfl (fun _ => rfl) (fun _ _ _ => rfl) (fun _ => rfl) t d

theorem before0_9_B (c : Dev nD) (t : Fin cfg0.N) (h0 : ¬t.val % 16 = 0) (d) :
    (dats m 0 c).before 9 t d = outsAt0 m c (t.val - 1) (Nat.lt_of_le_of_lt (Nat.sub_le _ _) t.isLt) := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.castSucc ∗ (dats m 0 c).owesAt () t.castSucc
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (outsAt0 m c t.val t.isLt))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 16 = 0
  · rw [outsAt0_A m c t h0]
    unfold out0_A_9
    iapply ((kernelRun0_A (hc0 := (hcond0_0 t).mpr h0) ..).2 Set.univ _)
    iframe H0 H1 H2 H3 H4 H5 H6 H7 H8
    isplitl [H9]; · iexists _; iexact H9
    iintro ⟨H0, H1, H2, H3, H4, H5, H6, H7, H8, ⟨%e9, H9⟩⟩
    iframe HΦ Ho H0 H1 H2 H3 H4 H5 H6 H7 H8
    unfold owns; iexists _; isplitr
    swap; · iexact H9
    ipureintro; exact View.read_writes_of_cover _ _ _ _ _ fun _ => cover0_A_9 ..
  · rw [outsAt0_B m c t h0]
    simp only [before0_9_B m c t h0]
    unfold out0_B_9
    iapply ((kernelRun0_B (hc0 := fun h => h0 ((hcond0_0 t).mp h)) ..).2 Set.univ _)
    iframe H0 H1 H2 H3 H4 H5 H6 H7 H8 H9
    iintro ⟨H0, H1, H2, H3, H4, H5, H6, H7, H8, ⟨%e9, H9⟩⟩
    iframe HΦ Ho H0 H1 H2 H3 H4 H5 H6 H7 H8
    unfold owns; iexists _; isplitr
    swap; · iexact H9
    ipureintro; exact View.read_writes_of_cover _ _ _ _ _ fun _ => cover0_B_9 ..

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem frame : θ_run defs (onTc (τ := τ) (main (F := F))) ⟨m, fun _ => 0, ρ⟩ (fun r => ∀ c : Dev nD, ArgsKept m r.2.mem c) :=
  (θ_run defs _ _).mono (fun _ h => args_kept m (dats m) h (A_eq m)) (run_main m ρ)

end Cert.KernelIdeal.Frame

end
-- ==== Proof.KBody.lean ====
/- The body's arithmetic as one function of the nine loaded blocks and of the block it adds to. -/
import proofs.«407706_j38671885534012_3_alg».proof.Proof.Gen.KernelIdeal.Skeleton

noncomputable section

namespace Cert.KernelIdeal.KBody

open Idealize.ShloMosaic Cert.KernelIdeal Cert.KernelIdeal.Gen

variable {F : FTy → Type} [FloatOps F]

def v45Of (v36 : FVec F S128x1003 .f32) (v38 : FVec F S128x1 .f32) (v39 : FVec F S128x1003 .f32) : FVec F S128x1 .f32 :=
  k0_pay8 v36 v38 v39

def v67Of (v31 : FVec F S128x2048 .bf16) (x5 : Vec F S2048x672 .bf16) : FVec F S128x32 .bf16 := k0_pay12 v31 x5

def out2Val (v31 : FVec F S128x2048 .bf16) (v33 : IVec S128x1 32) (v36 : FVec F S128x1003 .f32) (v38 : FVec F S128x1 .f32)
    (v39 : FVec F S128x1003 .f32) (x5 : Vec F S2048x672 .bf16) (x6 : Vec F S512x1000 .bf16) (x7 : Vec F S128x3000 .bf16) :
    FVec F S128x1 .f32 :=
  let v45 := k0_pay8 v36 v38 v39
  let v58 := k0_pay9 v33 v36 v38 v39
  let v65 := k0_pay11 v31 x5
  let v70 := k0_pay13 v31 x5 x6
  let v79 := k0_pay14 v31 x5 x6
  let v83 := k0_pay15 v33
  let v102 := k0_pay16 v33 v36 v45 v58 v70 v79 999#32 v83
  let v114 := k0_pay18 v65 x7
  let v127 := k0_pay19 v33 v65 x7
  let v129 := k0_pay20 v36 v45
  k0_pay21 v33 v102 v114 v127 v129

structure Mid3 (F : FTy → Type) [FloatOps F] where
  v293 : FVec F S128x1 .f32
  v295 : FVec F S128x2250 .f32
  v298 : FVec F S128x1 .f32
  v307 : FVec F S128x1 .f32
  v310 : IVec S128x2250 32
  v312 : IVec S128x1 1
  v313 : IVec S128x1 32

def mid3Val (v33 : IVec S128x1 32) (v67 : FVec F S128x32 .bf16) (x8 : Vec F S32x27000 .bf16) : Mid3 F :=
  let v143 := k0_pay22 v33
  let v146 : FVec F S128x1 .f32 := k0_pay24
  let v148 := k0_pay25 x8
  let v150 := k0_pay26 v67 x8
  let v153 := k0_pay27 v67 x8
  let v162 := k0_pay28 v67 x8
  let v170 := k0_pay29 v33
  let v172 := k0_pay30 v33
  let cst_53 : F .f32 := Scalar.ofBits .f32 0x00000000#32
  let v206 := k0_pay33 v67 v143 v146 v148 v150 v170 v172 cst_53
  let v208 := k0_pay34 v67 v148
  let v211 := k0_pay35 v67 v148 v153
  let v220 := k0_pay36 v67 v148 v153 v162
  let v240 := k0_pay38 v67 v148 v211
  let v249 := k0_pay39 v67 v148 v211 v220
  let v264 := k0_pay40 v67 v143 v148 v206 v208
  let v266 := k0_pay41 v67 v148
  ⟨k0_pay43 v143 v264 v266, k0_pay44 v67 v148, k0_pay45 v67 v148 v240 v266, k0_pay46 v67 v148 v240 v249 v266,
    k0_pay47, k0_pay48 v143, k0_pay49⟩

def tail3Of (v33 : IVec S128x1 32) (v36 : FVec F S128x1003 .f32) (v45 : FVec F S128x1 .f32) (v67 : FVec F S128x32 .bf16)
    (x8 : Vec F S32x27000 .bf16) (μ : Mid3 F) : FVec F S128x1 .f32 :=
  let v143 := k0_pay22 v33
  let v148 := k0_pay25 x8
  let v351 := k0_pay52 v67 v143 v148 μ.v293 μ.v295 μ.v310 μ.v312 μ.v313
  let v353 := k0_pay53 v67 v148
  let v356 := k0_pay54 v67 v148 μ.v298
  let v359 := k0_pay55 v67 v148 μ.v298 μ.v307
  let v361 := k0_pay56 v67 v148 μ.v298
  let v380 := k0_pay57 v143 v351 v353
  let v385 := k0_pay59 v67 v148 v356
  let v394 := k0_pay60 v67 v148 v356 v359 v361
  let v402 := k0_pay61 v143
  let v407 := k0_pay62 v67 v143 v148
  let v438 := k0_pay65 v67 v143 v148 v380 v402 v407
  let v440 := k0_pay66 v67 v148
  let v443 := k0_pay67 v67 v148 v385
  let v452 := k0_pay68 v67 v148 v385 v394
  let v455 : IVec S128x2250 32 := k0_pay69
  k0_pay70 v36 v45 v67 v143 v148 v438 v440 v443 v452 v455

def tail3Val (v33 : IVec S128x1 32) (v36 : FVec F S128x1003 .f32) (v45 : FVec F S128x1 .f32) (v67 : FVec F S128x32 .bf16)
    (x8 : Vec F S32x27000 .bf16) : FVec F S128x1 .f32 :=
  tail3Of v33 v36 v45 v67 x8 (mid3Val v33 v67 x8)

def bodyVal (x0 : Vec F S128x2048 .f32) (x1 : Vec F S128x1 .i32) (x2 x3 : Vec F S2048 .f32) (x4 : Vec F S2048x1003 .bf16)
    (x5 : Vec F S2048x672 .bf16) (x6 : Vec F S512x1000 .bf16) (x7 : Vec F S128x3000 .bf16) (x8 : Vec F S32x27000 .bf16)
    (prev : Vec F S8x128 .f32) : FVec F S8x128 .f32 :=
  let v31 := k0_pay3 x0 x2 x3
  let v33 := k0_pay4 x1
  let v36 := k0_pay5 x0 x2 x3 x4
  let v38 := k0_pay6 x0 x2 x3 x4
  let v39 := k0_pay7 x0 x2 x3 x4
  let v45 := k0_pay8 v36 v38 v39
  let v67 := k0_pay12 v31 x5
  k0_pay1 v33 (out2Val v31 v33 v36 v38 v39 x5 x6 x7) (tail3Val v33 v36 v45 v67 x8) 5000#32 prev

end Cert.KernelIdeal.KBody

end
-- ==== Proof.Spec.lean ====
/- One row's value, over plain functions on the extended reals, in the two arrangements the two programs use. -/
import Idealize.ShloMosaic.PureOps.Ideal

noncomputable section

namespace Cert.Spec

open Idealize.ShloMosaic

abbrev E := EReal

def c2048 : E := Ideal.ofBits .f32 0x45000000#32
def eps : E := Ideal.ofBits .f32 0x3727C5AC#32
def ninf : E := Ideal.ofBits .f32 0xFF800000#32
def c4094 : E := Ideal.ofBits .f32 0x457FE000#32

def mean (x : Fin 2048 → E) : E := Ideal.div (∑ k, x k) c2048
def var (x : Fin 2048 → E) : E := Ideal.div (∑ k, (x k - mean x) * (x k - mean x)) c2048

def hrow (x g b : Fin 2048 → E) (k : Fin 2048) : E :=
  (x k - mean x) * Ideal.rsqrt (var x + eps) * g k + b k

def logits {n d : ℕ} (W : Fin n → Fin d → E) (h : Fin d → E) (j : Fin n) : E := ∑ k, h k * W j k

def rowMax {n : ℕ} (z : Fin n → E) : E := Finset.univ.fold max ninf z

def lse {n : ℕ} (z : Fin n → E) : E := rowMax z + Ideal.log (∑ j, Ideal.exp (z j - rowMax z))

def lsm {n : ℕ} (z : Fin n → E) (i : Fin n) : E := (z i - rowMax z) - Ideal.log (∑ j, Ideal.exp (z j - rowMax z))

def chunk (z : Fin 27000 → E) (c : ℕ) (j : Fin 2250) : E :=
  if h : 2250 * c + j.val < 27000 then z ⟨2250 * c + j.val, h⟩ else 0

def onlineStep (z : Fin 27000 → E) (st : E × E) (c : ℕ) : E × E :=
  (max st.1 (rowMax (chunk z c)),
   st.2 * Ideal.exp (st.1 - max st.1 (rowMax (chunk z c)))
     + ∑ j, Ideal.exp (chunk z c j - max st.1 (rowMax (chunk z c))))

def online (z : Fin 27000 → E) : ℕ → E × E
  | 0 => (ninf, 0)
  | n + 1 => onlineStep z (online z n) n
def lse3 (z : Fin 27000 → E) : E := (online z 12).1 + Ideal.log (online z 12).2

def clipIdx (l : BitVec 32) (low : ℤ) (n : ℕ) (hn : 0 < n) : Fin n :=
  ⟨(max 0 (min (l.toInt - low) ((n : ℤ) - 1))).toNat, by
    have h1 : max 0 (min (l.toInt - low) ((n : ℤ) - 1)) ≤ (n : ℤ) - 1 := max_le (by omega) (min_le_right _ _)
    have h0 : (0 : ℤ) ≤ max 0 (min (l.toInt - low) ((n : ℤ) - 1)) := le_max_left _ _
    omega⟩

def inRange (l : BitVec 32) (low high : ℤ) : Prop := low ≤ l.toInt ∧ l.toInt < high
instance (l : BitVec 32) (low high : ℤ) : Decidable (inRange l low high) := by unfold inRange; infer_instance

def gsel (z : Fin 27000 → E) (rel : BitVec 32) (n : ℕ) : E :=
  if h : 0 ≤ rel.toInt ∧ rel.toInt < 2250 * (n : ℤ) ∧ rel.toInt < 27000 then z ⟨rel.toInt.toNat, by omega⟩ else 0

section Staged

variable (h : Fin 2048 → E) (zh : Fin 1003 → E)
  (A1 : Fin 512 → Fin 2048 → E) (B1 : Fin 1000 → Fin 512 → E)
  (A2 : Fin 128 → Fin 2048 → E) (B2 : Fin 3000 → Fin 128 → E)
  (A3 : Fin 32 → Fin 2048 → E) (B3 : Fin 27000 → Fin 32 → E) (l : BitVec 32)

def idxH : Fin 1003 := Fin.castLE (by norm_num) (clipIdx l 0 1000 (by norm_num))

def out2K : E :=
  let lh := lse zh
  let out0 := zh (idxH l) - lh
  let z1 := logits B1 (logits A1 h)
  let lp1 := (zh ⟨1000, by norm_num⟩ - lh) + z1 (clipIdx l 1000 1000 (by norm_num)) - lse z1
  let out1 := if inRange l 1000 2000 then lp1 else out0
  let z2 := logits B2 (logits A2 h)
  let lp2 := (zh ⟨1001, by norm_num⟩ - lh) + z2 (clipIdx l 2000 3000 (by norm_num)) - lse z2
  if inRange l 2000 5000 then lp2 else out1

def lp3K (s3 : Fin 32 → E) (lh : E) : E :=
  (zh ⟨1002, by norm_num⟩ - lh) + logits B3 s3 (clipIdx l 5000 27000 (by norm_num)) - lse3 (logits B3 s3)

def krowOf : E :=
  if inRange l 5000 32000 then lp3K zh B3 l (logits A3 h) (lse zh) else out2K h zh A1 B1 A2 B2 l

def rrowOf : E :=
  let out0 := lsm zh (idxH l)
  let z1 := logits B1 (logits A1 h)
  let lp1 := lsm zh ⟨1000, by norm_num⟩ + lsm z1 (clipIdx l 1000 1000 (by norm_num))
  let out1 := if inRange l 1000 2000 then lp1 else out0
  let z2 := logits B2 (logits A2 h)
  let lp2 := lsm zh ⟨1001, by norm_num⟩ + lsm z2 (clipIdx l 2000 3000 (by norm_num))
  let out2 := if inRange l 2000 5000 then lp2 else out1
  let z3 := logits B3 (logits A3 h)
  let lp3 := lsm zh ⟨1002, by norm_num⟩ + lsm z3 (clipIdx l 5000 27000 (by norm_num))
  if inRange l 5000 32000 then lp3 else out2

end Staged

section Row

variable (x g b : Fin 2048 → E) (Wh : Fin 1003 → Fin 2048 → E)
  (A1 : Fin 512 → Fin 2048 → E) (B1 : Fin 1000 → Fin 512 → E)
  (A2 : Fin 128 → Fin 2048 → E) (B2 : Fin 3000 → Fin 128 → E)
  (A3 : Fin 32 → Fin 2048 → E) (B3 : Fin 27000 → Fin 32 → E) (l : BitVec 32)

def zH : Fin 1003 → E := logits Wh (hrow x g b)

def krow : E := krowOf (hrow x g b) (zH x g b Wh) A1 B1 A2 B2 A3 B3 l

def kval : E := if 0 ≤ l.toInt then krow x g b Wh A1 B1 A2 B2 A3 B3 l else 0

def rrow : E := rrowOf (hrow x g b) (zH x g b Wh) A1 B1 A2 B2 A3 B3 l

end Row

end Cert.Spec

end
-- ==== Proof.Blocks.lean ====
/- Rows, vectors and weight matrices as functions of plain indices, read out of the blocks one grid point loads. -/
import proofs.«407706_j38671885534012_3_alg».proof.KernelIdeal
import proofs.«407706_j38671885534012_3_alg».proof.Proof.Spec
import Idealize.ShloMosaic.Lib.ValueIdx

noncomputable section

namespace Cert.KernelIdeal.Blocks

open Idealize.ShloMosaic Idealize.ShloMosaic.ValueIdx Cert.KernelIdeal Cert.Spec

def rowOf (x0 : Vec Ideal S128x2048 .f32) (r : Fin 128) : Fin 2048 → E := fun k => x0 (ix2 r k)

def vec1 (x : Vec Ideal S2048 .f32) : Fin 2048 → E := fun k => x (ix1 k)

def lblOf (x1 : Vec Ideal S128x1 .i32) (r : Fin 128) : BitVec 32 := x1 (ix2 r (0 : Fin 1))

def WhK (x4 : Vec Ideal S2048x1003 .bf16) : Fin 1003 → Fin 2048 → E := fun j k => x4 (ix2 k j)

def A1K (x5 : Vec Ideal S2048x672 .bf16) : Fin 512 → Fin 2048 → E := fun j k => x5 (ix2 k (⟨j.val, by omega⟩ : Fin 672))
def A2K (x5 : Vec Ideal S2048x672 .bf16) : Fin 128 → Fin 2048 → E := fun j k => x5 (ix2 k (⟨512 + j.val, by omega⟩ : Fin 672))
def A3K (x5 : Vec Ideal S2048x672 .bf16) : Fin 32 → Fin 2048 → E := fun j k => x5 (ix2 k (⟨640 + j.val, by omega⟩ : Fin 672))

def B1K (x6 : Vec Ideal S512x1000 .bf16) : Fin 1000 → Fin 512 → E := fun j k => x6 (ix2 k j)
def B2K (x7 : Vec Ideal S128x3000 .bf16) : Fin 3000 → Fin 128 → E := fun j k => x7 (ix2 k j)
def B3K (x8 : Vec Ideal S32x27000 .bf16) : Fin 27000 → Fin 32 → E := fun j k => x8 (ix2 k j)

end Cert.KernelIdeal.Blocks

end
-- ==== Proof.KChunk.lean ====
import proofs.«407706_j38671885534012_3_alg».proof.Proof.KBody
import proofs.«407706_j38671885534012_3_alg».proof.Proof.Blocks
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine
import Idealize.ShloMosaic.Lib.DynamicIndex

noncomputable section

namespace Cert.KernelIdeal.KTail3

open Idealize.ShloMosaic Idealize.ShloMosaic.ValueIdx Cert.KernelIdeal Cert.KernelIdeal.Gen Cert.KernelIdeal.KBody Cert.KernelIdeal.Blocks Cert.Spec

section Layout
variable {α : Type} {a b : ℕ}

/-- A vector over the rows, recast as a one-column block, keeps its entry for each row. -/
theorem col_apply (x : (⟨1, ![a]⟩ : Shape).Idx → α) (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column block spread over `b` lanes reads, at every lane, its entry for the row. -/
theorem bcast_apply (v : (⟨2, ![a, 1]⟩ : Shape).Idx → α) (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane counter's word at lane `j` is `j`. -/
theorem iota_apply (h : Shape.Iotas ⟨2, ![a, b]⟩ .tc 32 [1]) (r : Fin a) (j : Fin b) :
    iota .tc ⟨2, ![a, b]⟩ 32 [1] h (ix2 r j) = BitVec.ofNat 32 j.val :=
  iota_single_apply .tc ⟨2, ![a, b]⟩ 32 1 h (ix2 r j)

/-- Putting lane `k` into the row index `r` of a lane reduction gives `(r, k)`. -/
theorem lift_apply (h : Shape.Reduces ⟨2, ![a, b]⟩ [1] ⟨1, ![a]⟩) (r : Fin a) (k : Fin b) : h.lift (ix1 r) k = ix2 r k := by
  funext ax
  match ax with
  | ⟨0, _⟩ => rfl
  | ⟨1, _⟩ => rfl

/-- Reducing a block by `+` along the lanes, from zero, leaves each row's sum. -/
theorem lanesum_apply (x : FVec Ideal ⟨2, ![a, b]⟩ .f32) (h : Shape.Reduces ⟨2, ![a, b]⟩ [1] ⟨1, ![a]⟩) (hφ : FKind.Formats .f32)
    (hacc : (0x00000000#32 : BitVec 32) = 0x00000000#32) (r : Fin a) :
    multiReduction .add [1] ⟨1, ![a]⟩ x 0x00000000#32 h hφ hacc (ix1 r) = ∑ k : Fin b, x (ix2 r k) :=
  (Ideal.multiReduction_add_single x 0x00000000#32 h hφ hacc (ix1 r)).trans
    (Finset.sum_congr rfl fun k _ => congrArg x (lift_apply h r k))

/-- Reducing a block by `max` along the lanes, from minus infinity, leaves each row's maximum. -/
theorem lanemax_apply (x : FVec Ideal ⟨2, ![a, b]⟩ .f32) (h : Shape.Reduces ⟨2, ![a, b]⟩ [1] ⟨1, ![a]⟩) (hφ : FKind.Formats .f32)
    (hacc : (0xFF800000#32 : BitVec 32) = 0xFF800000#32) (r : Fin a) :
    multiReduction .maximumf [1] ⟨1, ![a]⟩ x 0xFF800000#32 h hφ hacc (ix1 r) = rowMax fun k : Fin b => x (ix2 r k) :=
  (Ideal.multiReduction_maximumf_single x 0xFF800000#32 h hφ hacc (ix1 r)).trans
    (congrArg (Finset.univ.fold max (Ideal.ofBits .f32 0xFF800000#32)) (funext fun k => congrArg x (lift_apply h r k)))

end Layout

/-- Entry `(r, c)` of a plain `m×k` by `k×n` product started from zero is a `k`-term dot product. -/
theorem plainDot_apply {m k n : ℕ} (A : FVec Ideal ⟨2, ![m, k]⟩ .bf16) (B : FVec Ideal ⟨2, ![k, n]⟩ .bf16) (r : Fin m) (c : Fin n) :
    matmul (DotDims.plain m k n) none A B (constant ⟨2, ![m, n]⟩ .f32 0x00000000#32) (ix2 r c) = ∑ q : Fin k, A (ix2 r q) * B (ix2 q c) := by
  simp only [matmul]
  rw [Ideal.matmul_constant_zero_apply, ← Equiv.sum_comp (contrEquiv1 (DotDims.plain m k n) k rfl rfl).symm]
  refine Finset.sum_congr rfl fun q _ => ?_
  have hq := contrEquiv1_symm_val (DotDims.plain m k n) k rfl rfl q
  exact congrArg₂ (· * ·)
    (congrArg A (funext fun a => Fin.ext (by
      match a with
      | ⟨0, _⟩ => rfl
      | ⟨1, _⟩ => exact hq)))
    (congrArg B (funext fun a => Fin.ext (by
      match a with
      | ⟨0, _⟩ => exact hq
      | ⟨1, _⟩ => rfl)))

/-- A signed word clipped to `[0, hi]`, read as an integer. -/
theorem clip_toInt (x hi : BitVec 32) (hhi : 0 ≤ hi.toInt) :
    (IntOp.minsi hi (IntOp.maxsi 0#32 x)).toInt = max 0 (min x.toInt hi.toInt) := by
  unfold IntOp.minsi IntOp.maxsi
  have h0 : (0#32 : BitVec 32).toInt = 0 := rfl
  simp only [BitVec.slt, decide_eq_true_eq]
  split_ifs with h1 h2 h2 <;> simp only [h0] at * <;> omega

/-- The wrapped difference of two words that are not negative is the integers' difference. -/
theorem subi_toInt (l c : BitVec 32) (h0 : 0 ≤ c.toInt) (h : 0 ≤ l.toInt) :
    (IntOp.subi l c).toInt = l.toInt - c.toInt := by
  unfold IntOp.subi
  have h1 := BitVec.toInt_eq_toNat_cond l
  have h2 := BitVec.toInt_eq_toNat_cond c
  have h3 := BitVec.toInt_eq_toNat_cond (l - c)
  have h4 := BitVec.toNat_sub l c
  have h5 := l.isLt
  have h6 := c.isLt
  split_ifs at h1 h2 h3 <;> omega

/-- The third cluster's weight block, read as one weight row per logit. -/
theorem pay25_apply (x8 : Vec Ideal S32x27000 .bf16) (k : Fin 32) (j : Fin 27000) : k0_pay25 x8 (ix2 k j) = B3K x8 j k :=
  congrFun (shapeCast_self x8 _) _

/-- For `c < 12` the 2250 columns from `2250 c` on fit inside the 27000. -/
theorem slices_chunk (c : ℕ) (hc : c < 12) : S32x27000.Slices ![0, 2250 * c] S32x2250 :=
  ⟨rfl, fun a => by
    match a with
    | ⟨0, _⟩ => show 0 + 32 ≤ 32; omega
    | ⟨1, _⟩ => show 2250 * c + 2250 ≤ 27000; omega⟩

/-- Chunk `c`'s logits block: the hidden block times the chunk's 2250 weight columns. -/
def lg (v67 : FVec Ideal S128x32 .bf16) (x8 : Vec Ideal S32x27000 .bf16) (c : ℕ) (hc : c < 12) : FVec Ideal S128x2250 .f32 :=
  matmul dot_S128x32_S32x2250_S128x2250_1_0_0_1_n_n none v67 (extractStridedSlice S32x2250 ![0, 2250 * c] (k0_pay25 x8) (slices_chunk c hc))
    (constant S128x2250 .f32 0x00000000#32)

/-- Row `r` of chunk `c`'s logits block is chunk `c` of that row's 27000 cluster logits. -/
theorem chunk_logits (v67 : FVec Ideal S128x32 .bf16) (x8 : Vec Ideal S32x27000 .bf16) (r : Fin 128) (s3 : Fin 32 → E)
    (h67 : ∀ k, v67 (ix2 r k) = s3 k) (c : ℕ) (hc : c < 12) (j : Fin 2250) :
    lg v67 x8 c hc (ix2 r j) = chunk (logits (B3K x8) s3) c j := by
  refine (plainDot_apply v67 _ r j).trans ?_
  have hlt : 2250 * c + j.val < 27000 := by have := j.isLt; omega
  unfold chunk
  rw [dif_pos hlt]
  unfold logits
  refine Finset.sum_congr rfl fun k _ => ?_
  rw [h67 k, slice2_axis1_apply (2250 * c) (k0_pay25 x8) _ k j ⟨2250 * c + j.val, hlt⟩ rfl, pay25_apply]

/-- Selecting on `lo ≤ l < hi`, tested on words, is the `if` on `inRange`. -/
theorem rangeSel {α : Type} (l lo hi : BitVec 32) (low high : ℤ) (hlo : lo.toInt = low) (hhi : hi.toInt = high) (a b : α) :
    Scalar.select (IntOp.andi (IntOp.cmpi .sge l lo) (IntOp.cmpi .slt l hi)) a b = if inRange l low high then a else b := by
  have hbit : IntOp.andi (IntOp.cmpi .sge l lo) (IntOp.cmpi .slt l hi) = 1#1 ↔ inRange l low high := by
    rw [IntOp.andi_eq_one, IntOp.cmpi_sge, IntOp.cmpi_slt, hlo, hhi]
    rfl
  by_cases h : inRange l low high
  · rw [hbit.mpr h, select_one, if_pos h]
  · rw [eq_zero_of_ne_one (fun e => h (hbit.mp e)), select_zero, if_neg h]

/-- Selecting on a word-equality test is an `if` on the equality. -/
theorem select_cmpi_eq {α : Type} (x y : BitVec 32) (a b : α) :
    Scalar.select (IntOp.cmpi .eq x y) a b = if x = y then a else b := by
  by_cases hxy : x = y
  · rw [IntOp.cmpi_eq.mpr hxy, select_one, if_pos hxy]
  · rw [eq_zero_of_ne_one (fun e => hxy (IntOp.cmpi_eq.mp e)), select_zero, if_neg hxy]

/-- If the label's column is in chunk `c`, passing chunk `c` gathers that column's logit; -/
theorem gsel_succ_in (z : Fin 27000 → E) (ρ : BitVec 32) (c : ℕ) (hc : c < 12) (h1 : 2250 * (c : ℤ) ≤ ρ.toInt)
    (h2 : ρ.toInt < 2250 * ((c : ℤ) + 1)) (j0 : Fin 2250) (hj0 : 2250 * c + j0.val = ρ.toInt.toNat) :
    gsel z ρ (c + 1) = chunk z c j0 := by
  unfold gsel chunk
  have hlt : 2250 * c + j0.val < 27000 := by have := j0.isLt; omega
  rw [dif_pos ⟨by omega, by push_cast; omega, by omega⟩, dif_pos hlt]
  congr 1
  exact Fin.ext hj0.symm

/-- if not, passing chunk `c` changes nothing. -/
theorem gsel_succ_out (z : Fin 27000 → E) (ρ : BitVec 32) (c : ℕ)
    (h : ¬(2250 * (c : ℤ) ≤ ρ.toInt ∧ ρ.toInt < 2250 * ((c : ℤ) + 1))) :
    gsel z ρ (c + 1) = gsel z ρ c := by
  unfold gsel
  by_cases hA : 0 ≤ ρ.toInt ∧ ρ.toInt < 2250 * (c : ℤ) ∧ ρ.toInt < 27000
  · rw [dif_pos hA, dif_pos ⟨hA.1, by push_cast; omega, hA.2.2⟩]
  · rw [dif_neg hA, dif_neg (by push_cast; omega)]

/-- Nothing is gathered before the first chunk. -/
theorem gsel_zero (z : Fin 27000 → E) (ρ : BitVec 32) : gsel z ρ 0 = 0 :=
  dif_neg (by rintro ⟨h0, h1, _⟩; omega)

/-- Once all twelve chunks are passed, the gathered logit is the one at the label's column. -/
theorem gsel_twelve (z : Fin 27000 → E) (ρ : BitVec 32) (i : Fin 27000) (h : ρ.toInt = (i.val : ℤ)) : gsel z ρ 12 = z i := by
  have := i.isLt
  unfold gsel
  rw [dif_pos ⟨by omega, by omega, by omega⟩]
  congr 1
  apply Fin.ext
  show ρ.toInt.toNat = _
  rw [h]
  exact Int.toNat_natCast _

section Update
variable (rel : IVec S128x1 32) (L : FVec Ideal S128x2250 .f32) (m l g : FVec Ideal S128x1 .f32)

/-- One more chunk with logits `L` turns the maximum column `m` into this, -/
def mx : FVec Ideal S128x1 .f32 :=
  maximumf m (shapeCast S128x1 (multiReduction .maximumf [1] S128 L 0xFF800000#32 reduces_S128x2250_S128 (.inl rfl) rfl) shapeCasts_S128_S128x1)

/-- the sum column `l` into this, -/
def sm : FVec Ideal S128x1 .f32 :=
  addf (mulf l (exp (subf m (mx L m)))) (shapeCast S128x1 (multiReduction .add [1] S128
    (exp (subf L (broadcastTo S128x2250 (mx L m) broadcasts_S128x1_S128x2250))) 0x00000000#32 reduces_S128x2250_S128 (.inl rfl) rfl) shapeCasts_S128_S128x1)

/-- and, as chunk number `c`, the gathered column `g` into this (`rel` holds the labels' columns). -/
def gt (c : ℕ) : FVec Ideal S128x1 .f32 :=
  select (andi (cmpi .sge rel (broadcast S128x1 (BitVec.ofNat 32 (2250 * c)))) (cmpi .slt rel (broadcast S128x1 (BitVec.ofNat 32 (2250 * (c + 1))))))
    (shapeCast S128x1 (multiReduction .add [1] S128
      (select (cmpi .eq (addi (iota .tc S128x2250 32 [1] iota_S128x2250_d1_w32) (broadcast S128x2250 (BitVec.ofNat 32 (2250 * c)))) (broadcastTo S128x2250 rel broadcasts_S128x1_S128x2250)) L
        (broadcast S128x2250 (Scalar.ofBits .f32 0x00000000#32))) 0x00000000#32 reduces_S128x2250_S128 (.inl rfl) rfl) shapeCasts_S128_S128x1) g

/-- Row `r` of the three columns agrees with the running maximum, sum and gathered logit of `z` after `c` chunks. -/
structure St (r : Fin 128) (z : Fin 27000 → E) (c : ℕ) : Prop where
  hm : m (ix2 r 0) = (online z c).1
  hl : l (ix2 r 0) = (online z c).2
  hg : g (ix2 r 0) = gsel z (rel (ix2 r 0)) c

end Update

section Step
variable {rel : IVec S128x1 32} {L : FVec Ideal S128x2250 .f32} {m l g : FVec Ideal S128x1 .f32} {r : Fin 128} {z : Fin 27000 → E} {c : ℕ}

/-- The new maximum is the old one against the chunk's row maximum. -/
theorem max_step (hm : m (ix2 r 0) = (online z c).1) (hL : ∀ j, L (ix2 r j) = chunk z c j) :
    mx L m (ix2 r 0) = (online z (c + 1)).1 := by
  show max (m (ix2 r 0)) (shapeCast S128x1 _ _ (ix2 r 0)) = max (online z c).1 (rowMax (chunk z c))
  rw [col_apply, lanemax_apply, hm, funext hL]

/-- The new sum is the old one times `exp (m - m')` plus the chunk's `exp (z - m')`. -/
theorem sum_step (hm : m (ix2 r 0) = (online z c).1) (hl : l (ix2 r 0) = (online z c).2)
    (hL : ∀ j, L (ix2 r j) = chunk z c j) : sm L m l (ix2 r 0) = (online z (c + 1)).2 := by
  show l (ix2 r 0) * Ideal.exp (m (ix2 r 0) - mx L m (ix2 r 0)) + shapeCast S128x1 _ _ (ix2 r 0)
    = (online z c).2 * Ideal.exp ((online z c).1 - (online z (c + 1)).1) + ∑ j, Ideal.exp (chunk z c j - (online z (c + 1)).1)
  rw [col_apply, lanesum_apply, hm, hl, max_step hm hL]
  congr 1
  refine Finset.sum_congr rfl fun j _ => ?_
  show Ideal.exp (L (ix2 r j) - broadcastTo S128x2250 (mx L m) _ (ix2 r j)) = _
  rw [bcast_apply, hL, max_step hm hL]

/-- Masked by column number, the chunk's lane sum is the label's logit; the range test keeps it or the old value. -/
theorem gather_step (hc : c < 12) (hg : g (ix2 r 0) = gsel z (rel (ix2 r 0)) c)
    (hL : ∀ j, L (ix2 r j) = chunk z c j) : gt rel L g c (ix2 r 0) = gsel z (rel (ix2 r 0)) (c + 1) := by
  generalize hρ : rel (ix2 r 0) = ρ at hg
  have hloI : (BitVec.ofNat 32 (2250 * c)).toInt = 2250 * (c : ℤ) := by
    have := toInt_ofNat_of_lt (k := 2250 * c) (by omega); omega
  have hhiI : (BitVec.ofNat 32 (2250 * (c + 1))).toInt = 2250 * ((c : ℤ) + 1) := by
    have := toInt_ofNat_of_lt (k := 2250 * (c + 1)) (by omega); omega
  show Scalar.select (IntOp.andi (IntOp.cmpi .sge (rel (ix2 r 0)) (BitVec.ofNat 32 (2250 * c))) (IntOp.cmpi .slt (rel (ix2 r 0)) (BitVec.ofNat 32 (2250 * (c + 1)))))
      (shapeCast S128x1 _ _ (ix2 r 0)) (g (ix2 r 0)) = _
  rw [rangeSel _ _ _ _ _ hloI hhiI, col_apply, lanesum_apply, hρ, hg]
  by_cases hin : inRange ρ (2250 * (c : ℤ)) (2250 * ((c : ℤ) + 1))
  · rw [if_pos hin]
    obtain ⟨h1, h2⟩ : 2250 * (c : ℤ) ≤ ρ.toInt ∧ ρ.toInt < 2250 * ((c : ℤ) + 1) := hin
    have hj0 : ρ.toInt.toNat - 2250 * c < 2250 := by omega
    rw [gsel_succ_in z ρ c hc h1 h2 ⟨ρ.toInt.toNat - 2250 * c, hj0⟩ (by show 2250 * c + (ρ.toInt.toNat - 2250 * c) = _; omega)]
    rw [← hL]
    refine Eq.trans (Finset.sum_congr rfl fun j _ => ?_)
      ((Finset.sum_ite_eq Finset.univ (⟨ρ.toInt.toNat - 2250 * c, hj0⟩ : Fin 2250) fun j => L (ix2 r j)).trans (if_pos (Finset.mem_univ _)))
    show Scalar.select (IntOp.cmpi .eq (IntOp.addi (iota .tc S128x2250 32 [1] _ (ix2 r j)) (BitVec.ofNat 32 (2250 * c))) (broadcastTo S128x2250 rel _ (ix2 r j)))
      (L (ix2 r j)) (Ideal.ofBits .f32 0x00000000#32) = _
    rw [iota_apply, bcast_apply, hρ, select_cmpi_eq, Ideal.ofBits_zero_f32]
    refine if_congr ?_ rfl rfl
    have hcond := BitVec.toInt_eq_toNat_cond ρ
    have hlt := ρ.isLt
    have := j.isLt
    unfold IntOp.addi
    rw [← BitVec.toNat_inj, BitVec.toNat_add, BitVec.toNat_ofNat, BitVec.toNat_ofNat, Fin.ext_iff]
    show _ ↔ ρ.toInt.toNat - 2250 * c = j.val
    split_ifs at hcond <;> omega
  · rw [if_neg hin, gsel_succ_out z ρ c hin]

/-- One chunk on. -/
theorem St.step (s : St rel m l g r z c) (hc : c < 12) (hL : ∀ j, L (ix2 r j) = chunk z c j) :
    St rel (mx L m) (sm L m l) (gt rel L g c) r z (c + 1) :=
  ⟨max_step s.hm hL, sum_step s.hm s.hl hL, gather_step hc s.hg hL⟩

end Step

/-- Before the first chunk: minus infinity, zero, zero. -/
theorem St.zero (rel : IVec S128x1 32) (r : Fin 128) (z : Fin 27000 → E) :
    St rel k0_pay23 (broadcast S128x1 (Scalar.ofBits .f32 0x00000000#32)) k0_pay24 r z 0 :=
  ⟨rfl, Ideal.ofBits_zero_f32, Ideal.ofBits_zero_f32.trans (gsel_zero z _).symm⟩

/-- After twelve chunks the value column reads: cluster log-probability plus gathered logit minus `m + log l`. -/
theorem St.fin {rel : IVec S128x1 32} {m l g : FVec Ideal S128x1 .f32} {r : Fin 128} {z : Fin 27000 → E} (s : St rel m l g r z 12)
    (v36 : FVec Ideal S128x1003 .f32) (v45 : FVec Ideal S128x1 .f32) :
    subf (addf (subf (extractStridedSlice S128x1 ![0, 1002] v36 slices_S128x1003_o0_1002_S128x1) v45) g) (addf m (log l)) (ix2 r 0)
      = v36 (ix2 r (⟨1002, by norm_num⟩ : Fin 1003)) - v45 (ix2 r 0) + gsel z (rel (ix2 r 0)) 12
        - ((online z 12).1 + Ideal.log (online z 12).2) := by
  show extractStridedSlice S128x1 ![0, 1002] v36 _ (ix2 r 0) - v45 (ix2 r 0) + g (ix2 r 0)
    - (m (ix2 r 0) + Ideal.log (l (ix2 r 0))) = _
  rw [s.hm, s.hl, s.hg, slice2_axis1_apply 1002 v36 _ r 0 ⟨1002, by norm_num⟩ rfl]

end Cert.KernelIdeal.KTail3

end
-- ==== Proof.KHead.lean ====
import proofs.«407706_j38671885534012_3_alg».proof.Proof.KChunk

noncomputable section

namespace Cert.KernelIdeal.KHead

open Idealize.ShloMosaic Idealize.ShloMosaic.ValueIdx Cert.KernelIdeal Cert.KernelIdeal.Gen Cert.KernelIdeal.KBody Cert.KernelIdeal.Blocks Cert.Spec Cert.KernelIdeal.KTail3

/-- The reciprocal square root acts entry by entry. -/
theorem rsqrt_apply {s : Shape} {φ : FTy} (a : FVec Ideal s φ) (i : s.Idx) : rsqrt a i = Ideal.rsqrt (a i) := rfl

variable (x0 : Vec Ideal S128x2048 .f32) (x1 : Vec Ideal S128x1 .i32) (x2 x3 : Vec Ideal S2048 .f32) (x4 : Vec Ideal S2048x1003 .bf16)

/-- Each row of the normalised block is the LayerNorm of that row of the hidden block. -/
theorem pay3_row (r : Fin 128) (k : Fin 2048) :
    k0_pay3 x0 x2 x3 (ix2 r k) = hrow (rowOf x0 r) (vec1 x2) (vec1 x3) k := by
  unfold k0_pay3
  simp only [shapeCast_self]
  simp only [truncf_apply, addf_apply, mulf_apply, subf_apply, divf_apply, rsqrt_apply, broadcast_apply,
    bcast_apply, broadcastTo_1b_ab_apply, shapeCast_a_1a_apply, col_apply]
  rw [lanesum_apply x0, lanesum_apply]
  simp only [mulf_apply, subf_apply, divf_apply, broadcast_apply, bcast_apply, col_apply]
  rw [lanesum_apply x0]
  simp only [hrow, mean, var, rowOf, vec1, c2048, eps]
  rfl

/-- The label column holds the labels. -/
theorem pay4_row (r : Fin 128) : k0_pay4 x1 (ix2 r 0) = lblOf x1 r := by
  unfold k0_pay4
  simp only [shapeCast_self]
  rfl

/-- The head's logits at a row. -/
theorem pay5_row (r : Fin 128) (j : Fin 1003) :
    k0_pay5 x0 x2 x3 x4 (ix2 r j) = zH (rowOf x0 r) (vec1 x2) (vec1 x3) (WhK x4) j := by
  unfold k0_pay5
  simp only [shapeCast_self]
  refine (plainDot_apply _ _ r j).trans ?_
  simp only [pay3_row]
  rfl

/-- Their row maximum, as a column, -/
theorem pay6_row (r : Fin 128) :
    k0_pay6 x0 x2 x3 x4 (ix2 r 0) = rowMax (zH (rowOf x0 r) (vec1 x2) (vec1 x3) (WhK x4)) := by
  unfold k0_pay6
  simp only [col_apply]
  rw [lanemax_apply]
  simp only [pay5_row]

/-- and spread back over the lanes. -/
theorem pay7_row (r : Fin 128) (j : Fin 1003) :
    k0_pay7 x0 x2 x3 x4 (ix2 r j) = rowMax (zH (rowOf x0 r) (vec1 x2) (vec1 x3) (WhK x4)) := by
  unfold k0_pay7
  simp only [bcast_apply]
  exact pay6_row x0 x2 x3 x4 r

end Cert.KernelIdeal.KHead

end
-- ==== Proof.KTail12.lean ====
import proofs.«407706_j38671885534012_3_alg».proof.Proof.KChunk

noncomputable section

namespace Cert.KernelIdeal.KTail12

open Idealize.ShloMosaic Idealize.ShloMosaic.ValueIdx Cert.KernelIdeal Cert.KernelIdeal.Gen Cert.KernelIdeal.KBody Cert.KernelIdeal.Blocks Cert.Spec Cert.KernelIdeal.KTail3

/-- A word whose signed value is the natural number `k` is the word of `k`. -/
theorem eq_ofNat_of_toInt (c : BitVec 32) (k : ℕ) (h : c.toInt = (k : ℤ)) : c = BitVec.ofNat 32 k := by
  have h2 := BitVec.toInt_eq_toNat_cond c
  have h3 := c.isLt
  apply BitVec.eq_of_toNat_eq
  rw [BitVec.toNat_ofNat]
  split_ifs at h2 <;> omega

/-- Summing, over the lanes, the entries whose lane number equals the word of `i` leaves the entry at `i`. -/
theorem onehot_sum {n : ℕ} (hn : n ≤ 2 ^ 32) (f : Fin n → E) (c : BitVec 32) (i : Fin n) (hc : c = BitVec.ofNat 32 i.val) :
    ∑ j : Fin n, Scalar.select (IntOp.cmpi .eq (BitVec.ofNat 32 j.val) c) (f j) (Ideal.ofBits .f32 0x00000000#32) = f i := by
  have hiff : ∀ j : Fin n, BitVec.ofNat 32 j.val = c ↔ i = j := fun j => by
    rw [hc, ← BitVec.toNat_inj, BitVec.toNat_ofNat, BitVec.toNat_ofNat, Fin.ext_iff]
    have := j.isLt
    have := i.isLt
    omega
  simp only [select_cmpi_eq, Ideal.ofBits_zero_f32, hiff]
  exact (Finset.sum_ite_eq Finset.univ i f).trans (if_pos (Finset.mem_univ i))

/-- The shortlist's clipped label is the word of the specification's clip index. -/
theorem clip0_eq (l : BitVec 32) :
    IntOp.minsi 999#32 (IntOp.maxsi 0#32 l) = BitVec.ofNat 32 (clipIdx l 0 1000 (by norm_num)).val := by
  refine eq_ofNat_of_toInt _ _ ?_
  rw [clip_toInt _ _ (by decide)]
  have h999 : (999#32 : BitVec 32).toInt = 999 := by decide
  unfold clipIdx
  simp only [h999]
  omega

/-- So is a cluster's clipped relative label, for a label at or past the cluster's first class. -/
theorem clipRel_eq (l lo hi : BitVec 32) (low : ℤ) (n : ℕ) (hn : 0 < n) (hlo : lo.toInt = low) (hhi : hi.toInt = (n : ℤ) - 1)
    (h0 : 0 ≤ low) (hl : low ≤ l.toInt) :
    IntOp.minsi hi (IntOp.maxsi 0#32 (IntOp.subi l lo)) = BitVec.ofNat 32 (clipIdx l low n hn).val := by
  refine eq_ofNat_of_toInt _ _ ?_
  rw [clip_toInt _ _ (by omega), subi_toInt l lo (by omega) (by omega), hlo, hhi]
  unfold clipIdx
  simp only []
  omega

/-- Masking a block by "lane number = the row's index" and summing along the lanes picks the row's entry at the index. -/
theorem gatherCol_apply {n : ℕ} (hn : n ≤ 2 ^ 32) (X : FVec Ideal ⟨2, ![128, n]⟩ .f32) (idx : IVec S128x1 32)
    (hio : Shape.Iotas ⟨2, ![128, n]⟩ .tc 32 [1]) (hb : S128x1.Broadcasts ⟨2, ![128, n]⟩)
    (hr : Shape.Reduces ⟨2, ![128, n]⟩ [1] S128) (hφ : FKind.Formats .f32) (ha : (0x00000000#32 : BitVec 32) = FKind.add.neutral .f32 hφ)
    (hc : S128.ShapeCasts S128x1) (r : Fin 128) (i : Fin n) (hi : idx (ix2 r 0) = BitVec.ofNat 32 i.val) :
    shapeCast S128x1 (multiReduction .add [1] S128
        (select (cmpi .eq (iota .tc ⟨2, ![128, n]⟩ 32 [1] hio) (broadcastTo ⟨2, ![128, n]⟩ idx hb)) X
          (broadcast ⟨2, ![128, n]⟩ (Scalar.ofBits .f32 0x00000000#32))) 0x00000000#32 hr hφ ha) hc (ix2 r 0)
      = X (ix2 r i) := by
  refine ((col_apply _ _ r 0).trans (lanesum_apply _ _ _ _ r)).trans ?_
  refine Eq.trans (Finset.sum_congr rfl fun j _ => ?_) (onehot_sum hn (fun j => X (ix2 r j)) (idx (ix2 r 0)) i hi)
  show Scalar.select (IntOp.cmpi .eq (iota .tc ⟨2, ![128, n]⟩ 32 [1] hio (ix2 r j)) (broadcastTo ⟨2, ![128, n]⟩ idx hb (ix2 r j))) (X (ix2 r j)) _ = _
  rw [iota_apply, bcast_apply]
  rfl

/-- `m + log (∑ exp (X - M))` along a row is the row's log-sum-exp once `m` and `M` hold the row's maximum. -/
theorem lseOf_apply {n : ℕ} (X M : FVec Ideal ⟨2, ![128, n]⟩ .f32) (m : FVec Ideal S128x1 .f32)
    (hr : Shape.Reduces ⟨2, ![128, n]⟩ [1] S128) (hφ : FKind.Formats .f32) (ha : (0x00000000#32 : BitVec 32) = FKind.add.neutral .f32 hφ)
    (hc : S128.ShapeCasts S128x1) (r : Fin 128) (z : Fin n → E) (hz : ∀ j, X (ix2 r j) = z j)
    (hm : m (ix2 r 0) = rowMax z) (hM : ∀ j, M (ix2 r j) = rowMax z) :
    addf m (log (shapeCast S128x1 (multiReduction .add [1] S128 (exp (subf X M)) 0x00000000#32 hr hφ ha) hc)) (ix2 r 0) = lse z := by
  show m (ix2 r 0) + Ideal.log (shapeCast S128x1 (multiReduction .add [1] S128 (exp (subf X M)) 0x00000000#32 hr hφ ha) hc (ix2 r 0)) = lse z
  refine (congrArg₂ (· + ·) hm (congrArg Ideal.log ((col_apply _ _ r 0).trans (lanesum_apply _ _ _ _ r)))).trans ?_
  unfold lse
  refine congrArg (fun s => rowMax z + Ideal.log s) (Finset.sum_congr rfl fun k _ => ?_)
  show Ideal.exp (X (ix2 r k) - M (ix2 r k)) = _
  rw [hz, hM]

/-- Lane maximum, subtract, exponentiate, lane sum, logarithm, add the maximum back: a row's log-sum-exp. -/
theorem lseCol_apply {n : ℕ} (X : FVec Ideal ⟨2, ![128, n]⟩ .f32)
    (hr : Shape.Reduces ⟨2, ![128, n]⟩ [1] S128) (hφ : FKind.Formats .f32)
    (hm : (0xFF800000#32 : BitVec 32) = FKind.maximumf.neutral .f32 hφ) (ha : (0x00000000#32 : BitVec 32) = FKind.add.neutral .f32 hφ)
    (hc : S128.ShapeCasts S128x1) (hb : S128x1.Broadcasts ⟨2, ![128, n]⟩) (r : Fin 128) (z : Fin n → E) (hz : ∀ j, X (ix2 r j) = z j) :
    addf (shapeCast S128x1 (multiReduction .maximumf [1] S128 X 0xFF800000#32 hr hφ hm) hc)
      (log (shapeCast S128x1 (multiReduction .add [1] S128
        (exp (subf X (broadcastTo ⟨2, ![128, n]⟩ (shapeCast S128x1 (multiReduction .maximumf [1] S128 X 0xFF800000#32 hr hφ hm) hc) hb)))
        0x00000000#32 hr hφ ha) hc)) (ix2 r 0) = lse z :=
  have hmax : shapeCast S128x1 (multiReduction .maximumf [1] S128 X 0xFF800000#32 hr hφ hm) hc (ix2 r 0) = rowMax z :=
    ((col_apply _ _ r 0).trans (lanemax_apply X hr hφ hm r)).trans (congrArg rowMax (funext hz))
  lseOf_apply X _ _ hr hφ ha hc r z hz hmax fun j => (bcast_apply _ hb r j).trans hmax

variable (v31 : FVec Ideal S128x2048 .bf16) (v33 : IVec S128x1 32) (v36 : FVec Ideal S128x1003 .f32) (v38 : FVec Ideal S128x1 .f32)
  (v39 : FVec Ideal S128x1003 .f32) (x5 : Vec Ideal S2048x672 .bf16) (x6 : Vec Ideal S512x1000 .bf16) (x7 : Vec Ideal S128x3000 .bf16)

/-- The head's log-sum-exp at a row, from the row's logits and their maximum. -/
theorem v45_row (r : Fin 128) (z : Fin 1003 → E) (h36 : ∀ j, v36 (ix2 r j) = z j)
    (h38 : v38 (ix2 r 0) = rowMax z) (h39 : ∀ j, v39 (ix2 r j) = rowMax z) :
    v45Of v36 v38 v39 (ix2 r 0) = lse z :=
  lseOf_apply v36 v39 v38 _ _ _ _ r z h36 h38 h39

/-- An entry of the fused projection is the row against that column of the fused weights. -/
theorem fused_row (r : Fin 128) (h : Fin 2048 → E) (h31 : ∀ k, v31 (ix2 r k) = h k) (i : Fin 672) :
    k0_pay10 v31 x5 (ix2 r i) = ∑ k, h k * x5 (ix2 k i) :=
  (plainDot_apply v31 _ r i).trans (Finset.sum_congr rfl fun k _ => by rw [h31, shapeCast_self])

/-- Columns 0–511 of the fused projection are the first cluster's hidden row, -/
theorem s1_apply (r : Fin 128) (h : Fin 2048 → E) (h31 : ∀ k, v31 (ix2 r k) = h k) (j : Fin 512) :
    truncf .bf16 (extractStridedSlice S128x512 ![0, 0] (k0_pay10 v31 x5) slices_S128x672_o0_0_S128x512) bitsLt_bf16_f32 (ix2 r j)
      = logits (A1K x5) h j :=
  (slice2_axis1_apply 0 (k0_pay10 v31 x5) slices_S128x672_o0_0_S128x512 r j ⟨j.val, by omega⟩ (by simp)).trans (fused_row v31 x5 r h h31 _)

/-- columns 512–639 the second cluster's, -/
theorem s2_apply (r : Fin 128) (h : Fin 2048 → E) (h31 : ∀ k, v31 (ix2 r k) = h k) (j : Fin 128) :
    k0_pay11 v31 x5 (ix2 r j) = logits (A2K x5) h j :=
  (slice2_axis1_apply 512 (k0_pay10 v31 x5) slices_S128x672_o0_512_S128x128 r j ⟨512 + j.val, by omega⟩ rfl).trans (fused_row v31 x5 r h h31 _)

/-- and columns 640–671 the third cluster's. -/
theorem v67_row (r : Fin 128) (h : Fin 2048 → E) (h31 : ∀ k, v31 (ix2 r k) = h k) (j : Fin 32) :
    v67Of v31 x5 (ix2 r j) = logits (A3K x5) h j :=
  (slice2_axis1_apply 640 (k0_pay10 v31 x5) slices_S128x672_o0_640_S128x32 r j ⟨640 + j.val, by omega⟩ rfl).trans (fused_row v31 x5 r h h31 _)

section Rows

variable (r : Fin 128) (h : Fin 2048 → E) (z : Fin 1003 → E)

/-- The shortlist value: the head's logit at the clipped label less the head's log-sum-exp. -/
theorem pay9_row (h36 : ∀ j, v36 (ix2 r j) = z j) (h38 : v38 (ix2 r 0) = rowMax z) (h39 : ∀ j, v39 (ix2 r j) = rowMax z) :
    k0_pay9 v33 v36 v38 v39 (ix2 r 0) = z (idxH (v33 (ix2 r 0))) - lse z := by
  unfold k0_pay9
  refine (subf_apply _ _ _).trans ?_
  refine congrArg₂ (· - ·) ?_ (v45_row v36 v38 v39 r z h36 h38 h39)
  refine (gatherCol_apply (by norm_num) _ _ _ _ _ _ _ _ r (clipIdx (v33 (ix2 r 0)) 0 1000 (by norm_num)) (clip0_eq _)).trans ?_
  exact (slice2_axis1_apply 0 v36 _ r _ (idxH (v33 (ix2 r 0))) (by simp [idxH])).trans (h36 _)

/-- The first cluster's logits at a row. -/
theorem pay13_row (h31 : ∀ k, v31 (ix2 r k) = h k) (j : Fin 1000) :
    k0_pay13 v31 x5 x6 (ix2 r j) = logits (B1K x6) (logits (A1K x5) h) j := by
  unfold k0_pay13
  refine (plainDot_apply _ _ r j).trans ?_
  show _ = ∑ q, logits (A1K x5) h q * x6 (ix2 q j)
  exact Finset.sum_congr rfl fun q _ => congrArg₂ (· * ·) (s1_apply v31 x5 r h h31 q) (congrFun (shapeCast_self x6 _) _)

/-- Their log-sum-exp. -/
theorem pay14_row (h31 : ∀ k, v31 (ix2 r k) = h k) :
    k0_pay14 v31 x5 x6 (ix2 r 0) = lse (logits (B1K x6) (logits (A1K x5) h)) := by
  unfold k0_pay14
  exact lseCol_apply (k0_pay13 v31 x5 x6) _ _ _ _ _ _ r _ (pay13_row v31 x5 x6 r h h31)

/-- Inside the first cluster's label range the value becomes the cluster's log-probability; outside it stays. -/
theorem pay16_row (v45 v58 : FVec Ideal S128x1 .f32) (v70 : FVec Ideal S128x1000 .f32) (v79 : FVec Ideal S128x1 .f32)
    (h36 : ∀ j, v36 (ix2 r j) = z j) :
    k0_pay16 v33 v36 v45 v58 v70 v79 999#32 (k0_pay15 v33) (ix2 r 0)
      = if inRange (v33 (ix2 r 0)) 1000 2000 then
          (z ⟨1000, by norm_num⟩ - v45 (ix2 r 0)) + v70 (ix2 r (clipIdx (v33 (ix2 r 0)) 1000 1000 (by norm_num)))
            - v79 (ix2 r 0)
        else v58 (ix2 r 0) := by
  unfold k0_pay16 k0_pay15
  refine (select_apply _ _ _ _).trans ?_
  refine (rangeSel (v33 (ix2 r 0)) 1000#32 2000#32 1000 2000 (by decide) (by decide) _ _).trans ?_
  by_cases hl : inRange (v33 (ix2 r 0)) 1000 2000
  · rw [if_pos hl, if_pos hl]
    refine (subf_apply _ _ _).trans (congrArg₂ (· - ·) ?_ rfl)
    refine (addf_apply _ _ _).trans (congrArg₂ (· + ·) ?_ ?_)
    · refine (subf_apply _ _ _).trans (congrArg₂ (· - ·) ?_ rfl)
      exact (slice2_axis1_apply 1000 v36 _ r 0 ⟨1000, by norm_num⟩ rfl).trans (h36 _)
    · exact gatherCol_apply (by norm_num) v70 _ _ _ _ _ _ _ r _
        (clipRel_eq _ 1000#32 999#32 1000 1000 _ (by decide) (by decide) (by norm_num) hl.1)
  · rw [if_neg hl, if_neg hl]

/-- The second cluster's logits at a row, from the cluster's hidden row. -/
theorem pay17_row (v65 : FVec Ideal S128x128 .bf16) (s : Fin 128 → E) (hs : ∀ q, v65 (ix2 r q) = s q) (j : Fin 3000) :
    k0_pay17 v65 x7 (ix2 r j) = logits (B2K x7) s j := by
  unfold k0_pay17
  refine (plainDot_apply _ _ r j).trans ?_
  show _ = ∑ q, s q * x7 (ix2 q j)
  exact Finset.sum_congr rfl fun q _ => congrArg₂ (· * ·) (hs q) (congrFun (shapeCast_self x7 _) _)

/-- Their log-sum-exp. -/
theorem pay18_row (v65 : FVec Ideal S128x128 .bf16) (s : Fin 128 → E) (hs : ∀ q, v65 (ix2 r q) = s q) :
    k0_pay18 v65 x7 (ix2 r 0) = lse (logits (B2K x7) s) := by
  unfold k0_pay18
  exact lseCol_apply (k0_pay17 v65 x7) _ _ _ _ _ _ r _ (pay17_row x7 r v65 s hs)

/-- The second cluster's logit at the relative label, for a label in its range. -/
theorem pay19_row (v65 : FVec Ideal S128x128 .bf16) (hl : inRange (v33 (ix2 r 0)) 2000 5000) :
    k0_pay19 v33 v65 x7 (ix2 r 0)
      = k0_pay17 v65 x7 (ix2 r (clipIdx (v33 (ix2 r 0)) 2000 3000 (by norm_num))) := by
  unfold k0_pay19
  exact gatherCol_apply (by norm_num) (k0_pay17 v65 x7) _ _ _ _ _ _ _ r _
    (clipRel_eq _ 2000#32 2999#32 2000 3000 _ (by decide) (by decide) (by norm_num) hl.1)

/-- The head's log-probability of the second cluster. -/
theorem pay20_row (v45 : FVec Ideal S128x1 .f32) (h36 : ∀ j, v36 (ix2 r j) = z j) :
    k0_pay20 v36 v45 (ix2 r 0) = z ⟨1001, by norm_num⟩ - v45 (ix2 r 0) := by
  unfold k0_pay20
  refine (subf_apply _ _ _).trans (congrArg₂ (· - ·) ?_ rfl)
  exact (slice2_axis1_apply 1001 v36 _ r 0 ⟨1001, by norm_num⟩ rfl).trans (h36 _)

/-- The second cluster's range test chooses between its log-probability and the value so far. -/
theorem pay21_row (v102 v114 v127 v129 : FVec Ideal S128x1 .f32) :
    k0_pay21 v33 v102 v114 v127 v129 (ix2 r 0)
      = if inRange (v33 (ix2 r 0)) 2000 5000 then
          v129 (ix2 r 0) + v127 (ix2 r 0) - v114 (ix2 r 0)
        else v102 (ix2 r 0) := by
  unfold k0_pay21
  exact (select_apply _ _ _ _).trans (rangeSel (v33 (ix2 r 0)) 2000#32 5000#32 2000 5000 (by decide) (by decide) _ _)

end Rows

/-- The value after the shortlist and the first two clusters, at a row. -/
theorem out2_row (r : Fin 128) (h : Fin 2048 → E) (z : Fin 1003 → E) (h31 : ∀ k, v31 (ix2 r k) = h k)
    (h36 : ∀ j, v36 (ix2 r j) = z j) (h38 : v38 (ix2 r 0) = rowMax z) (h39 : ∀ j, v39 (ix2 r j) = rowMax z) :
    out2Val v31 v33 v36 v38 v39 x5 x6 x7 (ix2 r 0)
      = out2K h z (A1K x5) (B1K x6) (A2K x5) (B2K x7) (v33 (ix2 r 0)) := by
  have h45 := v45_row v36 v38 v39 r z h36 h38 h39
  unfold v45Of at h45
  unfold out2Val
  refine (pay21_row v33 r _ _ _ _).trans ?_
  show _ = if inRange _ 2000 5000 then _ else if inRange _ 1000 2000 then _ else _
  by_cases h2 : inRange (v33 (ix2 r 0)) 2000 5000
  · rw [if_pos h2, if_pos h2]
    refine congrArg₂ (· - ·) (congrArg₂ (· + ·) ?_ ?_) ?_
    · exact (pay20_row v36 r z _ h36).trans (congrArg (z ⟨1001, by norm_num⟩ - ·) h45)
    · exact (pay19_row v33 x7 r _ h2).trans (pay17_row x7 r _ _ (s2_apply v31 x5 r h h31) _)
    · exact pay18_row x7 r _ _ (s2_apply v31 x5 r h h31)
  · rw [if_neg h2, if_neg h2]
    refine (pay16_row v33 v36 r z _ _ _ _ h36).trans ?_
    by_cases h1 : inRange (v33 (ix2 r 0)) 1000 2000
    · rw [if_pos h1, if_pos h1]
      refine congrArg₂ (· - ·) (congrArg₂ (· + ·) (congrArg (z ⟨1000, by norm_num⟩ - ·) h45) ?_) ?_
      · exact pay13_row v31 x5 x6 r h h31 _
      · exact pay14_row v31 x5 x6 r h h31
    · rw [if_neg h1, if_neg h1]
      exact pay9_row v33 v36 v38 v39 r z h36 h38 h39

end Cert.KernelIdeal.KTail12

end
-- ==== Proof.KTail3a.lean ====
import proofs.«407706_j38671885534012_3_alg».proof.Proof.KChunk

noncomputable section

namespace Cert.KernelIdeal.KTail3

open Idealize.ShloMosaic Idealize.ShloMosaic.ValueIdx Cert.KernelIdeal Cert.KernelIdeal.Gen Cert.KernelIdeal.KBody Cert.KernelIdeal.Blocks Cert.Spec

/-- The relative label (the label less 5000, clipped to the cluster's columns) is the specification's clip index. -/
theorem pay22_toInt (v33 : IVec S128x1 32) (r : Fin 128) (h0 : 0 ≤ (v33 (ix2 r 0)).toInt) :
    (k0_pay22 v33 (ix2 r 0)).toInt = ((clipIdx (v33 (ix2 r 0)) 5000 27000 (by norm_num)).val : ℤ) := by
  show (IntOp.minsi 26999#32 (IntOp.maxsi 0#32 (IntOp.subi (v33 (ix2 r 0)) 5000#32))).toInt = _
  rw [clip_toInt _ _ (by decide), subi_toInt _ _ (by decide) h0]
  have h1 : (26999#32 : BitVec 32).toInt = 26999 := by decide
  have h2 : (5000#32 : BitVec 32).toInt = 5000 := by decide
  unfold clipIdx
  simp only [h1, h2]
  omega

end Cert.KernelIdeal.KTail3

end
-- ==== Proof.KTail3b.lean ====
import proofs.«407706_j38671885534012_3_alg».proof.Proof.KTail3a

noncomputable section

namespace Cert.KernelIdeal.KTail3

open Idealize.ShloMosaic Idealize.ShloMosaic.ValueIdx Cert.KernelIdeal Cert.KernelIdeal.Gen Cert.KernelIdeal.KBody Cert.KernelIdeal.Blocks Cert.Spec

variable (v33 : IVec S128x1 32) (v36 : FVec Ideal S128x1003 .f32) (v45 : FVec Ideal S128x1 .f32) (v67 : FVec Ideal S128x32 .bf16)
  (x8 : Vec Ideal S32x27000 .bf16)

/-- The cluster's value at a row: the start, twelve chunk steps, the closing arithmetic, then the label's column. -/
theorem tail3_row (r : Fin 128) (z : Fin 1003 → E) (s3 : Fin 32 → E) (lh : E)
    (h36 : ∀ j, v36 (ix2 r j) = z j) (h45 : v45 (ix2 r 0) = lh) (h67 : ∀ j, v67 (ix2 r j) = s3 j)
    (h0 : 0 ≤ (v33 (ix2 r 0)).toInt) :
    tail3Val v33 v36 v45 v67 x8 (ix2 r 0) = lp3K z (B3K x8) (v33 (ix2 r 0)) s3 lh := by
  have N := fun {c m l g} (s : St (k0_pay22 v33) m l g r (logits (B3K x8) s3) c) (hc : c < 12) =>
    s.step hc (chunk_logits v67 x8 r s3 h67 c hc)
  have t1 := N (St.zero (k0_pay22 v33) r _) (by decide)
  have t2 := N t1 (by decide)
  have t3 := N t2 (by decide)
  have t4 := N t3 (by decide)
  have t5 := N t4 (by decide)
  have t6 := N t5 (by decide)
  have t7 := N t6 (by decide)
  have t8 := N t7 (by decide)
  have t9 := N t8 (by decide)
  have t10 := N t9 (by decide)
  have t11 := N t10 (by decide)
  have t12 := N t11 (by decide)
  refine (t12.fin v36 v45).trans ?_
  rw [h36, h45, gsel_twelve _ _ _ (pay22_toInt v33 r h0)]
  rfl

end Cert.KernelIdeal.KTail3

end
-- ==== Proof.KRow.lean ====
/- The stored block is the block found plus, at the corner entry only, the sum of the point's 128 row values. -/
import proofs.«407706_j38671885534012_3_alg».proof.Proof.KHead
import proofs.«407706_j38671885534012_3_alg».proof.Proof.KTail12
import proofs.«407706_j38671885534012_3_alg».proof.Proof.KTail3b

noncomputable section

namespace Cert.KernelIdeal.KRow

open Idealize.ShloMosaic Idealize.ShloMosaic.ValueIdx Cert.KernelIdeal Cert.KernelIdeal.Gen Cert.KernelIdeal.KBody Cert.KernelIdeal.Blocks Cert.Spec

theorem sel_sge0 {α : Type} (l : BitVec 32) (x y : α) :
    Scalar.select (IntOp.cmpi .sge l 0#32) x y = if 0 ≤ l.toInt then x else y := by
  unfold Scalar.select IntOp.cmpi
  by_cases h : 0 ≤ l.toInt
  · have : (0#32).sle l = true := by rw [BitVec.sle_iff_toInt_le]; simpa using h
    simp [this, h]
  · have : (0#32).sle l = false := by
      rw [← Bool.not_eq_true, BitVec.sle_iff_toInt_le]; simpa using h
    simp [this, h]

theorem sel_range {α : Type} (l : BitVec 32) (x y : α) :
    Scalar.select (IntOp.andi (IntOp.cmpi .sge l 5000#32) (IntOp.cmpi .slt l 32000#32)) x y
      = if inRange l 5000 32000 then x else y := by
  unfold Scalar.select IntOp.cmpi IntOp.andi inRange
  have e1 : (5000#32).sle l = decide (5000 ≤ l.toInt) := by
    rw [Bool.eq_iff_iff, BitVec.sle_iff_toInt_le]; simp
  have e2 : l.slt 32000#32 = decide (l.toInt < 32000) := by
    rw [Bool.eq_iff_iff, BitVec.slt_iff_toInt_lt]; simp
  rw [e1, e2]
  by_cases h1 : 5000 ≤ l.toInt <;> by_cases h2 : l.toInt < 32000 <;> simp [h1, h2]

theorem sel_corner {α : Type} (a : Fin 8) (b : Fin 128) (x y : α) :
    Scalar.select (IntOp.andi (IntOp.cmpi .eq (BitVec.ofNat 32 a.val) 0#32) (IntOp.cmpi .eq (BitVec.ofNat 32 b.val) 0#32)) x y
      = if a.val = 0 ∧ b.val = 0 then x else y := by
  unfold Scalar.select IntOp.cmpi IntOp.andi
  have e1 : (BitVec.ofNat 32 a.val == 0#32) = decide (a.val = 0) := by
    rw [Bool.eq_iff_iff]; simp [BitVec.ofNat_eq_ofNat, ← BitVec.toNat_inj]; omega
  have e2 : (BitVec.ofNat 32 b.val == 0#32) = decide (b.val = 0) := by
    rw [Bool.eq_iff_iff]; simp [← BitVec.toNat_inj]; omega
  rw [e1, e2]
  by_cases h1 : a.val = 0 <;> by_cases h2 : b.val = 0 <;> simp [h1, h2]

theorem andi_ap {s : Shape} {w : Nat} (x y : IVec s w) (i : s.Idx) : andi x y i = IntOp.andi (x i) (y i) := rfl

theorem cmpi_ap {s : Shape} {w : Nat} (p : CmpIPredicate) (x y : IVec s w) (i : s.Idx) : cmpi p x y i = IntOp.cmpi p (x i) (y i) := rfl

theorem sum_S1x128x1 (f : (⟨3, ![1, 128, 1]⟩ : Shape).Idx → E) :
    ∑ i, f i = ∑ r : Fin 128, f (ix3 (0 : Fin 1) r (0 : Fin 1)) := by
  symm
  refine Fintype.sum_equiv ⟨fun r => ix3 (0 : Fin 1) r (0 : Fin 1), fun i => i 1, fun r => rfl, fun i => ?_⟩ _ _ (fun r => rfl)
  funext d
  match d with
  | ⟨0, _⟩ => show (0 : Fin 1) = (i 0 : Fin 1); exact (Fin.eq_zero _).symm
  | ⟨1, _⟩ => rfl
  | ⟨2, _⟩ => show (0 : Fin 1) = (i 2 : Fin 1); exact (Fin.eq_zero _).symm

theorem extract_total (x : FVec Ideal S1x128x1 .f32) (hr : S1x128x1.Reduces [1, 2] S1) (hφ : FKind.Formats .f32)
    (hacc : (0x00000000#32 : BitVec 32) = FKind.add.neutral .f32 hφ) (hc : S1.ShapeCasts S1x1x1)
    (hp : ∀ a, (![0, 0, 0] : Fin 3 → Nat) a < S1x1x1.size a) :
    extractAt ![0, 0, 0] (shapeCast S1x1x1 (multiReduction .add [1, 2] S1 x 0x00000000#32 hr hφ hacc) hc) hp
      = ∑ r : Fin 128, x (ix3 (0 : Fin 1) r (0 : Fin 1)) := by
  unfold extractAt shapeCast
  rw [Ideal.multiReduction_add_total x _ hr (fun b => by match b with | ⟨0, _⟩ => rfl) hφ hacc]
  exact sum_S1x128x1 x

theorem pay1_apply (v33 : IVec S128x1 32) (v137 v502 : FVec Ideal S128x1 .f32) (prev : Vec Ideal S8x128 .f32) (a : Fin 8) (b : Fin 128) :
    k0_pay1 (F := Ideal) v33 v137 v502 5000#32 prev (ix2 a b)
      = prev (ix2 a b) + (if a.val = 0 ∧ b.val = 0 then ∑ r : Fin 128, (if 0 ≤ (v33 (ix2 r (0 : Fin 1))).toInt then (if inRange (v33 (ix2 r (0 : Fin 1))) 5000 32000 then v502 (ix2 r (0 : Fin 1)) else v137 (ix2 r (0 : Fin 1))) else 0) else 0) := by
  unfold k0_pay1
  simp only [addf_apply, select_apply, broadcast_apply, shapeCast_self, andi_ap, cmpi_ap]
  have hi0 : iota Kind.tc S8x128 32 [0] iota_S8x128_d0_w32 (ix2 a b) = BitVec.ofNat 32 a.val :=
    iota_single_apply _ _ _ _ _ _
  have hi1 : iota Kind.tc S8x128 32 [1] iota_S8x128_d1_w32 (ix2 a b) = BitVec.ofNat 32 b.val :=
    iota_single_apply _ _ _ _ _ _
  rw [hi0, hi1, sel_corner]
  congr 1
  by_cases hc : a.val = 0 ∧ b.val = 0
  · rw [if_pos hc, if_pos hc]
    refine (extract_total _ _ _ _ _ _).trans ?_
    refine Finset.sum_congr rfl fun r _ => ?_
    rw [shapeCast_ab_1ab_apply]
    simp only [select_apply, andi_ap, cmpi_ap, broadcast_apply]
    rw [sel_sge0, sel_range]
    congr 1
    exact Ideal.ofBits_zero_f32
  · rw [if_neg hc, if_neg hc]; exact Ideal.ofBits_zero_f32

variable (x0 : Vec Ideal S128x2048 .f32) (x1 : Vec Ideal S128x1 .i32) (x2 x3 : Vec Ideal S2048 .f32) (x4 : Vec Ideal S2048x1003 .bf16)
  (x5 : Vec Ideal S2048x672 .bf16) (x6 : Vec Ideal S512x1000 .bf16) (x7 : Vec Ideal S128x3000 .bf16) (x8 : Vec Ideal S32x27000 .bf16)
  (prev : Vec Ideal S8x128 .f32)

def contrib : E :=
  ∑ r : Fin 128, kval (rowOf x0 r) (vec1 x2) (vec1 x3) (WhK x4) (A1K x5) (B1K x6) (A2K x5) (B2K x7) (A3K x5) (B3K x8) (lblOf x1 r)

theorem bodyVal_apply (a : Fin 8) (b : Fin 128) :
    bodyVal (F := Ideal) x0 x1 x2 x3 x4 x5 x6 x7 x8 prev (ix2 a b)
      = prev (ix2 a b) + (if a.val = 0 ∧ b.val = 0 then contrib x0 x1 x2 x3 x4 x5 x6 x7 x8 else 0) := by
  unfold bodyVal
  refine (pay1_apply _ _ _ _ _ _).trans ?_
  congr 1
  by_cases hc : a.val = 0 ∧ b.val = 0
  · rw [if_pos hc, if_pos hc]
    unfold contrib
    refine Finset.sum_congr rfl fun r _ => ?_
    have h31 := KHead.pay3_row x0 x2 x3 r
    have h33 := KHead.pay4_row x1 r
    have h36 := KHead.pay5_row x0 x2 x3 x4 r
    have h38 := KHead.pay6_row x0 x2 x3 x4 r
    have h39 := KHead.pay7_row x0 x2 x3 x4 r
    rw [h33]
    unfold kval
    by_cases h0 : 0 ≤ (lblOf x1 r).toInt
    · rw [if_pos h0, if_pos h0]
      have h0' : 0 ≤ (k0_pay4 (F := Ideal) x1 (ix2 r (0 : Fin 1))).toInt := by rw [h33]; exact h0
      unfold krow krowOf
      by_cases hr : inRange (lblOf x1 r) 5000 32000
      · rw [if_pos hr, if_pos hr]
        have h45 := KTail12.v45_row (k0_pay5 x0 x2 x3 x4) (k0_pay6 x0 x2 x3 x4) (k0_pay7 x0 x2 x3 x4) r _ h36 h38 h39
        have h67 := KTail12.v67_row (k0_pay3 x0 x2 x3) x5 r _ h31
        refine (KTail3.tail3_row (k0_pay4 x1) (k0_pay5 x0 x2 x3 x4) _ _ x8 r _ _ _ h36 h45 h67 h0').trans ?_
        rw [h33]
      · rw [if_neg hr, if_neg hr]
        refine (KTail12.out2_row (k0_pay3 x0 x2 x3) (k0_pay4 x1) (k0_pay5 x0 x2 x3 x4) (k0_pay6 x0 x2 x3 x4) (k0_pay7 x0 x2 x3 x4) x5 x6 x7 r _ _ h31 h36 h38 h39).trans ?_
        rw [h33]
    · rw [if_neg h0, if_neg h0]
  · rw [if_neg hc, if_neg hc]

end Cert.KernelIdeal.KRow

end
-- ==== Proof.KBlocks.lean ====
/- Each input block at a grid point is a slice of an argument: rows 128 t to 128 t + 127 of the flattened batch, their next-token labels, the LayerNorm vectors, the weights transposed. -/
import proofs.«407706_j38671885534012_3_alg».proof.Proof.FrameKit
import proofs.«407706_j38671885534012_3_alg».proof.Proof.KRow
import Idealize.ShloMosaic.Lib.Pipeline.Value
import Idealize.ShloMosaic.Lib.StableHlo.Run
import Idealize.ShloMosaic.Lib.Tactic
import Idealize.ShloMosaic.Lib.ValueLayout
import Idealize.ShloMosaic.Lib.KernelVsHost

noncomputable section

namespace Cert.KernelIdeal.KBlocks

open Idealize.ShloMosaic Idealize.ShloMosaic.TcCoe Idealize.ShloMosaic.ValueIdx Idealize.SL.Sem
open Cert.KernelIdeal Cert.KernelIdeal.Gen Cert.KernelIdeal.Frame Cert.KernelIdeal.Blocks Cert.Spec

def rowB (R : Fin 4096) : Fin 2 := ⟨R.val / 2048, by omega⟩
def rowS (R : Fin 4096) : Fin 2048 := ⟨R.val % 2048, by omega⟩

section Args

variable (a0 : (⟨S2x2048x2048, .f32⟩ : BufTy).Contents (Elt Ideal)) (a1 : (⟨S2x2048, .i32⟩ : BufTy).Contents (Elt Ideal))
  (a2 a3 : (⟨S2048, .f32⟩ : BufTy).Contents (Elt Ideal)) (a4 : (⟨S1003x2048, .f32⟩ : BufTy).Contents (Elt Ideal))
  (a5 : (⟨S512x2048, .f32⟩ : BufTy).Contents (Elt Ideal)) (a6 : (⟨S1000x512, .f32⟩ : BufTy).Contents (Elt Ideal))
  (a7 : (⟨S128x2048, .f32⟩ : BufTy).Contents (Elt Ideal)) (a8 : (⟨S3000x128, .f32⟩ : BufTy).Contents (Elt Ideal))
  (a9 : (⟨S32x2048, .f32⟩ : BufTy).Contents (Elt Ideal)) (a10 : (⟨S27000x32, .f32⟩ : BufTy).Contents (Elt Ideal))

def labelOf (R : Fin 4096) : BitVec 32 :=
  if h : R.val % 2048 < 2047 then a1 (ix2 (rowB R) (⟨R.val % 2048 + 1, by omega⟩ : Fin 2048)) else 4294967295#32

def kvalArgs (R : Fin 4096) : E :=
  kval (fun k => a0 (ix3 (rowB R) (rowS R) k)) (fun k => a2 (ix1 k)) (fun k => a3 (ix1 k)) (fun j k => a4 (ix2 j k))
    (fun j k => a5 (ix2 j k)) (fun j k => a6 (ix2 j k)) (fun j k => a7 (ix2 j k)) (fun j k => a8 (ix2 j k))
    (fun j k => a9 (ix2 j k)) (fun j k => a10 (ix2 j k)) (labelOf a1 R)

end Args

variable (m : (ℓ : Loc nD τ sig) → Buf (Elt Ideal) ℓ)

abbrev blk0 (c : Dev nD) (t : Fin cfg0.N) : Vec Ideal S128x2048 .f32 := iblk m c 0 t
abbrev blk1 (c : Dev nD) (t : Fin cfg0.N) : Vec Ideal S128x1 .i32 := iblk m c 1 t
abbrev blk2 (c : Dev nD) (t : Fin cfg0.N) : Vec Ideal S2048 .f32 := iblk m c 2 t
abbrev blk3 (c : Dev nD) (t : Fin cfg0.N) : Vec Ideal S2048 .f32 := iblk m c 3 t
abbrev blk4 (c : Dev nD) (t : Fin cfg0.N) : Vec Ideal S2048x1003 .bf16 := iblk m c 4 t
abbrev blk5 (c : Dev nD) (t : Fin cfg0.N) : Vec Ideal S2048x672 .bf16 := iblk m c 5 t
abbrev blk6 (c : Dev nD) (t : Fin cfg0.N) : Vec Ideal S512x1000 .bf16 := iblk m c 6 t
abbrev blk7 (c : Dev nD) (t : Fin cfg0.N) : Vec Ideal S128x3000 .bf16 := iblk m c 7 t
abbrev blk8 (c : Dev nD) (t : Fin cfg0.N) : Vec Ideal S32x27000 .bf16 := iblk m c 8 t

def cbAt (c : Dev nD) (t : Fin cfg0.N) : E :=
  KRow.contrib (blk0 m c t) (blk1 m c t) (blk2 m c t) (blk3 m c t) (blk4 m c t) (blk5 m c t) (blk6 m c t) (blk7 m c t) (blk8 m c t)

theorem idx_facts : ∀ t : Fin grid0.N,
    (win0_0.index t 0 = t.val ∧ win0_0.index t 1 = 0) ∧ (win0_1.index t 0 = t.val ∧ win0_1.index t 1 = 0)
    ∧ win0_2.index t 0 = 0 ∧ win0_3.index t 0 = 0
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) := by decide +kernel

theorem blk0_apply (c : Dev nD) (t : Fin cfg0.N) (r : Fin 128) (k : Fin 2048) (R : Fin 4096) (hR : R.val = 128 * t.val + r.val) :
    blk0 m c t (ix2 r k) = (V m c main_v0 : S4096x2048.Idx → Elt Ideal .f32) (ix2 R k) := by
  have hi := (idx_facts t).1
  unfold blk0 iblk
  rw [View.read_apply]
  show V m c main_v0 _ = V m c main_v0 _
  congr 1
  funext a
  apply Fin.ext
  match a with
  | ⟨0, _⟩ => show win0_0.index t 0 * 128 + 1 * r.val = R.val; rw [hi.1]; omega
  | ⟨1, _⟩ => show win0_0.index t 1 * 2048 + 1 * k.val = k.val; rw [hi.2]; omega

theorem blk1_apply (c : Dev nD) (t : Fin cfg0.N) (r : Fin 128) (R : Fin 4096) (hR : R.val = 128 * t.val + r.val) :
    blk1 m c t (ix2 r (0 : Fin 1)) = (V m c main_v3 : S4096x1.Idx → Elt Ideal .i32) (ix2 R (0 : Fin 1)) := by
  have hi := (idx_facts t).2.1
  unfold blk1 iblk
  rw [View.read_apply]
  show V m c main_v3 _ = V m c main_v3 _
  congr 1
  funext a
  apply Fin.ext
  match a with
  | ⟨0, _⟩ => show win0_1.index t 0 * 128 + 1 * r.val = R.val; rw [hi.1]; omega
  | ⟨1, _⟩ => show win0_1.index t 1 * 1 + 1 * 0 = 0; rw [hi.2]

theorem blk2_eq (c : Dev nD) (t : Fin cfg0.N) : blk2 m c t = (V m c main_arg2 : S2048.Idx → Elt Ideal .f32) := by
  have hi := (idx_facts t).2.2.1
  funext j
  unfold blk2 iblk
  rw [View.read_apply]
  show V m c main_arg2 _ = V m c main_arg2 _
  congr 1
  funext a
  apply Fin.ext
  match a with
  | ⟨0, _⟩ => show win0_2.index t 0 * 2048 + 1 * (j 0).val = (j 0).val; rw [hi]; omega
theorem blk3_eq (c : Dev nD) (t : Fin cfg0.N) : blk3 m c t = (V m c main_arg3 : S2048.Idx → Elt Ideal .f32) := by
  have hi := (idx_facts t).2.2.2.1
  funext j
  unfold blk3 iblk
  rw [View.read_apply]
  show V m c main_arg3 _ = V m c main_arg3 _
  congr 1
  funext a
  apply Fin.ext
  match a with
  | ⟨0, _⟩ => show win0_3.index t 0 * 2048 + 1 * (j 0).val = (j 0).val; rw [hi]; omega

theorem blk4_eq (c : Dev nD) (t : Fin cfg0.N) : blk4 m c t = (V m c main_v5 : S2048x1003.Idx → Elt Ideal .bf16) := by
  have hi := (idx_facts t).2.2.2.2.1
  funext j
  unfold blk4 iblk
  rw [View.read_apply]
  show V m c main_v5 _ = V m c main_v5 _
  congr 1
  funext a
  apply Fin.ext
  match a with
  | ⟨0, _⟩ => show win0_4.index t 0 * 2048 + 1 * (j 0).val = (j 0).val; rw [hi.1]; omega
  | ⟨1, _⟩ => show win0_4.index t 1 * 1003 + 1 * (j 1).val = (j 1).val; rw [hi.2]; omega
theorem blk5_eq (c : Dev nD) (t : Fin cfg0.N) : blk5 m c t = (V m c main_v8 : S2048x672.Idx → Elt Ideal .bf16) := by
  have hi := (idx_facts t).2.2.2.2.2.1
  funext j
  unfold blk5 iblk
  rw [View.read_apply]
  show V m c main_v8 _ = V m c main_v8 _
  congr 1
  funext a
  apply Fin.ext
  match a with
  | ⟨0, _⟩ => show win0_5.index t 0 * 2048 + 1 * (j 0).val = (j 0).val; rw [hi.1]; omega
  | ⟨1, _⟩ => show win0_5.index t 1 * 672 + 1 * (j 1).val = (j 1).val; rw [hi.2]; omega
theorem blk6_eq (c : Dev nD) (t : Fin cfg0.N) : blk6 m c t = (V m c main_v10 : S512x1000.Idx → Elt Ideal .bf16) := by
  have hi := (idx_facts t).2.2.2.2.2.2.1
  funext j
  unfold blk6 iblk
  rw [View.read_apply]
  show V m c main_v10 _ = V m c main_v10 _
  congr 1
  funext a
  apply Fin.ext
  match a with
  | ⟨0, _⟩ => show win0_6.index t 0 * 512 + 1 * (j 0).val = (j 0).val; rw [hi.1]; omega
  | ⟨1, _⟩ => show win0_6.index t 1 * 1000 + 1 * (j 1).val = (j 1).val; rw [hi.2]; omega
theorem blk7_eq (c : Dev nD) (t : Fin cfg0.N) : blk7 m c t = (V m c main_v12 : S128x3000.Idx → Elt Ideal .bf16) := by
  have hi := (idx_facts t).2.2.2.2.2.2.2.1
  funext j
  unfold blk7 iblk
  rw [View.read_apply]
  show V m c main_v12 _ = V m c main_v12 _
  congr 1
  funext a
  apply Fin.ext
  match a with
  | ⟨0, _⟩ => show win0_7.index t 0 * 128 + 1 * (j 0).val = (j 0).val; rw [hi.1]; omega
  | ⟨1, _⟩ => show win0_7.index t 1 * 3000 + 1 * (j 1).val = (j 1).val; rw [hi.2]; omega
theorem blk8_eq (c : Dev nD) (t : Fin cfg0.N) : blk8 m c t = (V m c main_v14 : S32x27000.Idx → Elt Ideal .bf16) := by
  have hi := (idx_facts t).2.2.2.2.2.2.2.2
  funext j
  unfold blk8 iblk
  rw [View.read_apply]
  show V m c main_v14 _ = V m c main_v14 _
  congr 1
  funext a
  apply Fin.ext
  match a with
  | ⟨0, _⟩ => show win0_8.index t 0 * 32 + 1 * (j 0).val = (j 0).val; rw [hi.1]; omega
  | ⟨1, _⟩ => show win0_8.index t 1 * 27000 + 1 * (j 1).val = (j 1).val; rw [hi.2]; omega

theorem V_v0 (c : Dev nD) : (V m c main_v0 : S4096x2048.Idx → Elt Ideal .f32)
    = shapeCast S4096x2048 (m ((c : Thread nD τ).loc main_arg0) : S2x2048x2048.Idx → Elt Ideal .f32) Facts₀.shapeCasts_S2x2048x2048_S4096x2048 := by
  dsimp only [V, V0]
  simp only [hostOps0, hostOps0_1, hostOps0_2, List.flatten_cons, List.flatten_nil, List.append_nil, List.cons_append, List.nil_append]
  after_results
  rfl

theorem V_v3 (c : Dev nD) : (V m c main_v3 : S4096x1.Idx → Elt Ideal .i32)
    = shapeCast S4096x1 (pad S2x2048 ![0, 0] ![0, 1] ![0, 0]
        (extractStridedSlice S2x2047 ![0, 1] (m ((c : Thread nD τ).loc main_arg1) : S2x2048.Idx → Elt Ideal .i32) Facts₀.slices_S2x2048_S2x2047_0_1)
        (constantI S_ 32 4294967295#32) Facts₀.pads_S2x2047_S2x2048_000_010 Facts₀.h_S_) Facts₀.shapeCasts_S2x2048_S4096x1 := by
  dsimp only [V, V0]
  simp only [hostOps0, hostOps0_1, hostOps0_2, List.flatten_cons, List.flatten_nil, List.append_nil, List.cons_append, List.nil_append]
  after_results
  rfl

theorem V_v5 (c : Dev nD) : @Eq (S2048x1003.Idx → Elt Ideal .bf16) (V m c main_v5)
    (transpose S2048x1003 [1, 0] (truncf (F := Ideal) .bf16 (m ((c : Thread nD τ).loc main_arg4) : S1003x2048.Idx → Ideal .f32) Facts₀.bitsLt_bf16_f32)
        Facts₀.transposes_S1003x2048_S2048x1003_1_0) := by
  dsimp only [V, V0]
  simp only [hostOps0, hostOps0_1, hostOps0_2, List.flatten_cons, List.flatten_nil, List.append_nil, List.cons_append, List.nil_append]
  after_results

theorem V_v10 (c : Dev nD) : @Eq (S512x1000.Idx → Elt Ideal .bf16) (V m c main_v10)
    (transpose S512x1000 [1, 0] (truncf (F := Ideal) .bf16 (m ((c : Thread nD τ).loc main_arg6) : S1000x512.Idx → Ideal .f32) Facts₀.bitsLt_bf16_f32)
        Facts₀.transposes_S1000x512_S512x1000_1_0) := by
  dsimp only [V, V0]
  simp only [hostOps0, hostOps0_1, hostOps0_2, List.flatten_cons, List.flatten_nil, List.append_nil, List.cons_append, List.nil_append]
  after_results

theorem V_v12 (c : Dev nD) : @Eq (S128x3000.Idx → Elt Ideal .bf16) (V m c main_v12)
    (transpose S128x3000 [1, 0] (truncf (F := Ideal) .bf16 (m ((c : Thread nD τ).loc main_arg8) : S3000x128.Idx → Ideal .f32) Facts₀.bitsLt_bf16_f32)
        Facts₀.transposes_S3000x128_S128x3000_1_0) := by
  dsimp only [V, V0]
  simp only [hostOps0, hostOps0_1, hostOps0_2, List.flatten_cons, List.flatten_nil, List.append_nil, List.cons_append, List.nil_append]
  after_results

theorem V_v14 (c : Dev nD) : @Eq (S32x27000.Idx → Elt Ideal .bf16) (V m c main_v14)
    (transpose S32x27000 [1, 0] (truncf (F := Ideal) .bf16 (m ((c : Thread nD τ).loc main_arg10) : S27000x32.Idx → Ideal .f32) Facts₀.bitsLt_bf16_f32)
        Facts₀.transposes_S27000x32_S32x27000_1_0) := by
  dsimp only [V, V0]
  simp only [hostOps0, hostOps0_1, hostOps0_2, List.flatten_cons, List.flatten_nil, List.append_nil, List.cons_append, List.nil_append]
  after_results

theorem V_v8 (c : Dev nD) : @Eq (S2048x672.Idx → Elt Ideal .bf16) (V m c main_v8)
    (transpose S2048x672 [1, 0] (truncf (F := Ideal) .bf16 (concatenate S672x2048 0
          [⟨S512x2048, (m ((c : Thread nD τ).loc main_arg5) : S512x2048.Idx → Ideal .f32)⟩,
           ⟨S128x2048, (m ((c : Thread nD τ).loc main_arg7) : S128x2048.Idx → Ideal .f32)⟩,
           ⟨S32x2048, (m ((c : Thread nD τ).loc main_arg9) : S32x2048.Idx → Ideal .f32)⟩]
          Facts₀.concatenates_S512x2048_S128x2048_S32x2048_S672x2048_d0) Facts₀.bitsLt_bf16_f32)
        Facts₀.transposes_S672x2048_S2048x672_1_0) := by
  dsimp only [V, V0]
  simp only [hostOps0, hostOps0_1, hostOps0_2, List.flatten_cons, List.flatten_nil, List.append_nil, List.cons_append, List.nil_append]
  after_results
  rfl

section Read
variable {α : Type}

theorem flat_rows_apply (x : S2x2048x2048.Idx → α) (h : S2x2048x2048.ShapeCasts S4096x2048) (R : Fin 4096) (k : Fin 2048) :
    shapeCast S4096x2048 x h (ix2 R k) = x (ix3 (rowB R) (rowS R) k) :=
  shapeCast_apply x h _ _ (by
    rw [Shape.rowMajor_val_three, Shape.rowMajor_val_two]
    show (R.val / 2048 * 2048 + R.val % 2048) * 2048 + k.val = R.val * 2048 + k.val
    omega)

theorem flat_col_apply (x : S2x2048.Idx → α) (h : S2x2048.ShapeCasts S4096x1) (R : Fin 4096) :
    shapeCast S4096x1 x h (ix2 R (0 : Fin 1)) = x (ix2 (rowB R) (rowS R)) :=
  shapeCast_apply x h _ _ (by
    rw [Shape.rowMajor_val_two, Shape.rowMajor_val_two]
    show R.val / 2048 * 2048 + R.val % 2048 = R.val * 1 + 0
    omega)

theorem shifted_apply (x : S2x2048.Idx → BitVec 32) (hs : S2x2048.Slices ![0, 1] S2x2047)
    (hp : S2x2047.Pads ![0, 0] ![0, 1] ![0, 0] S2x2048) (hu : 0 < S_.numel) (w : BitVec 32) (b : Fin 2) (s : Fin 2048) :
    pad S2x2048 ![0, 0] ![0, 1] ![0, 0] (extractStridedSlice S2x2047 ![0, 1] x hs) (constantI S_ 32 w) hp hu (ix2 b s)
      = if h : s.val < 2047 then x (ix2 b (⟨s.val + 1, by omega⟩ : Fin 2048)) else w := by
  by_cases h : s.val < 2047
  · rw [dif_pos h]
    refine (pad_apply_of_inside _ _ _ _ _ hp hu (ix2 b s) (ix2 b (⟨s.val, h⟩ : Fin 2047)) (fun a => ?_)).trans ?_
    · match a with
      | ⟨0, _⟩ => show b.val = 0 + b.val * (0 + 1); omega
      | ⟨1, _⟩ => show s.val = 0 + s.val * (0 + 1); omega
    · exact extractStridedSlice_apply _ x hs _ _ (fun a => match a with
        | ⟨0, _⟩ => by show b.val = 0 + b.val; omega
        | ⟨1, _⟩ => by show s.val + 1 = 1 + s.val; omega)
  · rw [dif_neg h]
    refine (pad_apply_of_not_inside _ _ _ _ _ hp hu (ix2 b s) (1 : Fin 2) ?_).trans rfl
    show ¬(0 ≤ s.val ∧ (s.val - 0) % (0 + 1) = 0 ∧ (s.val - 0) / (0 + 1) < 2047)
    omega

theorem wT_apply {a b : ℕ} (x : FVec Ideal ⟨2, ![a, b]⟩ .f32) (hb : FTy.bits .bf16 < FTy.bits .f32)
    (h : (⟨2, ![a, b]⟩ : Shape).Transposes [1, 0] ⟨2, ![b, a]⟩) (k : Fin b) (j : Fin a) :
    transpose ⟨2, ![b, a]⟩ [1, 0] (truncf .bf16 x hb) h (ix2 k j) = x (ix2 j k) :=
  transpose_ix2_apply _ h k j

theorem cat_apply_0 (u0 : S512x2048.Idx → α) (u1 : S128x2048.Idx → α) (u2 : S32x2048.Idx → α)
    (h : Shape.Concatenates [S512x2048, S128x2048, S32x2048] S672x2048 0) (p : Fin 512) (q : Fin 2048) :
    concatenate S672x2048 0 [⟨S512x2048, u0⟩, ⟨S128x2048, u1⟩, ⟨S32x2048, u2⟩] h (ix2 (⟨p.val, by omega⟩ : Fin 672) q) = u0 (ix2 p q) :=
  concatenate_apply_piece (t := S672x2048) 0 [⟨S512x2048, u0⟩, ⟨S128x2048, u1⟩, ⟨S32x2048, u2⟩] h (ix2 (⟨p.val, by omega⟩ : Fin 672) q) 0 (by show (0 : ℕ) < 3; omega) S512x2048 u0 rfl rfl 0 rfl (ix2 p q)
    (fun b hb => match b with | ⟨0, _⟩ => absurd rfl hb | ⟨1, _⟩ => rfl) (by show 0 + p.val = p.val; omega)

theorem cat_apply_1 (u0 : S512x2048.Idx → α) (u1 : S128x2048.Idx → α) (u2 : S32x2048.Idx → α)
    (h : Shape.Concatenates [S512x2048, S128x2048, S32x2048] S672x2048 0) (p : Fin 128) (q : Fin 2048) :
    concatenate S672x2048 0 [⟨S512x2048, u0⟩, ⟨S128x2048, u1⟩, ⟨S32x2048, u2⟩] h (ix2 (⟨512 + p.val, by omega⟩ : Fin 672) q) = u1 (ix2 p q) :=
  concatenate_apply_piece (t := S672x2048) 0 [⟨S512x2048, u0⟩, ⟨S128x2048, u1⟩, ⟨S32x2048, u2⟩] h (ix2 (⟨512 + p.val, by omega⟩ : Fin 672) q) 1 (by show (1 : ℕ) < 3; omega) S128x2048 u1 rfl rfl 512 rfl (ix2 p q)
    (fun b hb => match b with | ⟨0, _⟩ => absurd rfl hb | ⟨1, _⟩ => rfl) (by show 512 + p.val = 512 + p.val; rfl)

theorem cat_apply_2 (u0 : S512x2048.Idx → α) (u1 : S128x2048.Idx → α) (u2 : S32x2048.Idx → α)
    (h : Shape.Concatenates [S512x2048, S128x2048, S32x2048] S672x2048 0) (p : Fin 32) (q : Fin 2048) :
    concatenate S672x2048 0 [⟨S512x2048, u0⟩, ⟨S128x2048, u1⟩, ⟨S32x2048, u2⟩] h (ix2 (⟨640 + p.val, by omega⟩ : Fin 672) q) = u2 (ix2 p q) :=
  concatenate_apply_piece (t := S672x2048) 0 [⟨S512x2048, u0⟩, ⟨S128x2048, u1⟩, ⟨S32x2048, u2⟩] h (ix2 (⟨640 + p.val, by omega⟩ : Fin 672) q) 2 (by show (2 : ℕ) < 3; omega) S32x2048 u2 rfl rfl 640 rfl (ix2 p q)
    (fun b hb => match b with | ⟨0, _⟩ => absurd rfl hb | ⟨1, _⟩ => rfl) (by show 640 + p.val = 640 + p.val; rfl)

end Read

theorem row_eq (c : Dev nD) (t : Fin cfg0.N) (r : Fin 128) (R : Fin 4096) (hR : R.val = 128 * t.val + r.val) :
    rowOf (blk0 m c t) r = fun k => (m ((c : Thread nD τ).loc main_arg0) : S2x2048x2048.Idx → Elt Ideal .f32) (ix3 (rowB R) (rowS R) k) := by
  funext k
  show blk0 m c t (ix2 r k) = _
  refine (blk0_apply m c t r k R hR).trans ?_
  refine (congrFun (V_v0 m c) _).trans ?_
  exact flat_rows_apply _ _ R k

theorem lbl_eq (c : Dev nD) (t : Fin cfg0.N) (r : Fin 128) (R : Fin 4096) (hR : R.val = 128 * t.val + r.val) :
    lblOf (blk1 m c t) r = labelOf (m ((c : Thread nD τ).loc main_arg1) : S2x2048.Idx → Elt Ideal .i32) R := by
  show blk1 m c t (ix2 r (0 : Fin 1)) = _
  refine (blk1_apply m c t r R hR).trans ?_
  refine (congrFun (V_v3 m c) _).trans ?_
  refine (flat_col_apply _ _ R).trans ?_
  refine (shifted_apply _ _ _ _ _ (rowB R) (rowS R)).trans ?_
  rfl

theorem vec2_eq (c : Dev nD) (t : Fin cfg0.N) : vec1 (blk2 m c t) = fun k => (m ((c : Thread nD τ).loc main_arg2) : S2048.Idx → Elt Ideal .f32) (ix1 k) := by
  funext k
  exact (congrFun (blk2_eq m c t) (ix1 k)).trans (congrFun (V_main_arg2 m c) (ix1 k))
theorem vec3_eq (c : Dev nD) (t : Fin cfg0.N) : vec1 (blk3 m c t) = fun k => (m ((c : Thread nD τ).loc main_arg3) : S2048.Idx → Elt Ideal .f32) (ix1 k) := by
  funext k
  exact (congrFun (blk3_eq m c t) (ix1 k)).trans (congrFun (V_main_arg3 m c) (ix1 k))

theorem Wh_eq (c : Dev nD) (t : Fin cfg0.N) :
    WhK (blk4 m c t) = fun j k => (m ((c : Thread nD τ).loc main_arg4) : S1003x2048.Idx → Elt Ideal .f32) (ix2 j k) := by
  funext j k
  show blk4 m c t (ix2 k j) = _
  refine (congrFun (blk4_eq m c t) _).trans ?_
  refine (congrFun (V_v5 m c) _).trans ?_
  exact wT_apply _ _ _ k j

theorem A1_eq (c : Dev nD) (t : Fin cfg0.N) :
    A1K (blk5 m c t) = fun j k => (m ((c : Thread nD τ).loc main_arg5) : S512x2048.Idx → Elt Ideal .f32) (ix2 j k) := by
  funext j k
  show blk5 m c t (ix2 k (⟨j.val, by omega⟩ : Fin 672)) = _
  refine (congrFun (blk5_eq m c t) _).trans ?_
  refine (congrFun (V_v8 m c) _).trans ?_
  refine (wT_apply _ _ _ k _).trans ?_
  exact cat_apply_0 _ _ _ _ j k

theorem A2_eq (c : Dev nD) (t : Fin cfg0.N) :
    A2K (blk5 m c t) = fun j k => (m ((c : Thread nD τ).loc main_arg7) : S128x2048.Idx → Elt Ideal .f32) (ix2 j k) := by
  funext j k
  show blk5 m c t (ix2 k (⟨512 + j.val, by omega⟩ : Fin 672)) = _
  refine (congrFun (blk5_eq m c t) _).trans ?_
  refine (congrFun (V_v8 m c) _).trans ?_
  refine (wT_apply _ _ _ k _).trans ?_
  exact cat_apply_1 _ _ _ _ j k

theorem A3_eq (c : Dev nD) (t : Fin cfg0.N) :
    A3K (blk5 m c t) = fun j k => (m ((c : Thread nD τ).loc main_arg9) : S32x2048.Idx → Elt Ideal .f32) (ix2 j k) := by
  funext j k
  show blk5 m c t (ix2 k (⟨640 + j.val, by omega⟩ : Fin 672)) = _
  refine (congrFun (blk5_eq m c t) _).trans ?_
  refine (congrFun (V_v8 m c) _).trans ?_
  refine (wT_apply _ _ _ k _).trans ?_
  exact cat_apply_2 _ _ _ _ j k

theorem B1_eq (c : Dev nD) (t : Fin cfg0.N) :
    B1K (blk6 m c t) = fun j k => (m ((c : Thread nD τ).loc main_arg6) : S1000x512.Idx → Elt Ideal .f32) (ix2 j k) := by
  funext j k
  show blk6 m c t (ix2 k j) = _
  refine (congrFun (blk6_eq m c t) _).trans ?_
  refine (congrFun (V_v10 m c) _).trans ?_
  exact wT_apply _ _ _ k j

theorem B2_eq (c : Dev nD) (t : Fin cfg0.N) :
    B2K (blk7 m c t) = fun j k => (m ((c : Thread nD τ).loc main_arg8) : S3000x128.Idx → Elt Ideal .f32) (ix2 j k) := by
  funext j k
  show blk7 m c t (ix2 k j) = _
  refine (congrFun (blk7_eq m c t) _).trans ?_
  refine (congrFun (V_v12 m c) _).trans ?_
  exact wT_apply _ _ _ k j

theorem B3_eq (c : Dev nD) (t : Fin cfg0.N) :
    B3K (blk8 m c t) = fun j k => (m ((c : Thread nD τ).loc main_arg10) : S27000x32.Idx → Elt Ideal .f32) (ix2 j k) := by
  funext j k
  show blk8 m c t (ix2 k j) = _
  refine (congrFun (blk8_eq m c t) _).trans ?_
  refine (congrFun (V_v14 m c) _).trans ?_
  exact wT_apply _ _ _ k j

theorem cbAt_eq (c : Dev nD) (t : Fin cfg0.N) :
    cbAt m c t = ∑ r : Fin 128, kvalArgs (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      ⟨128 * t.val + r.val, by have := t.isLt; have : cfg0.N = 32 := N_0; omega⟩ := by
  unfold cbAt KRow.contrib
  refine Finset.sum_congr rfl fun r _ => ?_
  have hlt : 128 * t.val + r.val < 4096 := by have := t.isLt; have : cfg0.N = 32 := N_0; omega
  rw [row_eq m c t r ⟨_, hlt⟩ rfl, lbl_eq m c t r ⟨_, hlt⟩ rfl, vec2_eq, vec3_eq, Wh_eq, A1_eq, A2_eq, A3_eq, B1_eq, B2_eq, B3_eq]
  rfl

end Cert.KernelIdeal.KBlocks

end
-- ==== Proof.SumIdx.lean ====
/- Finite sums re-indexed: a sum over a product of index ranges as a sum over one flat range, and back. -/
import Mathlib.Algebra.BigOperators.Fin
import Mathlib.Logic.Equiv.Fin.Basic
import Mathlib.Tactic.Ring

open BigOperators

namespace Cert.SumIdx

variable {M : Type*} [AddCommMonoid M]

theorem block_lt {a b N : ℕ} (hN : N = a * b) (p : Fin a) (q : Fin b) :
    b * p.val + q.val < N := by
  subst hN
  have hp : p.val + 1 ≤ a := p.isLt
  have hq : q.val < b := q.isLt
  calc b * p.val + q.val < b * p.val + b := by omega
    _ = b * (p.val + 1) := by ring
    _ ≤ b * a := Nat.mul_le_mul_left _ hp
    _ = a * b := Nat.mul_comm _ _

theorem sum_blocks {a b N : ℕ} (hN : N = a * b) (g : Fin N → M) :
    (∑ R : Fin N, g R) = ∑ p : Fin a, ∑ q : Fin b, g ⟨b * p.val + q.val, block_lt hN p q⟩ := by
  subst hN
  rw [← (finProdFinEquiv (m := a) (n := b)).sum_comp g, Fintype.sum_prod_type]
  refine Finset.sum_congr rfl fun p _ => Finset.sum_congr rfl fun q _ => ?_
  congr 1
  apply Fin.ext
  show q.val + b * p.val = b * p.val + q.val
  exact Nat.add_comm _ _

theorem sum_ite_val_zero {n : ℕ} (hn : 0 < n) (x : M) :
    (∑ q : Fin n, if q.val = 0 then x else 0) = x := by
  rw [Finset.sum_eq_single (⟨0, hn⟩ : Fin n)]
  · simp
  · intro q _ hq
    have : q.val ≠ 0 := fun h => hq (Fin.ext h)
    simp [this]
  · intro h
    exact absurd (Finset.mem_univ _) h

theorem sum_blocks_rows (g : Fin 4096 → M) :
    (∑ t : Fin 32, ∑ r : Fin 128, g ⟨128 * t.val + r.val, by omega⟩) = ∑ R : Fin 4096, g R :=
  (sum_blocks (a := 32) (b := 128) (by norm_num) g).symm

theorem sum_batch_seq (g : Fin 4096 → M) :
    (∑ R : Fin 4096, g R) = ∑ b : Fin 2, ∑ s : Fin 2048, g ⟨2048 * b.val + s.val, by omega⟩ :=
  sum_blocks (a := 2) (b := 2048) (by norm_num) g

theorem sum_batch_seq' (f : Fin 4094 → M) :
    (∑ R : Fin 4094, f R) = ∑ b : Fin 2, ∑ s : Fin 2047, f ⟨2047 * b.val + s.val, by omega⟩ :=
  sum_blocks (a := 2) (b := 2047) (by norm_num) f

theorem sum_drop_last (h : Fin 2048 → M) (hlast : h ⟨2047, by omega⟩ = 0) :
    (∑ s : Fin 2048, h s) = ∑ s : Fin 2047, h ⟨s.val, by omega⟩ := by
  have e := Fin.sum_univ_castSucc (n := 2047) h
  have hl : h (Fin.last 2047) = 0 := hlast
  rw [hl, add_zero] at e
  exact e

theorem sum_cores (cb : Fin 32 → M) :
    (∑ c : Fin 2, ∑ i : Fin 16, cb ⟨16 * c.val + i.val, by omega⟩) = ∑ t : Fin 32, cb t :=
  (sum_blocks (a := 2) (b := 16) (by norm_num) cb).symm

theorem sum_corner (f : Fin 2 → M) :
    (∑ p : Fin 16, ∑ q : Fin 128,
        (if p.val % 8 = 0 ∧ q.val = 0 then f ⟨p.val / 8, by omega⟩ else 0)) = ∑ c : Fin 2, f c := by
  have inner : ∀ p : Fin 16,
      (∑ q : Fin 128, (if p.val % 8 = 0 ∧ q.val = 0 then f ⟨p.val / 8, by omega⟩ else 0))
        = if p.val % 8 = 0 then f ⟨p.val / 8, by omega⟩ else 0 := by
    intro p
    by_cases hp : p.val % 8 = 0
    · simp only [hp, true_and, if_true]
      exact sum_ite_val_zero (by norm_num) _
    · simp [hp]
  simp only [inner]
  rw [sum_blocks (a := 2) (b := 8) (N := 16) (by norm_num)]
  refine Finset.sum_congr rfl fun c _ => ?_
  have hc : ∀ r : Fin 8,
      (if (8 * c.val + r.val) % 8 = 0 then f ⟨(8 * c.val + r.val) / 8, by omega⟩ else 0)
        = if r.val = 0 then f c else 0 := by
    intro r
    have h1 : (8 * c.val + r.val) % 8 = r.val := by omega
    have h2 : (⟨(8 * c.val + r.val) / 8, by omega⟩ : Fin 2) = c := by
      apply Fin.ext
      show (8 * c.val + r.val) / 8 = c.val
      omega
    rw [h1, h2]
  simp only [hc]
  exact sum_ite_val_zero (by norm_num) _

theorem sum_prefix_succ (n : ℕ) (hn : n + 1 < 16) (cb : ℕ → M) :
    (∑ i ∈ Finset.range (n + 1 + 1), cb i) = (∑ i ∈ Finset.range (n + 1), cb i) + cb (n + 1) :=
  Finset.sum_range_succ cb (n + 1)

end Cert.SumIdx
-- ==== Proof.KTailRead.lean ====
/- The five closing operations total the result array, negate and divide by 4094. -/
import proofs.«407706_j38671885534012_3_alg».proof.Proof.Gen.KernelIdeal.Launch
import proofs.«407706_j38671885534012_3_alg».proof.Proof.Spec
import Idealize.ShloMosaic.Lib.Pipeline.FrameSuffix
import Idealize.ShloMosaic.Lib.StableHlo.Run
import Idealize.ShloMosaic.PureOps.Ideal.Laws
import Idealize.ShloMosaic.Lib.ValueIdx

noncomputable section

namespace Cert.KernelIdeal.KTailRead

open Idealize.ShloMosaic Idealize.ShloMosaic.TcCoe
open Idealize.SL Idealize.SL.Sem
open Cert.KernelIdeal Cert.KernelIdeal.Gen

theorem c4094_eq : Cert.Spec.c4094 = ((4094 : ℝ) : EReal) := by
  simp [Cert.Spec.c4094, Ideal.ofBits, Ideal.ieee, -EReal.coe_mul]; norm_num

theorem div_neg_c4094 (a : EReal) : Ideal.div (-a) Cert.Spec.c4094 = -(Ideal.div a Cert.Spec.c4094) := by
  rw [c4094_eq, Ideal.div_coe (by norm_num), Ideal.div_coe (by norm_num), neg_mul]

variable (dats : (p : Fin 1) → (c : Dev nD) → Pipeline.Dat τ (Elt Ideal) Unit ℕ (UR sig nD τ) ℕ (cfgs p) c)
  (V₀ : Dev nD → Valuation τ sig (Elt Ideal))

abbrev ARR (c : Dev nD) : Vec Ideal S16x128 .f32 := (dats 0 c).arrAt 9 cfg0.N

theorem tail_literal (c : Dev nD) :
    Pipeline.afterTail₀ cfgs dats 0 V₀ [hostOps1] c main_v18 ValueIdx.ix0
      = Ideal.div (-(∑ i : S16x128.Idx, ARR dats c i)) Cert.Spec.c4094 := by
  unfold Pipeline.afterTail₀
  simp only [List.flatten_cons, List.flatten_nil, List.append_nil]
  show StableHlo.after hostOps1 _ (Proc.devRef .tc main_v18) ValueIdx.ix0 = _
  after_results
  have hW : Pipeline.withArrays (cfgs 0).spec c (V₀ c) (fun w => (dats 0 c).arrAt w (cfgs 0).N) (Proc.devRef .tc main_v15)
      = ARR dats c := Pipeline.withArrays_arr spec0 launch0.win.arr_inj c (V₀ c) _ 9
  rw [hW]
  show Ideal.div (-(Ideal.hostReduceAdd reducesTo_S16x128_S_d0_1 (ARR dats c) (Ideal.ofBits .f32 0x00000000#32) ValueIdx.ix0))
      (Ideal.ofBits .f32 0x457FE000#32) = _
  rw [Ideal.hostReduceAdd_total _ (fun b => b.elim0), Ideal.ofBits_zero_f32, zero_add]
  rfl

theorem tail_result (c : Dev nD) :
    Pipeline.afterTail₀ cfgs dats 0 V₀ [hostOps1] c main_v18 ValueIdx.ix0
      = -(Ideal.div (∑ i : S16x128.Idx, (dats 0 c).arrAt 9 cfg0.N i) Cert.Spec.c4094) := by
  rw [tail_literal dats V₀ c, div_neg_c4094]

theorem tail_result_arr (c : Dev nD) :
    Pipeline.afterTail₀ cfgs dats 0 V₀ [hostOps1] c main_v18 ValueIdx.ix0
      = -(Ideal.div (∑ i : S16x128.Idx, ARR dats c i) Cert.Spec.c4094) := by
  rw [tail_literal dats V₀ c, div_neg_c4094]

end Cert.KernelIdeal.KTailRead

end
-- ==== Proof.KArray.lean ====
import proofs.«407706_j38671885534012_3_alg».proof.Proof.FrameMain
import proofs.«407706_j38671885534012_3_alg».proof.Proof.KBlocks
import proofs.«407706_j38671885534012_3_alg».proof.Proof.SumIdx
import proofs.«407706_j38671885534012_3_alg».proof.Proof.KTailRead
import Idealize.ShloMosaic.Lib.Pipeline.Value

noncomputable section

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Frame Cert.KernelIdeal.KBlocks Cert.Spec

variable (m : (ℓ : Loc nD τ sig) → Buf (Elt Ideal) ℓ)

theorem arr_N32 : cfg0.N = 32 := N_0

theorem out_index : ∀ t : Fin cfg0.N, win0_9.index t (0 : Fin 2) = t.val / 16 ∧ win0_9.index t (1 : Fin 2) = 0 :=
  (by decide +kernel : ∀ t : Fin grid0.N, win0_9.index t (0 : Fin 2) = t.val / 16 ∧ win0_9.index t (1 : Fin 2) = 0)

-- The result array at the end: each row block's sixteen contributions summed in its corner entry, zero elsewhere.
def Gfin (c : Dev nD) : S16x128.Idx → E := fun i =>
  if (i 0).val % 8 = 0 ∧ (i 1).val = 0 then
    ∑ k : Fin 16, cbAt m c ⟨16 * ((i 0).val / 8) + k.val, by have h : (i 0).val < 16 := (i 0).isLt; have := arr_N32; omega⟩
  else 0

abbrev HLast : Prop := ∀ (c : Dev nD) (c' : Fin 2) (a : Fin 8) (b : Fin 128),
  outsAt0 m c (16 * c'.val + 15) (by have : cfg0.N = 32 := N_0; omega) (ix2 a b)
    = if a.val = 0 ∧ b.val = 0 then ∑ i : Fin 16, cbAt m c ⟨16 * c'.val + i.val, by have : cfg0.N = 32 := N_0; omega⟩ else 0

theorem outsAt0_congr (c : Dev nD) {n n' : ℕ} (e : n = n') (h : n < cfg0.N) (h' : n' < cfg0.N) :
    outsAt0 m c n h = outsAt0 m c n' h' := by subst e; rfl

theorem outsAt_last_at (hlast : HLast m) (c : Dev nD) (c' : Fin 2) (y : S8x128.Idx) :
    outsAt0 m c (16 * c'.val + 15) (by have : cfg0.N = 32 := N_0; omega) y
      = if (y 0).val = 0 ∧ (y 1).val = 0 then ∑ i : Fin 16, cbAt m c ⟨16 * c'.val + i.val, by have : cfg0.N = 32 := N_0; omega⟩ else 0 := by
  exact (congrArg (outsAt0 m c (16 * c'.val + 15) (by have : cfg0.N = 32 := N_0; omega)) (eq_ix2 (n0 := 8) (n1 := 128) y)).trans
    (hlast c c' (y 0) (y 1))

theorem flushed_eq (hlast : HLast m) (c : Dev nD) (t : Fin cfg0.N) (hf : (cfg0.win 9).flush t = true) :
    (dats m 0 c).flushed 9 t = ((cfg0.win 9).blk t).view.read (Elt Ideal) (Gfin m c) := by
  have hN := arr_N32
  have h15 : t.val % 16 = 15 := (flush0_9 t).mp hf
  obtain ⟨e0, e1⟩ := out_index t
  show (cfg0.win 9).cut (grid0.coords t) ((dats m 0 c).after 9 t) = _
  rw [after0_9]
  funext y
  rw [View.read_apply]
  show outsAt0 m c t.val t.isLt y = Gfin m c (((cfg0.win 9).blk t).view.emb y)
  have hy0 : (y 0).val < 8 := (y 0).isLt
  have hy1 : (y 1).val < 128 := (y 1).isLt
  have k0 : ((((cfg0.win 9).blk t).view.emb y) 0).val = (t.val / 16) * 8 + (y 0).val := by
    show win0_9.index t (0 : Fin 2) * 8 + 1 * (y 0).val = _
    rw [e0]; omega
  have k1 : ((((cfg0.win 9).blk t).view.emb y) 1).val = (y 1).val := by
    show win0_9.index t (1 : Fin 2) * 128 + 1 * (y 1).val = _
    rw [e1]; omega
  have hl := outsAt_last_at m hlast c ⟨t.val / 16, by omega⟩ y
  have ho : outsAt0 m c t.val t.isLt
      = outsAt0 m c (16 * (⟨t.val / 16, by omega⟩ : Fin 2).val + 15) (by show 16 * (t.val / 16) + 15 < cfg0.N; omega) :=
    outsAt0_congr m c (by show t.val = 16 * (t.val / 16) + 15; omega) _ _
  rw [ho, hl]
  unfold Gfin
  by_cases hc : (y 0).val = 0 ∧ (y 1).val = 0
  · rw [if_pos hc, if_pos (by rw [k0, k1]; omega)]
    refine Finset.sum_congr rfl fun k _ => congrArg (cbAt m c) (Fin.ext ?_)
    show 16 * (t.val / 16) + k.val = 16 * (((((cfg0.win 9).blk t).view.emb y) 0).val / 8) + k.val
    rw [k0]; omega
  · rw [if_neg hc, if_neg (by rw [k0, k1]; omega)]

theorem mem_blk (t : Fin cfg0.N) (i : S16x128.Idx) :
    i ∈ ((cfg0.win 9).blk t).view.set ↔ ∀ a : Fin 2, win0_9.index t a * S8x128.size a ≤ (i a).val ∧ (i a).val < win0_9.index t a * S8x128.size a + S8x128.size a := by
  show i ∈ ((View.whole main_v15).slice (win0_9.rect t)).set ↔ _
  rw [View.set_slice_whole, Rect.mem_set_unit]
  exact Iff.rfl

theorem covered (i : S16x128.Idx) :
    ∃ t : Fin cfg0.N, (cfg0.win 9).flush t = true ∧ i ∈ ((cfg0.win 9).blk t).view.set := by
  have hN := arr_N32
  have hi0 : (i 0).val < 16 := (i 0).isLt
  have hi1 : (i 1).val < 128 := (i 1).isLt
  have hlt : 16 * ((i 0).val / 8) + 15 < cfg0.N := by omega
  obtain ⟨e0, e1⟩ := out_index ⟨16 * ((i 0).val / 8) + 15, hlt⟩
  refine ⟨⟨16 * ((i 0).val / 8) + 15, hlt⟩, (flush0_9 _).mpr (by show (16 * ((i 0).val / 8) + 15) % 16 = 15; omega), ?_⟩
  rw [mem_blk]
  intro a
  match a with
  | ⟨0, _⟩ =>
    show win0_9.index ⟨16 * ((i 0).val / 8) + 15, hlt⟩ (0 : Fin 2) * 8 ≤ (i 0).val ∧ (i 0).val < win0_9.index ⟨16 * ((i 0).val / 8) + 15, hlt⟩ (0 : Fin 2) * 8 + 8
    rw [e0]; dsimp only; omega
  | ⟨1, _⟩ =>
    show win0_9.index ⟨16 * ((i 0).val / 8) + 15, hlt⟩ (1 : Fin 2) * 128 ≤ (i 1).val ∧ (i 1).val < win0_9.index ⟨16 * ((i 0).val / 8) + 15, hlt⟩ (1 : Fin 2) * 128 + 128
    rw [e1]; omega

theorem final_arr (hlast : HLast m) (c : Dev nD) : (dats m 0 c).arrAt 9 cfg0.N = Gfin m c :=
  (dats m 0 c).arrAt_eq_of_cover 9 (Gfin m c) (flushed_eq m hlast c) covered

theorem total (c : Dev nD) :
    ∑ i : S16x128.Idx, Gfin m c i = ∑ t : Fin 32, cbAt m c ⟨t.val, by have := arr_N32; omega⟩ :=
  (ValueIdx.sum_idx2 (Gfin m c)).trans
    ((Cert.SumIdx.sum_corner (fun c' : Fin 2 => ∑ k : Fin 16, cbAt m c ⟨16 * c'.val + k.val, by have := arr_N32; omega⟩)).trans
      (Cert.SumIdx.sum_cores (fun t : Fin 32 => cbAt m c ⟨t.val, by have := arr_N32; omega⟩)))

-- The scalar result is minus the total of the result array over 4094, and that total is the sum over the thirty-two points.
theorem kernel_run_of (hlast : HLast m) (ρ : Dev nD → PrngReg) :
    θ_run defs (onTc (τ := τ) (main (F := Ideal))) ⟨m, fun _ => 0, ρ⟩ (fun r => ∀ c : Dev nD,
      r.2.mem ((c.tc : Thread nD τ).loc main_v18)
        = (fun _ => -(Ideal.div (∑ t : Fin 32, cbAt m c ⟨t.val, by have : cfg0.N = 32 := N_0; omega⟩) Cert.Spec.c4094))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v18 (Pipeline.mem_restRefs_of main_v18 (by decide) (by decide))).trans
      (funext fun j => by
        rw [ValueIdx.eq_ix0 j, KTailRead.tail_result (dats m) (V0 m) c, final_arr m hlast c, total m c]),
      args_kept m (dats m) h (A_eq m) c⟩) (run_main m ρ)

end Cert.KernelIdeal.KValue

end
-- ==== Proof.FramePieces.lean ====
/- The body's last store covers the output block, so the block ends at the body's arithmetic of the loaded blocks and of what the block held. -/
import proofs.«407706_j38671885534012_3_alg».proof.Proof.FrameRuns
import proofs.«407706_j38671885534012_3_alg».proof.Proof.KBody
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem pieces_off2 : (![0, 0] : Fin 2 → Nat) = fun _ => 0 := funext fun a => by fin_cases a <;> rfl

theorem pieces_off1 : (![0] : Fin 1 → Nat) = fun _ => 0 := funext fun a => by fin_cases a; rfl

theorem canon_A (c : Dev nD) (i : grid0.Coords) (arg2 : Memref sig .tc .vmem S128x2048 .f32) (harg2 : arg2.IsWhole) (arg3 : Memref sig .tc .vmem S128x1 .i32) (harg3 : arg3.IsWhole) (arg4 : Memref sig .tc .vmem S2048 .f32) (harg4 : arg4.IsWhole) (arg5 : Memref sig .tc .vmem S2048 .f32) (harg5 : arg5.IsWhole) (arg6 : Memref sig .tc .vmem S2048x1003 .bf16) (harg6 : arg6.IsWhole) (arg7 : Memref sig .tc .vmem S2048x672 .bf16) (harg7 : arg7.IsWhole) (arg8 : Memref sig .tc .vmem S512x1000 .bf16) (harg8 : arg8.IsWhole) (arg9 : Memref sig .tc .vmem S128x3000 .bf16) (harg9 : arg9.IsWhole) (arg10 : Memref sig .tc .vmem S32x27000 .bf16) (harg10 : arg10.IsWhole) (arg11 : Memref sig .tc .vmem S8x128 .f32) (harg11 : arg11.IsWhole) (hc0 : cond0_0 i)
    (x0 : Vec F S128x2048 .f32) (x1 : Vec F S128x1 .i32) (x2 : Vec F S2048 .f32) (x3 : Vec F S2048 .f32) (x4 : Vec F S2048x1003 .bf16) (x5 : Vec F S2048x672 .bf16) (x6 : Vec F S512x1000 .bf16) (x7 : Vec F S128x3000 .bf16) (x8 : Vec F S32x27000 .bf16) :
    View.canon (kernelRun0_A c i arg2 harg2 arg3 harg3 arg4 harg4 arg5 harg5 arg6 harg6 arg7 harg7 arg8 harg8 arg9 harg9 arg10 harg10 arg11 harg11 hc0 x0 x1 x2 x3 x4 x5 x6 x7 x8).1
      = KBody.bodyVal x0 x1 x2 x3 x4 x5 x6 x7 x8 (k0_pay2 (F := F)) := by
  unfold kernelRun0_A
  dsimp only
  sl_unfold_words
  rw [View.canon_cons_unit_zero (S := S8x128) pieces_off2, View.readCov_unit_zero (S := S8x128) _ pieces_off2]
  unfold KBody.bodyVal KBody.out2Val KBody.tail3Val KBody.tail3Of KBody.mid3Val
  simp only [View.readAt_eq_ld, harg2.read_unread, harg3.read_unread, harg4.read_unread, harg5.read_unread, harg6.read_unread, harg7.read_unread, harg8.read_unread, harg9.read_unread, harg10.read_unread, View.ld_unit_zero (S := S128x2048) pieces_off2, View.ld_unit_zero (S := S128x1) pieces_off2, View.ld_unit_zero (S := S2048) pieces_off1, View.ld_unit_zero (S := S2048x1003) pieces_off2, View.ld_unit_zero (S := S2048x672) pieces_off2, View.ld_unit_zero (S := S512x1000) pieces_off2, View.ld_unit_zero (S := S128x3000) pieces_off2, View.ld_unit_zero (S := S32x27000) pieces_off2]

theorem canon_B (c : Dev nD) (i : grid0.Coords) (arg2 : Memref sig .tc .vmem S128x2048 .f32) (harg2 : arg2.IsWhole) (arg3 : Memref sig .tc .vmem S128x1 .i32) (harg3 : arg3.IsWhole) (arg4 : Memref sig .tc .vmem S2048 .f32) (harg4 : arg4.IsWhole) (arg5 : Memref sig .tc .vmem S2048 .f32) (harg5 : arg5.IsWhole) (arg6 : Memref sig .tc .vmem S2048x1003 .bf16) (harg6 : arg6.IsWhole) (arg7 : Memref sig .tc .vmem S2048x672 .bf16) (harg7 : arg7.IsWhole) (arg8 : Memref sig .tc .vmem S512x1000 .bf16) (harg8 : arg8.IsWhole) (arg9 : Memref sig .tc .vmem S128x3000 .bf16) (harg9 : arg9.IsWhole) (arg10 : Memref sig .tc .vmem S32x27000 .bf16) (harg10 : arg10.IsWhole) (arg11 : Memref sig .tc .vmem S8x128 .f32) (harg11 : arg11.IsWhole) (hc0 : ¬cond0_0 i)
    (x0 : Vec F S128x2048 .f32) (x1 : Vec F S128x1 .i32) (x2 : Vec F S2048 .f32) (x3 : Vec F S2048 .f32) (x4 : Vec F S2048x1003 .bf16) (x5 : Vec F S2048x672 .bf16) (x6 : Vec F S512x1000 .bf16) (x7 : Vec F S128x3000 .bf16) (x8 : Vec F S32x27000 .bf16) (xo9 : Vec F S8x128 .f32) :
    View.canon (kernelRun0_B c i arg2 harg2 arg3 harg3 arg4 harg4 arg5 harg5 arg6 harg6 arg7 harg7 arg8 harg8 arg9 harg9 arg10 harg10 arg11 harg11 hc0 x0 x1 x2 x3 x4 x5 x6 x7 x8 xo9).1
      = KBody.bodyVal x0 x1 x2 x3 x4 x5 x6 x7 x8 xo9 := by
  unfold kernelRun0_B
  dsimp only
  sl_unfold_words
  rw [View.canon_unit_zero (S := S8x128) pieces_off2]
  unfold KBody.bodyVal KBody.out2Val KBody.tail3Val KBody.tail3Of KBody.mid3Val
  simp only [View.readAt_eq_ld, harg2.read_unread, harg3.read_unread, harg4.read_unread, harg5.read_unread, harg6.read_unread, harg7.read_unread, harg8.read_unread, harg9.read_unread, harg10.read_unread, harg11.read_unread, View.ld_unit_zero (S := S128x2048) pieces_off2, View.ld_unit_zero (S := S128x1) pieces_off2, View.ld_unit_zero (S := S2048) pieces_off1, View.ld_unit_zero (S := S2048x1003) pieces_off2, View.ld_unit_zero (S := S2048x672) pieces_off2, View.ld_unit_zero (S := S512x1000) pieces_off2, View.ld_unit_zero (S := S128x3000) pieces_off2, View.ld_unit_zero (S := S32x27000) pieces_off2, View.ld_unit_zero (S := S8x128) pieces_off2]

end Cert.KernelIdeal.Frame

end
-- ==== Proof.KAcc.lean ====
/- An accumulator zeroed every sixteen points and added to at every point holds, at its corner, the partial sum of its group of sixteen, and zero elsewhere. -/
import proofs.«407706_j38671885534012_3_alg».proof.Proof.KRow

noncomputable section

namespace Cert.KernelIdeal.KAcc

open Idealize.ShloMosaic Idealize.ShloMosaic.ValueIdx Cert.KernelIdeal Cert.KernelIdeal.Gen Cert.KernelIdeal.KBody Cert.KernelIdeal.Blocks Cert.Spec

variable (B0 : ℕ → Vec Ideal S128x2048 .f32) (B1 : ℕ → Vec Ideal S128x1 .i32) (B2 B3 : ℕ → Vec Ideal S2048 .f32)
  (B4 : ℕ → Vec Ideal S2048x1003 .bf16) (B5 : ℕ → Vec Ideal S2048x672 .bf16) (B6 : ℕ → Vec Ideal S512x1000 .bf16)
  (B7 : ℕ → Vec Ideal S128x3000 .bf16) (B8 : ℕ → Vec Ideal S32x27000 .bf16)

def cb (n : ℕ) : EReal := KRow.contrib (B0 n) (B1 n) (B2 n) (B3 n) (B4 n) (B5 n) (B6 n) (B7 n) (B8 n)

theorem pay2_apply (j : S8x128.Idx) : k0_pay2 (F := Ideal) j = 0 := by
  show Ideal.ofBits .f32 0x00000000#32 = 0
  exact Ideal.ofBits_zero_f32

variable (acc : ℕ → Vec Ideal S8x128 .f32)
  (hA : ∀ n, n % 16 = 0 → acc n = bodyVal (F := Ideal) (B0 n) (B1 n) (B2 n) (B3 n) (B4 n) (B5 n) (B6 n) (B7 n) (B8 n) (k0_pay2 (F := Ideal)))
  (hB : ∀ n, (n + 1) % 16 ≠ 0 →
    acc (n + 1) = bodyVal (F := Ideal) (B0 (n + 1)) (B1 (n + 1)) (B2 (n + 1)) (B3 (n + 1)) (B4 (n + 1)) (B5 (n + 1)) (B6 (n + 1)) (B7 (n + 1))
      (B8 (n + 1)) (acc n))

include hA in

theorem acc_first (n : ℕ) (hn : n % 16 = 0) (a : Fin 8) (b : Fin 128) :
    acc n (ix2 a b) = if a.val = 0 ∧ b.val = 0 then cb B0 B1 B2 B3 B4 B5 B6 B7 B8 n else 0 := by
  rw [hA n hn, KRow.bodyVal_apply, pay2_apply, zero_add]
  rfl

include hA hB in

theorem acc_apply (n : ℕ) (a : Fin 8) (b : Fin 128) :
    acc n (ix2 a b) = if a.val = 0 ∧ b.val = 0 then
      ∑ i ∈ Finset.range (n % 16 + 1), cb B0 B1 B2 B3 B4 B5 B6 B7 B8 (16 * (n / 16) + i) else 0 := by
  induction n with
  | zero =>
    rw [acc_first B0 B1 B2 B3 B4 B5 B6 B7 B8 acc hA 0 rfl]
    simp
  | succ m ih =>
    by_cases h : (m + 1) % 16 = 0
    · rw [acc_first B0 B1 B2 B3 B4 B5 B6 B7 B8 acc hA (m + 1) h, h]
      have h1 : 16 * ((m + 1) / 16) = m + 1 := by omega
      simp [h1]
    · rw [hB m h, KRow.bodyVal_apply, ih]
      have h1 : (m + 1) / 16 = m / 16 := by omega
      have h2 : (m + 1) % 16 = m % 16 + 1 := by omega
      have h3 : 16 * (m / 16) + (m % 16 + 1) = m + 1 := by omega
      rw [h1, h2, Finset.sum_range_succ _ (m % 16 + 1), h3]
      by_cases hc : a.val = 0 ∧ b.val = 0
      · rw [if_pos hc, if_pos hc, if_pos hc]; rfl
      · rw [if_neg hc, if_neg hc, if_neg hc, add_zero]

include hA hB in

theorem acc_last (c : Fin 2) (a : Fin 8) (b : Fin 128) :
    acc (16 * c.val + 15) (ix2 a b) = if a.val = 0 ∧ b.val = 0 then
      ∑ i : Fin 16, cb B0 B1 B2 B3 B4 B5 B6 B7 B8 (16 * c.val + i.val) else 0 := by
  rw [acc_apply B0 B1 B2 B3 B4 B5 B6 B7 B8 acc hA hB]
  have h1 : (16 * c.val + 15) % 16 + 1 = 16 := by omega
  have h2 : (16 * c.val + 15) / 16 = c.val := by omega
  rw [h1, h2, Finset.sum_range]

end Cert.KernelIdeal.KAcc

end
-- ==== Proof.KValue.lean ====
/- After a core's sixteenth point the corner of its output block holds the sum of the sixteen points' contributions. -/
import proofs.«407706_j38671885534012_3_alg».proof.Proof.FrameMain
import proofs.«407706_j38671885534012_3_alg».proof.Proof.FramePieces
import proofs.«407706_j38671885534012_3_alg».proof.Proof.KAcc
import proofs.«407706_j38671885534012_3_alg».proof.Proof.KBlocks
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Frame Cert.KernelIdeal.KBody Cert.KernelIdeal.KBlocks

variable (m : (ℓ : Loc nD τ sig) → Buf (Elt Ideal) ℓ)

theorem out_A (c : Dev nD) (i : grid0.Coords) (arg2 : Memref sig .tc .vmem S128x2048 .f32) (harg2 : arg2.IsWhole) (arg3 : Memref sig .tc .vmem S128x1 .i32) (harg3 : arg3.IsWhole) (arg4 : Memref sig .tc .vmem S2048 .f32) (harg4 : arg4.IsWhole) (arg5 : Memref sig .tc .vmem S2048 .f32) (harg5 : arg5.IsWhole) (arg6 : Memref sig .tc .vmem S2048x1003 .bf16) (harg6 : arg6.IsWhole) (arg7 : Memref sig .tc .vmem S2048x672 .bf16) (harg7 : arg7.IsWhole) (arg8 : Memref sig .tc .vmem S512x1000 .bf16) (harg8 : arg8.IsWhole) (arg9 : Memref sig .tc .vmem S128x3000 .bf16) (harg9 : arg9.IsWhole) (arg10 : Memref sig .tc .vmem S32x27000 .bf16) (harg10 : arg10.IsWhole) (arg11 : Memref sig .tc .vmem S8x128 .f32) (harg11 : arg11.IsWhole) (hc0 : cond0_0 i)
    (x0 : Vec Ideal S128x2048 .f32) (x1 : Vec Ideal S128x1 .i32) (x2 : Vec Ideal S2048 .f32) (x3 : Vec Ideal S2048 .f32) (x4 : Vec Ideal S2048x1003 .bf16) (x5 : Vec Ideal S2048x672 .bf16) (x6 : Vec Ideal S512x1000 .bf16) (x7 : Vec Ideal S128x3000 .bf16) (x8 : Vec Ideal S32x27000 .bf16) :
    out0_A_9 c i arg2 harg2 arg3 harg3 arg4 harg4 arg5 harg5 arg6 harg6 arg7 harg7 arg8 harg8 arg9 harg9 arg10 harg10 arg11 harg11 hc0 x0 x1 x2 x3 x4 x5 x6 x7 x8
      = bodyVal x0 x1 x2 x3 x4 x5 x6 x7 x8 (k0_pay2 (F := Ideal)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3 x4 x5 x6 x7 x8)]
  exact canon_A c i arg2 harg2 arg3 harg3 arg4 harg4 arg5 harg5 arg6 harg6 arg7 harg7 arg8 harg8 arg9 harg9 arg10 harg10 arg11 harg11 hc0 x0 x1 x2 x3 x4 x5 x6 x7 x8

theorem out_B (c : Dev nD) (i : grid0.Coords) (arg2 : Memref sig .tc .vmem S128x2048 .f32) (harg2 : arg2.IsWhole) (arg3 : Memref sig .tc .vmem S128x1 .i32) (harg3 : arg3.IsWhole) (arg4 : Memref sig .tc .vmem S2048 .f32) (harg4 : arg4.IsWhole) (arg5 : Memref sig .tc .vmem S2048 .f32) (harg5 : arg5.IsWhole) (arg6 : Memref sig .tc .vmem S2048x1003 .bf16) (harg6 : arg6.IsWhole) (arg7 : Memref sig .tc .vmem S2048x672 .bf16) (harg7 : arg7.IsWhole) (arg8 : Memref sig .tc .vmem S512x1000 .bf16) (harg8 : arg8.IsWhole) (arg9 : Memref sig .tc .vmem S128x3000 .bf16) (harg9 : arg9.IsWhole) (arg10 : Memref sig .tc .vmem S32x27000 .bf16) (harg10 : arg10.IsWhole) (arg11 : Memref sig .tc .vmem S8x128 .f32) (harg11 : arg11.IsWhole) (hc0 : ¬cond0_0 i)
    (x0 : Vec Ideal S128x2048 .f32) (x1 : Vec Ideal S128x1 .i32) (x2 : Vec Ideal S2048 .f32) (x3 : Vec Ideal S2048 .f32) (x4 : Vec Ideal S2048x1003 .bf16) (x5 : Vec Ideal S2048x672 .bf16) (x6 : Vec Ideal S512x1000 .bf16) (x7 : Vec Ideal S128x3000 .bf16) (x8 : Vec Ideal S32x27000 .bf16) (xo9 : Vec Ideal S8x128 .f32) :
    out0_B_9 c i arg2 harg2 arg3 harg3 arg4 harg4 arg5 harg5 arg6 harg6 arg7 harg7 arg8 harg8 arg9 harg9 arg10 harg10 arg11 harg11 hc0 x0 x1 x2 x3 x4 x5 x6 x7 x8 xo9
      = bodyVal x0 x1 x2 x3 x4 x5 x6 x7 x8 xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 x6 x7 x8 xo9)]
  exact canon_B c i arg2 harg2 arg3 harg3 arg4 harg4 arg5 harg5 arg6 harg6 arg7 harg7 arg8 harg8 arg9 harg9 arg10 harg10 arg11 harg11 hc0 x0 x1 x2 x3 x4 x5 x6 x7 x8 xo9

theorem N32 : cfg0.N = 32 := N_0

def pt (n : ℕ) : Fin cfg0.N := if h : n < cfg0.N then ⟨n, h⟩ else ⟨0, by rw [N32]; omega⟩

theorem pt_of_lt (n : ℕ) (h : n < cfg0.N) : pt n = ⟨n, h⟩ := dif_pos h

def acc (c : Dev nD) : ℕ → Vec Ideal S8x128 .f32
  | 0 => bodyVal (blk0 m c (pt 0)) (blk1 m c (pt 0)) (blk2 m c (pt 0)) (blk3 m c (pt 0)) (blk4 m c (pt 0)) (blk5 m c (pt 0)) (blk6 m c (pt 0)) (blk7 m c (pt 0)) (blk8 m c (pt 0)) (k0_pay2 (F := Ideal))
  | n + 1 =>
    if (n + 1) % 16 = 0 then bodyVal (blk0 m c (pt (n + 1))) (blk1 m c (pt (n + 1))) (blk2 m c (pt (n + 1))) (blk3 m c (pt (n + 1))) (blk4 m c (pt (n + 1))) (blk5 m c (pt (n + 1))) (blk6 m c (pt (n + 1))) (blk7 m c (pt (n + 1))) (blk8 m c (pt (n + 1))) (k0_pay2 (F := Ideal))
    else bodyVal (blk0 m c (pt (n + 1))) (blk1 m c (pt (n + 1))) (blk2 m c (pt (n + 1))) (blk3 m c (pt (n + 1))) (blk4 m c (pt (n + 1))) (blk5 m c (pt (n + 1))) (blk6 m c (pt (n + 1))) (blk7 m c (pt (n + 1))) (blk8 m c (pt (n + 1))) (acc c n)

theorem acc_reset (c : Dev nD) (n : ℕ) (hn : n % 16 = 0) :
    acc m c n = bodyVal (blk0 m c (pt n)) (blk1 m c (pt n)) (blk2 m c (pt n)) (blk3 m c (pt n)) (blk4 m c (pt n)) (blk5 m c (pt n)) (blk6 m c (pt n)) (blk7 m c (pt n)) (blk8 m c (pt n)) (k0_pay2 (F := Ideal)) := by
  cases n with
  | zero => rfl
  | succ k => rw [acc]; exact if_pos hn

theorem acc_step (c : Dev nD) (n : ℕ) (hn : (n + 1) % 16 ≠ 0) :
    acc m c (n + 1) = bodyVal (blk0 m c (pt (n + 1))) (blk1 m c (pt (n + 1))) (blk2 m c (pt (n + 1))) (blk3 m c (pt (n + 1))) (blk4 m c (pt (n + 1))) (blk5 m c (pt (n + 1))) (blk6 m c (pt (n + 1))) (blk7 m c (pt (n + 1))) (blk8 m c (pt (n + 1))) (acc m c n) := by
  rw [acc]; exact if_neg hn

theorem outsAt_eq (c : Dev nD) : ∀ (n : ℕ) (hn : n < cfg0.N), outsAt0 m c n hn = acc m c n := by
  intro n
  induction n with
  | zero =>
    intro hn
    rw [outsAt0_A m c ⟨0, hn⟩ rfl, out_A, acc, pt_of_lt 0 hn]
  | succ k ih =>
    intro hn
    by_cases h0 : (k + 1) % 16 = 0
    · rw [outsAt0_A m c ⟨k + 1, hn⟩ h0, out_A, acc, if_pos h0, pt_of_lt (k + 1) hn]
    · rw [outsAt0_B m c ⟨k + 1, hn⟩ h0, out_B, acc, if_neg h0, pt_of_lt (k + 1) hn]
      have hk : k < cfg0.N := Nat.lt_of_succ_lt hn
      show bodyVal (blk0 m c ⟨k + 1, hn⟩) (blk1 m c ⟨k + 1, hn⟩) (blk2 m c ⟨k + 1, hn⟩) (blk3 m c ⟨k + 1, hn⟩) (blk4 m c ⟨k + 1, hn⟩) (blk5 m c ⟨k + 1, hn⟩) (blk6 m c ⟨k + 1, hn⟩) (blk7 m c ⟨k + 1, hn⟩) (blk8 m c ⟨k + 1, hn⟩) (outsAt0 m c k _) = bodyVal (blk0 m c ⟨k + 1, hn⟩) (blk1 m c ⟨k + 1, hn⟩) (blk2 m c ⟨k + 1, hn⟩) (blk3 m c ⟨k + 1, hn⟩) (blk4 m c ⟨k + 1, hn⟩) (blk5 m c ⟨k + 1, hn⟩) (blk6 m c ⟨k + 1, hn⟩) (blk7 m c ⟨k + 1, hn⟩) (blk8 m c ⟨k + 1, hn⟩) (acc m c k)
      rw [ih hk]

theorem outsAt_last (c : Dev nD) (c' : Fin 2) (a : Fin 8) (b : Fin 128) :
    outsAt0 m c (16 * c'.val + 15) (by have : cfg0.N = 32 := N_0; omega) (ix2 a b)
      = if a.val = 0 ∧ b.val = 0 then
          ∑ i : Fin 16, KBlocks.cbAt m c ⟨16 * c'.val + i.val, by have : cfg0.N = 32 := N_0; omega⟩ else 0 := by
  rw [outsAt_eq, KAcc.acc_last (fun n => blk0 m c (pt n)) (fun n => blk1 m c (pt n)) (fun n => blk2 m c (pt n)) (fun n => blk3 m c (pt n)) (fun n => blk4 m c (pt n)) (fun n => blk5 m c (pt n)) (fun n => blk6 m c (pt n)) (fun n => blk7 m c (pt n)) (fun n => blk8 m c (pt n))
    (acc m c) (acc_reset m c) (acc_step m c) c' a b]
  refine if_congr Iff.rfl (Finset.sum_congr rfl fun i _ => ?_) rfl
  have hi : 16 * c'.val + i.val < cfg0.N := by have : cfg0.N = 32 := N_0; omega
  unfold KAcc.cb cbAt
  dsimp only
  rw [pt_of_lt _ hi]

end Cert.KernelIdeal.KValue

end
-- ==== Proof.MathLsm.lean ====
/- For finitely many real logits the maximum is real and the sum of exponentials a positive real, so the log-sum-exp is real and a logit less it is the log-softmax. -/
import proofs.«407706_j38671885534012_3_alg».proof.Proof.Spec

noncomputable section

namespace Cert.Spec

open Idealize.ShloMosaic

theorem ninf_eq_bot : ninf = (⊥ : EReal) := by
  simp [ninf, Ideal.ofBits, Ideal.ieee]

theorem rowMax_eq_sup {n : ℕ} (Z : Fin n → E) : rowMax Z = Finset.univ.sup Z := by
  rw [rowMax, ninf_eq_bot]; rfl

theorem coe_finset_sum {ι : Type*} (s : Finset ι) (f : ι → ℝ) :
    (∑ j ∈ s, (f j : EReal)) = ((∑ j ∈ s, f j : ℝ) : EReal) := by
  classical
  induction s using Finset.induction_on with
  | empty => simp
  | insert a s ha ih => rw [Finset.sum_insert ha, Finset.sum_insert ha, ih, EReal.coe_add]

theorem sup_coe_real {ι : Type*} (s : Finset ι) (hs : s.Nonempty) (f : ι → ℝ) :
    ∃ r : ℝ, s.sup (fun j => (f j : EReal)) = (r : EReal) := by
  obtain ⟨j, hj, hmax⟩ := Finset.exists_max_image s f hs
  exact ⟨f j, le_antisymm (Finset.sup_le fun i hi => EReal.coe_le_coe_iff.mpr (hmax i hi))
    (Finset.le_sup (f := fun j => (f j : EReal)) hj)⟩

variable {n : ℕ}

theorem lse_parts (z : Fin n → ℝ) (hn : 0 < n) : ∃ M S : ℝ, rowMax (fun j => (z j : EReal)) = (M : EReal) ∧ 0 < S ∧
    (∑ j, Ideal.exp ((z j : EReal) - (M : EReal))) = (S : EReal) := by
  obtain ⟨M, hM⟩ := sup_coe_real Finset.univ ⟨⟨0, hn⟩, Finset.mem_univ _⟩ z
  refine ⟨M, ∑ j, Real.exp (z j - M), (rowMax_eq_sup _).trans hM, ?_, ?_⟩
  · exact Finset.sum_pos (fun j _ => Real.exp_pos _) ⟨⟨0, hn⟩, Finset.mem_univ _⟩
  · rw [← coe_finset_sum]
    refine Finset.sum_congr rfl (fun j _ => ?_)
    rw [← EReal.coe_sub, Ideal.exp_coe]

theorem lse_eq (z : Fin n → ℝ) (M S : ℝ) (hM : rowMax (fun j => (z j : EReal)) = (M : EReal)) (hS : 0 < S)
    (hsum : (∑ j, Ideal.exp ((z j : EReal) - (M : EReal))) = (S : EReal)) :
    lse (fun j => (z j : EReal)) = ((M + Real.log S : ℝ) : EReal) := by
  simp only [lse, hM, hsum, Ideal.log_coe, if_neg (not_le.mpr hS), EReal.coe_add]

theorem lsm_eq (z : Fin n → ℝ) (M S : ℝ) (hM : rowMax (fun j => (z j : EReal)) = (M : EReal)) (hS : 0 < S)
    (hsum : (∑ j, Ideal.exp ((z j : EReal) - (M : EReal))) = (S : EReal)) (i : Fin n) :
    lsm (fun j => (z j : EReal)) i = (((z i - M) - Real.log S : ℝ) : EReal) := by
  simp only [lsm, hM, hsum, Ideal.log_coe, if_neg (not_le.mpr hS), EReal.coe_sub]

theorem lse_real (z : Fin n → ℝ) (hn : 0 < n) : ∃ L : ℝ, lse (fun j => (z j : EReal)) = (L : EReal) := by
  obtain ⟨M, S, hM, hS, hsum⟩ := lse_parts z hn
  exact ⟨_, lse_eq z M S hM hS hsum⟩

theorem lsm_real (z : Fin n → ℝ) (hn : 0 < n) (i : Fin n) : ∃ v : ℝ, lsm (fun j => (z j : EReal)) i = (v : EReal) := by
  obtain ⟨M, S, hM, hS, hsum⟩ := lse_parts z hn
  exact ⟨_, lsm_eq z M S hM hS hsum i⟩

theorem sub_lse_eq_lsm (z : Fin n → ℝ) (hn : 0 < n) (i : Fin n) :
    ((z i : ℝ) : EReal) - lse (fun j => (z j : EReal)) = lsm (fun j => (z j : EReal)) i := by
  obtain ⟨M, S, hM, hS, hsum⟩ := lse_parts z hn
  rw [lse_eq z M S hM hS hsum, lsm_eq z M S hM hS hsum i, ← EReal.coe_sub]
  congr 1
  ring

end Cert.Spec

end
-- ==== Proof.MathOnline.lean ====
/- A running maximum, and a running sum rescaled by exp (m - m') at each step, give after twelve chunks the log-sum-exp of the whole row. -/
import proofs.«407706_j38671885534012_3_alg».proof.Proof.MathLsm

noncomputable section

namespace Cert.Spec

open Idealize.ShloMosaic

theorem rescale {ι : Type*} (s : Finset ι) (f : ι → ℝ) (m m' : ℝ) :
    (∑ j ∈ s, Ideal.exp ((f j : EReal) - (m : EReal))) * Ideal.exp ((m : EReal) - (m' : EReal))
      = ∑ j ∈ s, Ideal.exp ((f j : EReal) - (m' : EReal)) := by
  simp only [← EReal.coe_sub, Ideal.exp_coe]
  rw [coe_finset_sum, coe_finset_sum, ← EReal.coe_mul, Finset.sum_mul]
  congr 1
  apply Finset.sum_congr rfl
  intro j _
  rw [← Real.exp_add]
  congr 1
  ring

def pre (n : ℕ) : Finset (Fin 27000) := Finset.univ.filter (fun j => j.val < 2250 * n)

def blkEmb (n : ℕ) (hn : n < 12) : Fin 2250 ↪ Fin 27000 where
  toFun j := ⟨2250 * n + j.val, by omega⟩
  inj' := by
    intro a b h
    have h' : 2250 * n + a.val = 2250 * n + b.val := congrArg Fin.val h
    exact Fin.ext (by omega)

theorem blkEmb_val (n : ℕ) (hn : n < 12) (j : Fin 2250) : (blkEmb n hn j).val = 2250 * n + j.val := rfl

def blk (n : ℕ) (hn : n < 12) : Finset (Fin 27000) :=
  Finset.univ.map (blkEmb n hn)

theorem mem_pre (n : ℕ) (j : Fin 27000) : j ∈ pre n ↔ j.val < 2250 * n := by
  simp only [pre, Finset.mem_filter, Finset.mem_univ, true_and]

theorem mem_blk (n : ℕ) (hn : n < 12) (j : Fin 27000) :
    j ∈ blk n hn ↔ 2250 * n ≤ j.val ∧ j.val < 2250 * (n + 1) := by
  simp only [blk, Finset.mem_map, Finset.mem_univ, true_and]
  constructor
  · rintro ⟨i, rfl⟩
    have := i.isLt
    rw [blkEmb_val]
    omega
  · rintro ⟨h1, h2⟩
    refine ⟨⟨j.val - 2250 * n, by omega⟩, Fin.ext ?_⟩
    rw [blkEmb_val]
    show 2250 * n + (j.val - 2250 * n) = j.val
    omega

theorem pre_succ (n : ℕ) (hn : n < 12) : pre (n + 1) = pre n ∪ blk n hn ∧ Disjoint (pre n) (blk n hn) := by
  constructor
  · ext j
    rw [Finset.mem_union, mem_pre, mem_pre, mem_blk]
    omega
  · rw [Finset.disjoint_left]
    intro j hj hb
    rw [mem_pre] at hj
    rw [mem_blk] at hb
    omega

theorem chunk_eq (Z : Fin 27000 → E) (n : ℕ) (hn : n < 12) (j : Fin 2250) :
    chunk Z n j = Z (blkEmb n hn j) := by
  have h : 2250 * n + j.val < 27000 := by omega
  unfold chunk
  rw [dif_pos h]
  rfl

theorem rowMax_chunk (Z : Fin 27000 → E) (n : ℕ) (hn : n < 12) : rowMax (chunk Z n) = (blk n hn).sup Z := by
  rw [rowMax_eq_sup, blk, Finset.sup_map]
  congr 1
  funext j
  exact chunk_eq Z n hn j

theorem sum_chunk (Z : Fin 27000 → E) (n : ℕ) (hn : n < 12) (g : E → E) :
    ∑ j, g (chunk Z n j) = ∑ j ∈ blk n hn, g (Z j) := by
  rw [blk, Finset.sum_map]
  apply Finset.sum_congr rfl
  intro j _
  rw [chunk_eq Z n hn j]

theorem online_inv (z : Fin 27000 → ℝ) (n : ℕ) (hn : n ≤ 12) :
    (online (fun j => (z j : EReal)) n).1 = (pre n).sup (fun j => (z j : EReal)) ∧
    (online (fun j => (z j : EReal)) n).2
      = ∑ j ∈ pre n, Ideal.exp ((z j : EReal) - (pre n).sup (fun j => (z j : EReal))) := by
  induction n with
  | zero =>
    have h0 : pre 0 = ∅ := by
      ext j
      rw [mem_pre]
      simp
    rw [h0]
    simp [online, ninf_eq_bot]
  | succ n ih =>
    have hn' : n < 12 := by omega
    obtain ⟨ih1, ih2⟩ := ih (by omega)
    obtain ⟨hU, hD⟩ := pre_succ n hn'
    have hstep : online (fun j => (z j : EReal)) (n + 1)
        = onlineStep (fun j => (z j : EReal)) (online (fun j => (z j : EReal)) n) n := rfl
    rw [hstep]
    simp only [onlineStep]
    rw [ih1, ih2, rowMax_chunk _ n hn',
      sum_chunk (fun j => (z j : EReal)) n hn' (fun a => Ideal.exp (a - max ((pre n).sup fun j => (z j : EReal))
        ((blk n hn').sup fun j => (z j : EReal)))),
      hU, Finset.sup_union, Finset.sum_union hD]
    refine ⟨rfl, ?_⟩
    have key : (∑ j ∈ pre n, Ideal.exp ((z j : EReal) - (pre n).sup fun j => (z j : EReal)))
          * Ideal.exp (((pre n).sup fun j => (z j : EReal))
              - max ((pre n).sup fun j => (z j : EReal)) ((blk n hn').sup fun j => (z j : EReal)))
        = ∑ j ∈ pre n, Ideal.exp ((z j : EReal)
              - max ((pre n).sup fun j => (z j : EReal)) ((blk n hn').sup fun j => (z j : EReal))) := by
      rcases (pre n).eq_empty_or_nonempty with he | hne
      · rw [he, Finset.sum_empty, Finset.sum_empty, zero_mul]
      · obtain ⟨m, hm⟩ := sup_coe_real _ hne z
        have hb : (blk n hn').Nonempty := ⟨blkEmb n hn' ⟨0, by norm_num⟩, Finset.mem_map_of_mem _ (Finset.mem_univ _)⟩
        obtain ⟨c, hc⟩ := sup_coe_real _ hb z
        rw [hm, hc, ← EReal.coe_strictMono.monotone.map_max]
        exact rescale _ z m (max m c)
    exact congrArg (fun a => a + ∑ j ∈ blk n hn', Ideal.exp ((z j : EReal)
      - max ((pre n).sup fun j => (z j : EReal)) ((blk n hn').sup fun j => (z j : EReal)))) key

theorem lse3_eq_lse (z : Fin 27000 → ℝ) : lse3 (fun j => (z j : EReal)) = lse (fun j => (z j : EReal)) := by
  obtain ⟨h1, h2⟩ := online_inv z 12 le_rfl
  have hall : pre 12 = Finset.univ := by
    ext j
    simp only [pre, Finset.mem_filter, Finset.mem_univ, true_and, iff_true]
    exact j.isLt
  rw [hall] at h1 h2
  unfold lse3 lse
  rw [h1, h2, rowMax_eq_sup]

end Cert.Spec

end
-- ==== Proof.MathRow.lean ====
/- On finite inputs every logit of a row is real, so the kernel's arrangement of the row's value and the reference's agree. -/
import proofs.«407706_j38671885534012_3_alg».proof.Proof.MathOnline

noncomputable section

namespace Cert.Spec

open Idealize.ShloMosaic

theorem c2048_eq : c2048 = ((2048 : ℝ) : EReal) := by
  simp [c2048, Ideal.ofBits, Ideal.ieee, -EReal.coe_mul]; norm_num

theorem eps_pos : ∃ e : ℝ, eps = (e : EReal) ∧ 0 < e := by
  refine ⟨((2 ^ 23 + 2606508 : ℕ) : ℝ) * (2 : ℝ) ^ (-40 : ℤ), ?_, by positivity⟩
  simp [eps, Ideal.ofBits, Ideal.ieee, -EReal.coe_mul]

theorem div_c2048 (a : ℝ) : Ideal.div (a : EReal) c2048 = ((a / 2048 : ℝ) : EReal) := by
  rw [c2048_eq, Ideal.div_coe (by norm_num), ← EReal.coe_mul]
  congr 1
  ring

theorem mean_coe (x : Fin 2048 → ℝ) : mean (fun k => (x k : EReal)) = (((∑ k, x k) / 2048 : ℝ) : EReal) := by
  rw [mean, coe_finset_sum, div_c2048]

theorem var_coe (x : Fin 2048 → ℝ) : ∃ v : ℝ, var (fun k => (x k : EReal)) = (v : EReal) ∧ 0 ≤ v := by
  refine ⟨(∑ k, (x k - (∑ k, x k) / 2048) * (x k - (∑ k, x k) / 2048)) / 2048, ?_, ?_⟩
  · rw [var, mean_coe]
    simp only [← EReal.coe_sub, ← EReal.coe_mul]
    rw [coe_finset_sum, div_c2048]
  · exact div_nonneg (Finset.sum_nonneg fun k _ => mul_self_nonneg _) (by norm_num)

theorem rsqrt_pos_real (r : ℝ) (hr : 0 < r) : ∃ s : ℝ, Ideal.rsqrt (r : EReal) = (s : EReal) := by
  refine ⟨(Real.sqrt r)⁻¹, ?_⟩
  rw [Ideal.rsqrt_coe, if_neg (not_lt.mpr hr.le), if_neg hr.ne']

theorem hrow_coe (x g b : Fin 2048 → ℝ) : ∃ hr : Fin 2048 → ℝ,
    hrow (fun k => (x k : EReal)) (fun k => (g k : EReal)) (fun k => (b k : EReal)) = fun k => (hr k : EReal) := by
  obtain ⟨v, hv, hv0⟩ := var_coe x
  obtain ⟨e, he, he0⟩ := eps_pos
  obtain ⟨s, hs⟩ := rsqrt_pos_real (v + e) (by positivity)
  refine ⟨fun k => (x k - (∑ k, x k) / 2048) * s * g k + b k, ?_⟩
  funext k
  rw [hrow, hv, he, ← EReal.coe_add, hs, mean_coe]
  simp only [← EReal.coe_sub, ← EReal.coe_mul, ← EReal.coe_add]

theorem logits_coe {n d : ℕ} (W : Fin n → Fin d → ℝ) (h : Fin d → ℝ) :
    logits (fun j k => (W j k : EReal)) (fun k => (h k : EReal)) = fun j => ((∑ k, h k * W j k : ℝ) : EReal) := by
  funext j
  simp only [logits, ← EReal.coe_mul]
  exact coe_finset_sum _ _

theorem logits2_coe {n m d : ℕ} (B : Fin n → Fin m → ℝ) (A : Fin m → Fin d → ℝ) (h : Fin d → ℝ) :
    ∃ z : Fin n → ℝ, logits (fun j k => (B j k : EReal)) (logits (fun j k => (A j k : EReal)) (fun k => (h k : EReal)))
      = fun j => (z j : EReal) :=
  ⟨_, by rw [logits_coe, logits_coe]⟩

theorem pair_eq {n m : ℕ} (zh : Fin n → ℝ) (hn : 0 < n) (z : Fin m → ℝ) (hm : 0 < m) (i : Fin n) (c : Fin m) :
    (((zh i : ℝ) : EReal) - lse (fun j => (zh j : EReal))) + ((z c : ℝ) : EReal) - lse (fun j => (z j : EReal))
      = lsm (fun j => (zh j : EReal)) i + lsm (fun j => (z j : EReal)) c := by
  rw [sub_lse_eq_lsm zh hn i, ← sub_lse_eq_lsm z hm c]
  obtain ⟨a, ha⟩ := lsm_real zh hn i
  obtain ⟨L, hL⟩ := lse_real z hm
  rw [ha, hL, ← EReal.coe_add, ← EReal.coe_sub, ← EReal.coe_sub, ← EReal.coe_add]
  congr 1
  ring

theorem krowOf_eq_rrowOf (h : Fin 2048 → ℝ) (zh : Fin 1003 → ℝ)
    (A1 : Fin 512 → Fin 2048 → ℝ) (B1 : Fin 1000 → Fin 512 → ℝ)
    (A2 : Fin 128 → Fin 2048 → ℝ) (B2 : Fin 3000 → Fin 128 → ℝ)
    (A3 : Fin 32 → Fin 2048 → ℝ) (B3 : Fin 27000 → Fin 32 → ℝ) (l : BitVec 32) :
    krowOf (fun k => (h k : EReal)) (fun j => (zh j : EReal))
        (fun j k => (A1 j k : EReal)) (fun j k => (B1 j k : EReal))
        (fun j k => (A2 j k : EReal)) (fun j k => (B2 j k : EReal))
        (fun j k => (A3 j k : EReal)) (fun j k => (B3 j k : EReal)) l
      = rrowOf (fun k => (h k : EReal)) (fun j => (zh j : EReal))
        (fun j k => (A1 j k : EReal)) (fun j k => (B1 j k : EReal))
        (fun j k => (A2 j k : EReal)) (fun j k => (B2 j k : EReal))
        (fun j k => (A3 j k : EReal)) (fun j k => (B3 j k : EReal)) l := by
  obtain ⟨z1, hz1⟩ := logits2_coe B1 A1 h
  obtain ⟨z2, hz2⟩ := logits2_coe B2 A2 h
  obtain ⟨z3, hz3⟩ := logits2_coe B3 A3 h
  simp only [krowOf, rrowOf, out2K, lp3K, hz1, hz2, hz3, lse3_eq_lse]
  split_ifs
  · exact pair_eq zh (by norm_num) z3 (by norm_num) _ _
  · exact pair_eq zh (by norm_num) z2 (by norm_num) _ _
  · exact pair_eq zh (by norm_num) z1 (by norm_num) _ _
  · exact sub_lse_eq_lsm zh (by norm_num) _

theorem real_fun {ι : Type*} {f : ι → E} (h : ∀ i, ∃ r : ℝ, f i = (r : EReal)) : ∃ g : ι → ℝ, f = fun i => (g i : EReal) :=
  ⟨fun i => (h i).choose, funext fun i => (h i).choose_spec⟩

theorem real_fun₂ {ι κ : Type*} {f : ι → κ → E} (h : ∀ i k, ∃ r : ℝ, f i k = (r : EReal)) :
    ∃ g : ι → κ → ℝ, f = fun i k => (g i k : EReal) :=
  ⟨fun i k => (h i k).choose, funext fun i => funext fun k => (h i k).choose_spec⟩

theorem krow_eq_rrow (x g b : Fin 2048 → E) (Wh : Fin 1003 → Fin 2048 → E)
    (A1 : Fin 512 → Fin 2048 → E) (B1 : Fin 1000 → Fin 512 → E)
    (A2 : Fin 128 → Fin 2048 → E) (B2 : Fin 3000 → Fin 128 → E)
    (A3 : Fin 32 → Fin 2048 → E) (B3 : Fin 27000 → Fin 32 → E) (l : BitVec 32)
    (hx : ∀ k, ∃ r : ℝ, x k = (r : EReal)) (hg : ∀ k, ∃ r : ℝ, g k = (r : EReal)) (hb : ∀ k, ∃ r : ℝ, b k = (r : EReal))
    (hWh : ∀ j k, ∃ r : ℝ, Wh j k = (r : EReal))
    (hA1 : ∀ j k, ∃ r : ℝ, A1 j k = (r : EReal)) (hB1 : ∀ j k, ∃ r : ℝ, B1 j k = (r : EReal))
    (hA2 : ∀ j k, ∃ r : ℝ, A2 j k = (r : EReal)) (hB2 : ∀ j k, ∃ r : ℝ, B2 j k = (r : EReal))
    (hA3 : ∀ j k, ∃ r : ℝ, A3 j k = (r : EReal)) (hB3 : ∀ j k, ∃ r : ℝ, B3 j k = (r : EReal)) :
    krow x g b Wh A1 B1 A2 B2 A3 B3 l = rrow x g b Wh A1 B1 A2 B2 A3 B3 l := by
  obtain ⟨xr, rfl⟩ := real_fun hx
  obtain ⟨gr, rfl⟩ := real_fun hg
  obtain ⟨br, rfl⟩ := real_fun hb
  obtain ⟨Whr, rfl⟩ := real_fun₂ hWh
  obtain ⟨A1r, rfl⟩ := real_fun₂ hA1
  obtain ⟨B1r, rfl⟩ := real_fun₂ hB1
  obtain ⟨A2r, rfl⟩ := real_fun₂ hA2
  obtain ⟨B2r, rfl⟩ := real_fun₂ hB2
  obtain ⟨A3r, rfl⟩ := real_fun₂ hA3
  obtain ⟨B3r, rfl⟩ := real_fun₂ hB3
  obtain ⟨hr, hhr⟩ := hrow_coe xr gr br
  rw [krow, rrow, zH, hhr, logits_coe]
  exact krowOf_eq_rrowOf hr _ A1r B1r A2r B2r A3r B3r l

end Cert.Spec

end
-- ==== Proof.KFinal.lean ====
/- The kernel's sum over 4096 positions is the reference's over 4094 rows: the last position of each sequence carries the label -1 and adds nothing, and on finite inputs a kept row's value is the reference's. -/
import proofs.«407706_j38671885534012_3_alg».proof.Proof.KBlocks
import proofs.«407706_j38671885534012_3_alg».proof.Proof.SumIdx
import proofs.«407706_j38671885534012_3_alg».proof.Proof.MathRow

noncomputable section

namespace Cert.KernelIdeal.KFinal

open Idealize.ShloMosaic Idealize.ShloMosaic.ValueIdx Cert.KernelIdeal Cert.KernelIdeal.KBlocks Cert.Spec

variable (a0 : (⟨S2x2048x2048, .f32⟩ : BufTy).Contents (Elt Ideal)) (a1 : (⟨S2x2048, .i32⟩ : BufTy).Contents (Elt Ideal))
  (a2 a3 : (⟨S2048, .f32⟩ : BufTy).Contents (Elt Ideal)) (a4 : (⟨S1003x2048, .f32⟩ : BufTy).Contents (Elt Ideal))
  (a5 : (⟨S512x2048, .f32⟩ : BufTy).Contents (Elt Ideal)) (a6 : (⟨S1000x512, .f32⟩ : BufTy).Contents (Elt Ideal))
  (a7 : (⟨S128x2048, .f32⟩ : BufTy).Contents (Elt Ideal)) (a8 : (⟨S3000x128, .f32⟩ : BufTy).Contents (Elt Ideal))
  (a9 : (⟨S32x2048, .f32⟩ : BufTy).Contents (Elt Ideal)) (a10 : (⟨S27000x32, .f32⟩ : BufTy).Contents (Elt Ideal))

def rvalArgs (R : Fin 4094) : E :=
  rrow (fun k => a0 (ix3 (⟨R.val / 2047, by omega⟩ : Fin 2) (⟨R.val % 2047, by omega⟩ : Fin 2048) k))
    (fun k => a2 (ix1 k)) (fun k => a3 (ix1 k)) (fun j k => a4 (ix2 j k))
    (fun j k => a5 (ix2 j k)) (fun j k => a6 (ix2 j k)) (fun j k => a7 (ix2 j k)) (fun j k => a8 (ix2 j k))
    (fun j k => a9 (ix2 j k)) (fun j k => a10 (ix2 j k))
    (a1 (ix2 (⟨R.val / 2047, by omega⟩ : Fin 2) (⟨R.val % 2047 + 1, by omega⟩ : Fin 2048)))

theorem kvalArgs_last (b : Fin 2) :
    kvalArgs a0 a1 a2 a3 a4 a5 a6 a7 a8 a9 a10 ⟨2048 * b.val + 2047, by omega⟩ = 0 := by
  unfold kvalArgs kval
  have hl : labelOf a1 ⟨2048 * b.val + 2047, by omega⟩ = 4294967295#32 := by
    unfold labelOf
    rw [dif_neg (by dsimp only; omega)]
  rw [hl, if_neg (by decide)]

theorem kvalArgs_eq (b : Fin 2) (s : Fin 2047)
    (h0 : ∀ i, ∃ r : ℝ, a0 i = (r : EReal)) (h1 : ∀ i, 0 ≤ (a1 i).toInt) (h2 : ∀ i, ∃ r : ℝ, a2 i = (r : EReal))
    (h3 : ∀ i, ∃ r : ℝ, a3 i = (r : EReal)) (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal)) (h8 : ∀ i, ∃ r : ℝ, a8 i = (r : EReal))
    (h9 : ∀ i, ∃ r : ℝ, a9 i = (r : EReal)) (h10 : ∀ i, ∃ r : ℝ, a10 i = (r : EReal)) :
    kvalArgs a0 a1 a2 a3 a4 a5 a6 a7 a8 a9 a10 ⟨2048 * b.val + s.val, by omega⟩
      = rvalArgs a0 a1 a2 a3 a4 a5 a6 a7 a8 a9 a10 ⟨2047 * b.val + s.val, by omega⟩ := by
  have hb : (⟨(2048 * b.val + s.val) / 2048, by omega⟩ : Fin 2) = b := Fin.ext (by dsimp only; omega)
  have hs : (⟨(2048 * b.val + s.val) % 2048, by omega⟩ : Fin 2048) = ⟨s.val, by omega⟩ := Fin.ext (by dsimp only; omega)
  have hb' : (⟨(2047 * b.val + s.val) / 2047, by omega⟩ : Fin 2) = b := Fin.ext (by dsimp only; omega)
  have hs' : (⟨(2047 * b.val + s.val) % 2047, by omega⟩ : Fin 2048) = ⟨s.val, by omega⟩ := Fin.ext (by dsimp only; omega)
  have hs1' : (⟨(2047 * b.val + s.val) % 2047 + 1, by omega⟩ : Fin 2048) = ⟨s.val + 1, by omega⟩ := Fin.ext (by dsimp only; omega)
  have hl : labelOf a1 ⟨2048 * b.val + s.val, by omega⟩ = a1 (ix2 b (⟨s.val + 1, by omega⟩ : Fin 2048)) := by
    unfold labelOf
    rw [dif_pos (by dsimp only; omega)]
    have e : (⟨(2048 * b.val + s.val) % 2048 + 1, by omega⟩ : Fin 2048) = ⟨s.val + 1, by omega⟩ := Fin.ext (by dsimp only; omega)
    unfold rowB
    dsimp only
    rw [hb, e]
  unfold kvalArgs rvalArgs kval
  unfold rowB rowS
  dsimp only
  rw [hl, hb, hs, hb', hs', hs1', if_pos (h1 _)]
  exact krow_eq_rrow _ _ _ _ _ _ _ _ _ _ _ (fun k => h0 _) (fun k => h2 _) (fun k => h3 _) (fun j k => h4 _)
    (fun j k => h5 _) (fun j k => h6 _) (fun j k => h7 _) (fun j k => h8 _) (fun j k => h9 _) (fun j k => h10 _)

theorem rows_sum_eq
    (h0 : ∀ i, ∃ r : ℝ, a0 i = (r : EReal)) (h1 : ∀ i, 0 ≤ (a1 i).toInt) (h2 : ∀ i, ∃ r : ℝ, a2 i = (r : EReal))
    (h3 : ∀ i, ∃ r : ℝ, a3 i = (r : EReal)) (h4 : ∀ i, ∃ r : ℝ, a4 i = (r : EReal)) (h5 : ∀ i, ∃ r : ℝ, a5 i = (r : EReal))
    (h6 : ∀ i, ∃ r : ℝ, a6 i = (r : EReal)) (h7 : ∀ i, ∃ r : ℝ, a7 i = (r : EReal)) (h8 : ∀ i, ∃ r : ℝ, a8 i = (r : EReal))
    (h9 : ∀ i, ∃ r : ℝ, a9 i = (r : EReal)) (h10 : ∀ i, ∃ r : ℝ, a10 i = (r : EReal)) :
    (∑ t : Fin 32, ∑ r : Fin 128, kvalArgs a0 a1 a2 a3 a4 a5 a6 a7 a8 a9 a10 ⟨128 * t.val + r.val, by omega⟩)
      = ∑ R : Fin 4094, rvalArgs a0 a1 a2 a3 a4 a5 a6 a7 a8 a9 a10 R := by
  rw [Cert.SumIdx.sum_blocks_rows (kvalArgs a0 a1 a2 a3 a4 a5 a6 a7 a8 a9 a10), Cert.SumIdx.sum_batch_seq,
    Cert.SumIdx.sum_batch_seq' (rvalArgs a0 a1 a2 a3 a4 a5 a6 a7 a8 a9 a10)]
  refine Finset.sum_congr rfl fun b _ => ?_
  rw [Cert.SumIdx.sum_drop_last (fun s : Fin 2048 => kvalArgs a0 a1 a2 a3 a4 a5 a6 a7 a8 a9 a10 ⟨2048 * b.val + s.val, by omega⟩)
    (kvalArgs_last a0 a1 a2 a3 a4 a5 a6 a7 a8 a9 a10 b)]
  exact Finset.sum_congr rfl fun s _ => kvalArgs_eq a0 a1 a2 a3 a4 a5 a6 a7 a8 a9 a10 b s h0 h1 h2 h3 h4 h5 h6 h7 h8 h9 h10

end Cert.KernelIdeal.KFinal

end
-- ==== Proof.PreFacts.lean ====
/- The precondition read entry by entry: every float entry is a real number and every label is nonnegative. -/
import proofs.«407706_j38671885534012_3_alg».proof.Defs
import proofs.«407706_j38671885534012_3_alg».proof.Proof.Gen.Pre_finite_inputs
import Idealize.ShloMosaic.Lib.ReduceAll
import Idealize.ShloMosaic.Lib.ValueIdx
import Idealize.ShloMosaic.Lib.StableHlo.Predicate

noncomputable section

namespace Cert.Proof.PreFacts

open Idealize.ShloMosaic
open Cert.Pre_finite_inputs

instance subsingleton_S_ : Subsingleton S_.Idx := ⟨fun a b => funext fun d => d.elim0⟩

theorem inf_bits : Ideal.ofBits .f32 0x7F800000#32 = (⊤ : EReal) := by simp [Ideal.ofBits, Ideal.ieee]

theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : BitVec.ofBool (decide (max (x : EReal) (-(x : EReal)) < Ideal.ofBits .f32 0x7F800000#32)) = 1#1 := h
  rw [inf_bits, StableHlo.Predicate.ofBool_eq_one_iff, decide_eq_true_eq] at h'
  induction x using EReal.rec with
  | bot => simp at h'
  | coe r => exact ⟨r, rfl⟩
  | top => simp at h'

theorem real_of_all {s : Shape} {axes : List (Fin s.rank)} (x : FVec Ideal s .f32) (hb : S_.BroadcastsInDim s ![])
    (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) (i : s.Idx) : ∃ r : ℝ, x i = (r : EReal) :=
  real_of_abs_lt_inf (x i) (Host.reduce_andi_all _ _ hr hu ValueIdx.ix0 e i)

theorem nonneg_of_all {s : Shape} {axes : List (Fin s.rank)} (x : IVec s 32) (hb : S_.BroadcastsInDim s ![])
    (hr : s.ReducesTo axes S_) (hu : 0 < S_.numel)
    (e : Host.reduce IntOp.andi (cmpi .sge x (broadcastInDim s ![] hb (constantI S_ 32 0#32)))
      (constantI S_ 1 1#1) hr hu ValueIdx.ix0 = 1#1) (i : s.Idx) : 0 ≤ (x i).toInt := by
  have h : IntOp.cmpi .sge (x i) 0#32 = 1#1 := Host.reduce_andi_all _ _ hr hu ValueIdx.ix0 e i
  have h0 : (0#32 : BitVec 32).toInt = 0 := by decide
  rw [IntOp.cmpi_sge, h0] at h
  exact h

theorem of_pre [Cert.Pre_finite_inputs.Facts]
    (a0 : (⟨S2x2048x2048, .f32⟩ : BufTy).Contents (Elt Ideal)) (a1 : (⟨S2x2048, .i32⟩ : BufTy).Contents (Elt Ideal))
    (a2 : (⟨S2048, .f32⟩ : BufTy).Contents (Elt Ideal)) (a3 : (⟨S2048, .f32⟩ : BufTy).Contents (Elt Ideal))
    (a4 : (⟨S1003x2048, .f32⟩ : BufTy).Contents (Elt Ideal)) (a5 : (⟨S512x2048, .f32⟩ : BufTy).Contents (Elt Ideal))
    (a6 : (⟨S1000x512, .f32⟩ : BufTy).Contents (Elt Ideal)) (a7 : (⟨S128x2048, .f32⟩ : BufTy).Contents (Elt Ideal))
    (a8 : (⟨S3000x128, .f32⟩ : BufTy).Contents (Elt Ideal)) (a9 : (⟨S32x2048, .f32⟩ : BufTy).Contents (Elt Ideal))
    (a10 : (⟨S27000x32, .f32⟩ : BufTy).Contents (Elt Ideal))
    (h : Cert.Pre_finite_inputs.fn (F := Ideal) a0 a1 a2 a3 a4 a5 a6 a7 a8 a9 a10 = fun _ => 1#1) :
    (∀ i, ∃ r : ℝ, a0 i = (r : EReal)) ∧ (∀ i, 0 ≤ (a1 i).toInt) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) ∧ (∀ i, ∃ r : ℝ, a8 i = (r : EReal))
      ∧ (∀ i, ∃ r : ℝ, a9 i = (r : EReal)) ∧ (∀ i, ∃ r : ℝ, a10 i = (r : EReal)) := by
  have e := congrFun h ValueIdx.ix0
  dsimp only [fn, fn_part1, fn_part2, fn_part3, andi] at e
  simp only [IntOp.andi_eq_one] at e
  obtain ⟨⟨⟨⟨⟨⟨⟨⟨⟨⟨e0, e2⟩, e3⟩, e4⟩, e5⟩, e6⟩, e7⟩, e8⟩, e9⟩, e10⟩, e1⟩ := e
  exact ⟨real_of_all a0 _ _ _ e0, nonneg_of_all a1 _ _ _ e1, real_of_all a2 _ _ _ e2, real_of_all a3 _ _ _ e3,
    real_of_all a4 _ _ _ e4, real_of_all a5 _ _ _ e5, real_of_all a6 _ _ _ e6, real_of_all a7 _ _ _ e7,
    real_of_all a8 _ _ _ e8, real_of_all a9 _ _ _ e9, real_of_all a10 _ _ _ e10⟩

end Cert.Proof.PreFacts

end
-- ==== Proof.RefNorm.lean ====
/- The reference's LayerNorm at one position: mean, variance, and (x - mean) · rsqrt (var + eps) · gamma + beta. -/
import proofs.«407706_j38671885534012_3_alg».proof.Proof.ReadDev
import proofs.«407706_j38671885534012_3_alg».proof.Proof.Spec
import Idealize.ShloMosaic.Lib.ValueIdx
import Idealize.ShloMosaic.PureOps.Ideal.Laws

noncomputable section

namespace Cert.ReferenceIdeal.RefValue

open Cert.ReferenceIdeal.Gen Cert.ReferenceIdeal.Read Idealize.ShloMosaic Idealize.ShloMosaic.ValueIdx

section

variable (a0 : (⟨S2x2048x2048, .f32⟩ : BufTy).Contents (Elt Ideal)) (a2 a3 : (⟨S2048, .f32⟩ : BufTy).Contents (Elt Ideal))

theorem v3_at (b : Fin 2) (s : Fin 2048) :
    val_main_v3 (F := Ideal) a0 (ix3 b s (0 : Fin 1)) = Cert.Spec.mean (fun k => a0 (ix3 b s k)) := by
  rw [val_main_v3_apply, val_main_v1_apply, val_main_v0_apply, val_main_v2_apply]
  have hidx : ∀ k, idx_main_v0 (idx_main_v1 (ix3 b s (0 : Fin 1))) k = ix3 b s k := fun k => eq_ix3 _
  simp only [hidx]
  show Ideal.div (Ideal.ofBits .f32 0x00000000#32 + ∑ k : Fin 2048, a0 (ix3 b s k)) (Ideal.ofBits .f32 0x45000000#32) = _
  rw [Ideal.ofBits_zero_f32, zero_add]
  rfl

theorem v5_at (b : Fin 2) (s k : Fin 2048) :
    val_main_v5 (F := Ideal) a0 (ix3 b s k) = (a0 (ix3 b s k) : EReal) - Cert.Spec.mean (fun k => a0 (ix3 b s k)) := by
  rw [val_main_v5_apply, val_main_v4_apply]
  have hidx : idx_main_v4 (ix3 b s k) = ix3 b s (0 : Fin 1) := eq_ix3 _
  rw [hidx, v3_at]
  rfl

theorem v10_at (b : Fin 2) (s : Fin 2048) :
    val_main_v10 (F := Ideal) a0 (ix3 b s (0 : Fin 1)) = Cert.Spec.var (fun k => a0 (ix3 b s k)) := by
  rw [val_main_v10_apply, val_main_v8_apply, val_main_v7_apply, val_main_v9_apply]
  have hidx : ∀ k, idx_main_v7 (idx_main_v8 (ix3 b s (0 : Fin 1))) k = ix3 b s k := fun k => eq_ix3 _
  simp only [hidx, val_main_v6_apply, v5_at]
  show Ideal.div (Ideal.ofBits .f32 0x00000000#32 + _) (Ideal.ofBits .f32 0x45000000#32) = _
  rw [Ideal.ofBits_zero_f32, zero_add]
  rfl

theorem v23_at (b : Fin 2) (s k : Fin 2048) :
    val_main_v23 (F := Ideal) a0 a2 a3 (ix3 b s k)
      = Cert.Spec.hrow (fun k => a0 (ix3 b s k)) (fun k => a2 (ix1 k)) (fun k => a3 (ix1 k)) k := by
  rw [val_main_v23_apply, val_main_v20_apply, val_main_v17_apply, val_main_v12_apply, val_main_v11_apply,
    val_main_v16_apply, val_main_v15_apply, val_main_v14_apply, val_main_v13_apply, val_main_v19_apply,
    val_main_v18_apply, val_main_v22_apply, val_main_v21_apply]
  have h11 : idx_main_v11 (ix3 b s k) = ix3 b s (0 : Fin 1) := eq_ix3 _
  have h16 : idx_main_v16 (ix3 b s k) = ix3 b s (0 : Fin 1) := eq_ix3 _
  have h19 : idx_main_v18 (idx_main_v19 (ix3 b s k)) = ix1 k := eq_ix1 _
  have h22 : idx_main_v21 (idx_main_v22 (ix3 b s k)) = ix1 k := eq_ix1 _
  rw [h11, h16, h19, h22, v3_at, v10_at]
  rfl

end

end Cert.ReferenceIdeal.RefValue

end
-- ==== Proof.RefHead.lean ====
/- Row R of the reference is batch R / 2047, position R % 2047; its label sits one position later. -/
import proofs.«407706_j38671885534012_3_alg».proof.Proof.ReadDev
import proofs.«407706_j38671885534012_3_alg».proof.Proof.RefNorm
import proofs.«407706_j38671885534012_3_alg».proof.Proof.Spec
import Idealize.ShloMosaic.Lib.ValueIdx
import Idealize.ShloMosaic.PureOps.Ideal.Laws

noncomputable section

namespace Cert.ReferenceIdeal.RefValue

open Cert.ReferenceIdeal.Gen Cert.ReferenceIdeal.Read Idealize.ShloMosaic Idealize.ShloMosaic.ValueIdx

def rb (R : Fin 4094) : Fin 2 := ⟨R.val / 2047, by omega⟩

def rs (R : Fin 4094) : Fin 2048 := ⟨R.val % 2047, by omega⟩

def rs1 (R : Fin 4094) : Fin 2048 := ⟨R.val % 2047 + 1, by omega⟩

abbrev vec {n : ℕ} (a : (⟨⟨1, ![n]⟩, .f32⟩ : BufTy).Contents (Elt Ideal)) : Fin n → EReal := fun k => a (ix1 k)

abbrev mat {n d : ℕ} (a : (⟨⟨2, ![n, d]⟩, .f32⟩ : BufTy).Contents (Elt Ideal)) : Fin n → Fin d → EReal :=
  fun j k => a (ix2 j k)

section

variable (a0 : (⟨S2x2048x2048, .f32⟩ : BufTy).Contents (Elt Ideal)) (a1 : (⟨S2x2048, .i32⟩ : BufTy).Contents (Elt Ideal))
  (a2 a3 : (⟨S2048, .f32⟩ : BufTy).Contents (Elt Ideal)) (a4 : (⟨S1003x2048, .f32⟩ : BufTy).Contents (Elt Ideal))

abbrev xRow (R : Fin 4094) : Fin 2048 → EReal := fun k => a0 (ix3 (rb R) (rs R) k)

abbrev lab (R : Fin 4094) : BitVec 32 := a1 (ix2 (rb R) (rs1 R))

abbrev hRow (R : Fin 4094) : Fin 2048 → EReal := Cert.Spec.hrow (xRow a0 R) (vec a2) (vec a3)

abbrev zHead (R : Fin 4094) : Fin 1003 → EReal := Cert.Spec.zH (xRow a0 R) (vec a2) (vec a3) (mat a4)

theorem v25_row (R : Fin 4094) (k : Fin 2048) :
    val_main_v25 (F := Ideal) a0 a2 a3 (ix2 R k) = hRow a0 a2 a3 R k := by
  have hR := R.isLt
  have hk := k.isLt
  have e : idx_main_v24 (idx_main_v25 (ix2 R k)) = ix3 (rb R) (rs R) k := funext fun a => Fin.ext (by
    match a with
    | ⟨0, _⟩ => show (R.val * 2048 + k.val) / 4192256 = R.val / 2047; omega
    | ⟨1, _⟩ => show (R.val * 2048 + k.val) / 2048 % 2047 = R.val % 2047; omega
    | ⟨2, _⟩ => show (R.val * 2048 + k.val) % 2048 = k.val; omega)
  rw [val_main_v25_apply, val_main_v24_apply, e, v23_at]

theorem v27_row (R : Fin 4094) : val_main_v27 (F := Ideal) a1 (ix1 R) = lab a1 R := by
  have e : idx_main_v26 (idx_main_v27 (ix1 R)) = ix2 (rb R) (rs1 R) := funext fun a => Fin.ext (by
    match a with
    | ⟨0, _⟩ => rfl
    | ⟨1, _⟩ => show 1 + R.val % 2047 = R.val % 2047 + 1; omega)
  rw [val_main_v27_apply, val_main_v26_apply, e]

end

end Cert.ReferenceIdeal.RefValue

end
-- ==== Proof.RefLib.lean ====
import proofs.«407706_j38671885534012_3_alg».proof.Proof.Spec
import Idealize.ShloMosaic.Lib.Pipeline.Value
import Idealize.ShloMosaic.Lib.ValueIdx
import Idealize.ShloMosaic.PureOps.Ideal.Laws
import Idealize.ShloMosaic.Lib.StableHlo.Predicate

noncomputable section

namespace Cert.ReferenceIdeal.RefLib

open Idealize.ShloMosaic Idealize.ShloMosaic.StableHlo Idealize.ShloMosaic.ValueIdx

section Words

theorem clip_toInt (hi l : BitVec 32) (hhi : 0 ≤ hi.toInt) :
    (IntOp.minsi hi (IntOp.maxsi 0#32 l)).toInt = max 0 (min l.toInt hi.toInt) := by
  have h0 : (0#32 : BitVec 32).toInt = 0 := by decide
  unfold IntOp.minsi IntOp.maxsi
  simp only [BitVec.slt, decide_eq_true_eq]
  split_ifs <;> omega

theorem select_neg_of_nonneg {β : Type} (c : BitVec 32) (hc : 0 ≤ c.toInt) (a b : β) :
    Scalar.select (IntOp.cmpi .slt c 0#32) a b = b := by
  have h0 : (0#32 : BitVec 32).toInt = 0 := by decide
  have : IntOp.cmpi .slt c 0#32 = 0#1 := by
    unfold IntOp.cmpi
    simp only [BitVec.slt]
    rw [h0, decide_eq_false (by omega)]
    rfl
  rw [this]
  exact select_zero a b

/-- A row number is not negative, so the wrap-around branch is never taken. -/
theorem rowIdx_read (r : ℕ) (hr : r < 2 ^ 31) (w : BitVec 32) :
    (Scalar.select (IntOp.cmpi .slt (BitVec.ofNat 32 r) 0#32) w (BitVec.ofNat 32 r)).toInt = r := by
  have h := Predicate.toInt_ofNat_small r hr
  rw [select_neg_of_nonneg, h]
  rw [h]; omega

/-- Where the label is at least the lower end the subtraction does not wrap, and the clip is `Spec.clipIdx`. -/
theorem clip_sub (l : BitVec 32) (low n : ℕ) (hn : 0 < n) (hlow : low < 2 ^ 30) (hn' : n < 2 ^ 30)
    (h0 : (low : ℤ) ≤ l.toInt) :
    max 0 (min (IntOp.subi l (BitVec.ofNat 32 low)).toInt (BitVec.ofNat 32 (n - 1)).toInt)
      = (Cert.Spec.clipIdx l low n hn).val := by
  have hl1 := BitVec.toInt_lt (x := l)
  have hl2 := BitVec.le_toInt l
  have hlo := Predicate.toInt_ofNat_small low (by omega)
  have hv : (IntOp.subi l (BitVec.ofNat 32 low)).toInt = l.toInt - low := by
    unfold IntOp.subi
    rw [BitVec.toInt_sub, hlo, Int.bmod_def]
    split <;> omega
  rw [hv, Predicate.toInt_ofNat_small (n - 1) (by omega)]
  show _ = ((max 0 (min (l.toInt - (low : ℤ)) ((n : ℤ) - 1))).toNat : ℤ)
  omega

/-- Two signed compares joined by `and` test the label's range; the gathered summand is read only inside it. -/
theorem select_range {l' l lo hi : BitVec 32} {low high : ℤ} {p g q p' g' : EReal} (hl : l' = l) (hlo : lo.toInt = low)
    (hhi : hi.toInt = high) (hp : p = p') (hg : low ≤ l.toInt → g = g') :
    Scalar.select (IntOp.andi (IntOp.cmpi .sge l' lo) (IntOp.cmpi .slt l' hi)) (p + g) q
      = if Cert.Spec.inRange l low high then p' + g' else q := by
  subst hl hlo hhi hp
  refine Eq.trans ?_ (if_ctx_congr Iff.rfl (fun h => congrArg (p + ·) (hg h.1)) fun _ => rfl)
  unfold Scalar.select IntOp.andi IntOp.cmpi Cert.Spec.inRange
  simp only [BitVec.ofBool_and_ofBool]
  by_cases h1 : lo.toInt ≤ l'.toInt <;> by_cases h2 : l'.toInt < hi.toInt <;>
    simp [BitVec.sle, BitVec.slt, h1, h2]

end Words

section Gather
variable {α : Type}

/-- The dimension numbers of `x[rows, cols]`: one element per row of a two-column index array. -/
abbrev pairDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- Each start index, already inside its axis, is read as it stands. -/
theorem gather_pair_apply_of {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) (i : Fin N) (j : Fin M)
    (h0 : (idx (ix2 r 0)).toInt = i.val) (h1 : (idx (ix2 r 1)).toInt = j.val) :
    Host.gather (pairDims N M R wf) x idx (ix1 r) = x (ix2 i j) := by
  unfold Host.gather
  refine congrArg x (funext fun a => Fin.ext ?_)
  show (pairDims N M R wf).start (ix1 r) idx a + (pairDims N M R wf).batchCoord (ix1 r) a
    + (pairDims N M R wf).offCoord (ix1 r) a = _
  have ha : a ∈ ([0, 1] : List (Fin 2)) := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 ha)]
  simp only [Nat.add_zero]
  unfold GatherDims.start
  rw [dif_pos (show a ∈ (pairDims N M R wf).startIndexMap from ha)]
  have hi := i.isLt
  have hj := j.isLt
  match a with
  | ⟨0, hb⟩ =>
    have hsi : (pairDims N M R wf).siIdx (ix1 r) ⟨List.idxOf (⟨0, hb⟩ : Fin _) (pairDims N M R wf).startIndexMap,
        List.idxOf_lt_length_iff.2 ha⟩ = ix2 r 0 := funext fun b => Fin.ext (by
      match b with
      | ⟨0, _⟩ => rfl
      | ⟨1, _⟩ => rfl)
    show min (idx _).toInt.toNat (N - 1) = i.val
    rw [hsi, h0]
    omega
  | ⟨1, hb⟩ =>
    have hsi : (pairDims N M R wf).siIdx (ix1 r) ⟨List.idxOf (⟨1, hb⟩ : Fin _) (pairDims N M R wf).startIndexMap,
        List.idxOf_lt_length_iff.2 ha⟩ = ix2 r 1 := funext fun b => Fin.ext (by
      match b with
      | ⟨0, _⟩ => rfl
      | ⟨1, _⟩ => rfl)
    show min (idx _).toInt.toNat (M - 1) = j.val
    rw [hsi, h1]
    omega

/-- Column 0 of two joined columns is the first. -/
theorem concat_cols_apply0 {R : Nat} (a b : (⟨2, ![R, 1]⟩ : Shape).Idx → α)
    (h : Shape.Concatenates [⟨2, ![R, 1]⟩, ⟨2, ![R, 1]⟩] ⟨2, ![R, 2]⟩ 1) (r : Fin R) :
    concatenate ⟨2, ![R, 2]⟩ 1 [⟨⟨2, ![R, 1]⟩, a⟩, ⟨⟨2, ![R, 1]⟩, b⟩] h (ix2 r 0) = a (ix2 r 0) :=
  concatenate_pair_apply_left 1 a b h (ix2 r 0) rfl (ix2 r 0) (fun c => by
    match c with
    | ⟨0, _⟩ => rfl
    | ⟨1, _⟩ => rfl)

/-- Column 1 is the second. -/
theorem concat_cols_apply1 {R : Nat} (a b : (⟨2, ![R, 1]⟩ : Shape).Idx → α)
    (h : Shape.Concatenates [⟨2, ![R, 1]⟩, ⟨2, ![R, 1]⟩] ⟨2, ![R, 2]⟩ 1) (r : Fin R) :
    concatenate ⟨2, ![R, 2]⟩ 1 [⟨⟨2, ![R, 1]⟩, a⟩, ⟨⟨2, ![R, 1]⟩, b⟩] h (ix2 r 1) = b (ix2 r 0) :=
  concatenate_pair_apply_right 1 a b h (ix2 r 1) rfl rfl (ix2 r 0) (fun c hc => by
    match c with
    | ⟨0, _⟩ => rfl
    | ⟨1, _⟩ => exact absurd rfl hc) rfl

end Gather

section Broadcast
variable {α : Type} {R N : Nat}

/-- A vector laid out as a column, at row `r`. -/
theorem bcast_col_apply (h1 : (⟨1, ![R]⟩ : Shape).BroadcastsInDim ⟨2, ![R, 1]⟩ ![0]) (v : (⟨1, ![R]⟩ : Shape).Idx → α)
    (r : Fin R) : broadcastInDim ⟨2, ![R, 1]⟩ ![0] h1 v (ix2 r 0) = v (ix1 r) :=
  broadcastInDim_apply _ h1 v _ _ fun a => by
    have := r.isLt
    match a with
    | ⟨0, _⟩ => show r.val = if R = 1 then 0 else r.val; split <;> omega

/-- A column laid along the rows, at row `r`. -/
theorem bcast_rows_apply (h2 : (⟨2, ![R, 1]⟩ : Shape).BroadcastsInDim ⟨2, ![R, N]⟩ ![0, 1])
    (v : (⟨2, ![R, 1]⟩ : Shape).Idx → α) (r : Fin R) (j : Fin N) :
    broadcastInDim ⟨2, ![R, N]⟩ ![0, 1] h2 v (ix2 r j) = v (ix2 r 0) :=
  broadcastInDim_apply _ h2 v _ _ fun a => by
    have := r.isLt
    match a with
    | ⟨0, _⟩ => show r.val = if R = 1 then 0 else r.val; split <;> omega
    | ⟨1, _⟩ => rfl

end Broadcast

section Reduce

/-- A maximum-reduce over the columns from minus infinity is the row's maximum. -/
theorem reduce_max_row {R N : Nat} (x : (⟨2, ![R, N]⟩ : Shape).Idx → EReal) (init : (⟨0, ![]⟩ : Shape).Idx → EReal)
    (h' : (⟨2, ![R, N]⟩ : Shape).ReducesTo [1] ⟨1, ![R]⟩) (h : (⟨2, ![R, N]⟩ : Shape).Reduces [1] ⟨1, ![R]⟩)
    (hu : 0 < (⟨0, ![]⟩ : Shape).numel) (hinit : ∀ i, init i = Cert.Spec.ninf) (r : Fin R) :
    Host.reduce (FloatOps.maximumf (F := Ideal) (φ := .f32)) x init h' hu (ix1 r)
      = Cert.Spec.rowMax (fun j : Fin N => x (ix2 r j)) := by
  rw [Host.reduce_eq_fold_single _ x init h' h hu (ix1 r), hinit]
  exact congrArg (Finset.univ.fold max Cert.Spec.ninf) (funext fun k => congrArg x (eq_ix2 _))

/-- A fold of `max` is at least its starting value. -/
theorem max_ninf_rowMax {n : ℕ} (z : Fin n → EReal) :
    max Cert.Spec.ninf (Cert.Spec.rowMax z) = Cert.Spec.rowMax z :=
  max_eq_right (by unfold Cert.Spec.rowMax; exact (Finset.le_fold_max _).2 (Or.inl le_rfl))

/-- The maximum taken once more against minus infinity and the sum started from the word zero change nothing. -/
theorem lsm_read {n : ℕ} (z : Fin n → EReal) (j : Fin n) :
    (z j - max Cert.Spec.ninf (Cert.Spec.rowMax z))
        - Ideal.log (Ideal.ofBits .f32 0x00000000#32
            + ∑ k, Ideal.exp (z k - max Cert.Spec.ninf (Cert.Spec.rowMax z)))
      = Cert.Spec.lsm z j := by
  rw [max_ninf_rowMax, Ideal.ofBits_zero_f32, zero_add]
  rfl

end Reduce

section LogSoftmax
variable {R N : Nat} (x : FVec Ideal ⟨2, ![R, N]⟩ .f32)
  (h0 : (⟨0, ![]⟩ : Shape).BroadcastsInDim ⟨1, ![R]⟩ ![])
  (h1 : (⟨1, ![R]⟩ : Shape).BroadcastsInDim ⟨2, ![R, 1]⟩ ![0])
  (h2 : (⟨2, ![R, 1]⟩ : Shape).BroadcastsInDim ⟨2, ![R, N]⟩ ![0, 1])
  (hr : (⟨2, ![R, N]⟩ : Shape).ReducesTo [1] ⟨1, ![R]⟩) (hu : 0 < (⟨0, ![]⟩ : Shape).numel)

/-- The array less its rows' maxima, as the reference computes it. -/
def lsmSub : FVec Ideal ⟨2, ![R, N]⟩ .f32 :=
  subf x (broadcastInDim ⟨2, ![R, N]⟩ ![0, 1] h2 (broadcastInDim ⟨2, ![R, 1]⟩ ![0] h1
    (maximumf (broadcastInDim ⟨1, ![R]⟩ ![] h0 (constant ⟨0, ![]⟩ .f32 0xFF800000#32))
      (Host.reduce FloatOps.maximumf x (constant (F := Ideal) ⟨0, ![]⟩ .f32 0xFF800000#32) hr hu))))

/-- The reference's log-softmax along the rows. -/
def logSoftmax : FVec Ideal ⟨2, ![R, N]⟩ .f32 :=
  subf (lsmSub x h0 h1 h2 hr hu) (broadcastInDim ⟨2, ![R, N]⟩ ![0, 1] h2 (Host.log (broadcastInDim ⟨2, ![R, 1]⟩ ![0] h1
    (Host.reduceAdd (Host.exp (lsmSub x h0 h1 h2 hr hu)) (constant (F := Ideal) ⟨0, ![]⟩ .f32 0x00000000#32) hr hu))))

/-- Row by row it is `Spec.lsm`. -/
theorem logSoftmax_apply (hr' : (⟨2, ![R, N]⟩ : Shape).Reduces [1] ⟨1, ![R]⟩) (r : Fin R) (j : Fin N) :
    logSoftmax x h0 h1 h2 hr hu (ix2 r j) = Cert.Spec.lsm (fun k => x (ix2 r k)) j := by
  have hs : ∀ k, lsmSub x h0 h1 h2 hr hu (ix2 r k)
      = x (ix2 r k) - max Cert.Spec.ninf (Cert.Spec.rowMax fun k => x (ix2 r k)) := fun k =>
    congrArg (x (ix2 r k) - ·) (((bcast_rows_apply h2 _ r k).trans (bcast_col_apply h1 _ r)).trans
      (congrArg (max Cert.Spec.ninf) (reduce_max_row x _ hr hr' hu (fun _ => rfl) r)))
  have hsum : Host.reduceAdd (Host.exp (lsmSub x h0 h1 h2 hr hu)) (constant (F := Ideal) ⟨0, ![]⟩ .f32 0x00000000#32) hr hu (ix1 r)
      = Ideal.ofBits .f32 0x00000000#32
        + ∑ k, Ideal.exp (x (ix2 r k) - max Cert.Spec.ninf (Cert.Spec.rowMax fun k => x (ix2 r k))) := by
    simp only [Host.reduceAdd, Ideal.hostReduceAdd_def]
    rw [Ideal.hostReduceAdd_single hr hr']
    refine congrArg (_ + ·) (Finset.sum_congr rfl fun k _ => ?_)
    exact (congrArg _ (eq_ix2 _)).trans (congrArg Ideal.exp (hs k))
  exact (congrArg₂ (fun a b : EReal => a - b) (hs j) ((bcast_rows_apply h2 _ r j).trans
    (congrArg Ideal.log ((bcast_col_apply h1 _ r).trans hsum)))).trans (lsm_read (fun k => x (ix2 r k)) j)

end LogSoftmax

section Tail
variable {α : Type} {R N : Nat} (h0 : (⟨0, ![]⟩ : Shape).BroadcastsInDim ⟨1, ![R]⟩ ![])
  (h1 : (⟨1, ![R]⟩ : Shape).BroadcastsInDim ⟨2, ![R, 1]⟩ ![0])
  (hc : Shape.Concatenates [⟨2, ![R, 1]⟩, ⟨2, ![R, 1]⟩] ⟨2, ![R, 2]⟩ 1)

/-- A word laid along the rows. -/
abbrev splat (b : BitVec 32) : IVec ⟨1, ![R]⟩ 32 := broadcastInDim ⟨1, ![R]⟩ ![] h0 (constantI ⟨0, ![]⟩ 32 b)

/-- An index vector wrapped by `n` where negative, as a column. -/
def wrapCol (v : IVec ⟨1, ![R]⟩ 32) (n : BitVec 32) : IVec ⟨2, ![R, 1]⟩ 32 :=
  broadcastInDim ⟨2, ![R, 1]⟩ ![0] h1 (select (cmpi .slt v (splat h0 0#32)) (addi v (splat h0 n)) v)

/-- A gather's index array: the row number beside `rel` clipped into `[0, hi]`, each wrapped where negative. -/
def tailIdx (iota rel : IVec ⟨1, ![R]⟩ 32) (rows hi n : BitVec 32) : IVec ⟨2, ![R, 2]⟩ 32 :=
  concatenate ⟨2, ![R, 2]⟩ 1 [⟨⟨2, ![R, 1]⟩, wrapCol h0 h1 iota rows⟩,
    ⟨⟨2, ![R, 1]⟩, wrapCol h0 h1 (minsi (splat h0 hi) (maxsi (splat h0 0#32) rel)) n⟩] hc

/-- Neither index is negative, so nothing wraps or clamps: the gather reads row `r` at the clipped class `c`. -/
theorem gather_tail (x : (⟨2, ![R, N]⟩ : Shape).Idx → α)
    (wf : GatherDims.WF ⟨2, ![R, N]⟩ ⟨2, ![R, 2]⟩ ⟨1, ![R]⟩ [] [0, 1] [] [0, 1] [] 1 ![1, 1])
    (iota rel : IVec ⟨1, ![R]⟩ 32) (rows hi n v : BitVec 32) (r : Fin R) (c : Fin N)
    (hr : iota (ix1 r) = BitVec.ofNat 32 r.val) (hv : rel (ix1 r) = v) (hR : R < 2 ^ 31) (hhi : 0 ≤ hi.toInt)
    (hcl : max 0 (min v.toInt hi.toInt) = c.val) :
    Host.gather (pairDims R N R wf) x (tailIdx h0 h1 hc iota rel rows hi n) (ix1 r) = x (ix2 r c) := by
  subst hv
  have := r.isLt
  have := c.isLt
  refine gather_pair_apply_of (by omega) (by omega) wf x _ r r c ?_ ?_
  · refine (congrArg BitVec.toInt ((concat_cols_apply0 _ _ hc r).trans (bcast_col_apply h1 _ r))).trans ?_
    show (Scalar.select (IntOp.cmpi .slt (iota (ix1 r)) 0#32) _ (iota (ix1 r))).toInt = _
    rw [hr]
    exact rowIdx_read r.val (by omega) _
  · refine (congrArg BitVec.toInt ((concat_cols_apply1 _ _ hc r).trans (bcast_col_apply h1 _ r))).trans ?_
    show BitVec.toInt (Scalar.select (IntOp.cmpi .slt (IntOp.minsi hi (IntOp.maxsi 0#32 (rel (ix1 r)))) 0#32) _
      (IntOp.minsi hi (IntOp.maxsi 0#32 (rel (ix1 r))))) = _
    rw [select_neg_of_nonneg, clip_toInt _ _ hhi, hcl]
    rw [clip_toInt _ _ hhi, hcl]; omega

end Tail

section Col
variable {α : Type} {R M : Nat}

/-- Column `c` of an array, sliced out and flattened, at row `r`. -/
theorem col_apply (x : (⟨2, ![R, M]⟩ : Shape).Idx → α) (c : ℕ) (hs : (⟨2, ![R, M]⟩ : Shape).Slices ![0, c] ⟨2, ![R, 1]⟩)
    (hc : (⟨2, ![R, 1]⟩ : Shape).ShapeCasts ⟨1, ![R]⟩) (r : Fin R) (hcM : c < M) :
    shapeCast ⟨1, ![R]⟩ (extractStridedSlice ⟨2, ![R, 1]⟩ ![0, c] x hs) hc (ix1 r) = x (ix2 r ⟨c, hcM⟩) :=
  (shapeCast_apply _ hc _ (ix2 r 0) (by
    rw [Shape.rowMajor_val_two, Shape.rowMajor_val_one]; show r.val * 1 + 0 = r.val; omega)).trans
    (extractStridedSlice_apply _ x hs _ _ fun a => by
      match a with
      | ⟨0, _⟩ => exact (Nat.zero_add _).symm
      | ⟨1, _⟩ => rfl)

end Col

end Cert.ReferenceIdeal.RefLib

end
-- ==== Proof.RefHeadB.lean ====
/- The head's logits of a row and their log-softmax. -/
import proofs.«407706_j38671885534012_3_alg».proof.Proof.RefHead
import proofs.«407706_j38671885534012_3_alg».proof.Proof.RefLib

noncomputable section

namespace Cert.ReferenceIdeal.RefValue

open Cert.ReferenceIdeal.Gen Cert.ReferenceIdeal.Read Cert.ReferenceIdeal.RefLib Idealize.ShloMosaic Idealize.ShloMosaic.ValueIdx

section

variable (a0 : (⟨S2x2048x2048, .f32⟩ : BufTy).Contents (Elt Ideal))
  (a2 a3 : (⟨S2048, .f32⟩ : BufTy).Contents (Elt Ideal)) (a4 : (⟨S1003x2048, .f32⟩ : BufTy).Contents (Elt Ideal))

/-- The head's logits: the normalised row against each weight row, the weights read transposed. -/
theorem v30_row (R : Fin 4094) (j : Fin 1003) :
    val_main_v30 (F := Ideal) a0 a2 a3 a4 (ix2 R j) = zHead a0 a2 a3 a4 R j := by
  rw [val_main_v30_apply]
  show _ = ∑ k : Fin 2048, hRow a0 a2 a3 R k * a4 (ix2 j k)
  refine Finset.sum_congr rfl fun k _ => ?_
  rw [val_main_v29_apply, show lidx_main_v30 (ix2 R j) k = ix2 R k from eq_ix2 _,
    show idx_main_v29 (ridx_main_v30 (ix2 R j) k) = ix2 j k from eq_ix2 _, v25_row]

/-- The head's log-softmax is the general one, of the head's logits. -/
theorem v31_row (R : Fin 4094) (j : Fin 1003) :
    val_main_v31 (F := Ideal) a0 a2 a3 a4 (ix2 R j) = Cert.Spec.lsm (zHead a0 a2 a3 a4 R) j :=
  (logSoftmax_apply _ bcast_S_S4094 bcast_S4094_S4094x1_0 bcast_S4094x1_S4094x1003_0_1
    reducesTo_S4094x1003_S4094_d1 h_S_ (by decide) R j).trans
    (congrArg (Cert.Spec.lsm · j) (funext (v30_row a0 a2 a3 a4 R)))

end

end Cert.ReferenceIdeal.RefValue

end
-- ==== Proof.RefHeadC.lean ====
/- The head's gather reads the row's log-softmax at the label clipped to the shortlist: neither index is negative, so nothing wraps or clamps. -/
import proofs.«407706_j38671885534012_3_alg».proof.Proof.RefHeadB
import proofs.«407706_j38671885534012_3_alg».proof.Proof.RefLib

noncomputable section

namespace Cert.ReferenceIdeal.RefValue

open Cert.ReferenceIdeal.Gen Cert.ReferenceIdeal.Read Cert.ReferenceIdeal.RefLib Idealize.ShloMosaic Idealize.ShloMosaic.ValueIdx

section

variable (a0 : (⟨S2x2048x2048, .f32⟩ : BufTy).Contents (Elt Ideal)) (a1 : (⟨S2x2048, .i32⟩ : BufTy).Contents (Elt Ideal))
  (a2 a3 : (⟨S2048, .f32⟩ : BufTy).Contents (Elt Ideal)) (a4 : (⟨S1003x2048, .f32⟩ : BufTy).Contents (Elt Ideal))

/-- The label clipped into the shortlist is `Spec.idxH`. -/
theorem idxH_val (l : BitVec 32) : max 0 (min l.toInt (999#32 : BitVec 32).toInt) = ((Cert.Spec.idxH l).val : ℤ) := by
  rw [show (999#32 : BitVec 32).toInt = 999 by decide]
  show _ = (((max 0 (min (l.toInt - 0) (((1000 : ℕ) : ℤ) - 1))).toNat : ℕ) : ℤ)
  omega

/-- The head's gather is the general one, at the label itself and the shortlist's last class. -/
theorem v46_row (R : Fin 4094) :
    val_main_v46 (F := Ideal) a0 a1 a2 a3 a4 (ix1 R)
      = Cert.Spec.lsm (zHead a0 a2 a3 a4 R) (Cert.Spec.idxH (lab a1 R)) :=
  (gather_tail bcast_S_S4094 bcast_S4094_S4094x1_0 concatenates_S4094x1_S4094x1_S4094x2_d1 _
    gather_S4094x1003_S4094x2_S4094_n_01_n_n_01_1_11_wf (val_main_v28 (F := Ideal)) _ 4094#32 999#32 1003#32 _ R _ rfl
    (v27_row a1 R) (by decide) (by decide) (idxH_val _)).trans (v31_row a0 a2 a3 a4 R _)

end

end Cert.ReferenceIdeal.RefValue

end
-- ==== Proof.RefC1.lean ====
import proofs.«407706_j38671885534012_3_alg».proof.Proof.RefHeadB
import proofs.«407706_j38671885534012_3_alg».proof.Proof.RefLib

noncomputable section

namespace Cert.ReferenceIdeal.RefValue

open Cert.ReferenceIdeal.Gen Cert.ReferenceIdeal.Read Cert.ReferenceIdeal.RefLib Idealize.ShloMosaic Idealize.ShloMosaic.ValueIdx

section

variable (a0 : (⟨S2x2048x2048, .f32⟩ : BufTy).Contents (Elt Ideal))
  (a1 : (⟨S2x2048, .i32⟩ : BufTy).Contents (Elt Ideal))
  (a2 a3 : (⟨S2048, .f32⟩ : BufTy).Contents (Elt Ideal))
  (a4 : (⟨S1003x2048, .f32⟩ : BufTy).Contents (Elt Ideal))
  (a5 : (⟨S512x2048, .f32⟩ : BufTy).Contents (Elt Ideal))
  (a6 : (⟨S1000x512, .f32⟩ : BufTy).Contents (Elt Ideal))

/-- The cluster's logits of row `R`. -/
abbrev zc1 (R : Fin 4094) : Fin 1000 → EReal :=
  Cert.Spec.logits (mat a6) (Cert.Spec.logits (mat a5) (hRow a0 a2 a3 R))

/-- Both products sum over the contracted axis, each weight matrix read transposed. -/
theorem v50_row (R : Fin 4094) (j : Fin 1000) :
    val_main_v50 (F := Ideal) a0 a2 a3 a5 a6 (ix2 R j) = zc1 a0 a2 a3 a5 a6 R j := by
  rw [val_main_v50_apply]
  unfold zc1 Cert.Spec.logits
  refine Finset.sum_congr rfl fun k _ => ?_
  rw [show lidx_main_v50 (ix2 R j) k = ix2 R k from eq_ix2 _, val_main_v49_apply,
    show idx_main_v49 (ridx_main_v50 (ix2 R j) k) = ix2 j k from eq_ix2 _, val_main_v48_apply]
  congr 1
  refine Finset.sum_congr rfl fun k' _ => ?_
  rw [show lidx_main_v48 (ix2 R k) k' = ix2 R k' from eq_ix2 _, val_main_v47_apply,
    show idx_main_v47 (ridx_main_v48 (ix2 R k) k') = ix2 k k' from eq_ix2 _, v25_row]

/-- The cluster's selection at row `R`: the head's column plus the gathered log-softmax, inside the label's range. -/
theorem v77_row (R : Fin 4094) :
    val_main_v77 (F := Ideal) a0 a1 a2 a3 a4 a5 a6 (ix1 R)
      = if Cert.Spec.inRange (lab a1 R) 1000 2000 then
          Cert.Spec.lsm (zHead a0 a2 a3 a4 R) ⟨1000, by norm_num⟩
          + Cert.Spec.lsm (zc1 a0 a2 a3 a5 a6 R) (Cert.Spec.clipIdx (lab a1 R) 1000 1000 (by norm_num))
        else val_main_v46 (F := Ideal) a0 a1 a2 a3 a4 (ix1 R) :=
  select_range (v27_row a1 R) (lo := 1000#32) (hi := 2000#32) (by decide) (by decide)
    ((col_apply _ 1000 slices_S4094x1003_S4094x1_0_1000 shapeCasts_S4094x1_S4094 R (by decide)).trans
      (v31_row a0 a2 a3 a4 R _))
    fun h => (gather_tail bcast_S_S4094 bcast_S4094_S4094x1_0 concatenates_S4094x1_S4094x1_S4094x2_d1 _
      gather_S4094x1000_S4094x2_S4094_n_01_n_n_01_1_11_wf (val_main_v28 (F := Ideal)) _ 4094#32 999#32 1000#32 _ R _ rfl
      (congrArg (IntOp.subi · _) (v27_row a1 R)) (by decide) (by decide)
      (clip_sub _ 1000 1000 (by decide) (by decide) (by decide) h)).trans
      ((logSoftmax_apply _ bcast_S_S4094 bcast_S4094_S4094x1_0 bcast_S4094x1_S4094x1000_0_1
        reducesTo_S4094x1000_S4094_d1 h_S_ (by decide) R _).trans
        (congrArg (Cert.Spec.lsm · _) (funext (v50_row a0 a2 a3 a5 a6 R))))

end

end Cert.ReferenceIdeal.RefValue

end
-- ==== Proof.RefC2.lean ====
import proofs.«407706_j38671885534012_3_alg».proof.Proof.RefHeadB
import proofs.«407706_j38671885534012_3_alg».proof.Proof.RefLib

noncomputable section

namespace Cert.ReferenceIdeal.RefValue

open Cert.ReferenceIdeal.Gen Cert.ReferenceIdeal.Read Cert.ReferenceIdeal.RefLib Idealize.ShloMosaic Idealize.ShloMosaic.ValueIdx

section

variable (a0 : (⟨S2x2048x2048, .f32⟩ : BufTy).Contents (Elt Ideal))
  (a1 : (⟨S2x2048, .i32⟩ : BufTy).Contents (Elt Ideal))
  (a2 a3 : (⟨S2048, .f32⟩ : BufTy).Contents (Elt Ideal))
  (a4 : (⟨S1003x2048, .f32⟩ : BufTy).Contents (Elt Ideal))
  (a5 : (⟨S512x2048, .f32⟩ : BufTy).Contents (Elt Ideal))
  (a6 : (⟨S1000x512, .f32⟩ : BufTy).Contents (Elt Ideal))
  (a7 : (⟨S128x2048, .f32⟩ : BufTy).Contents (Elt Ideal))
  (a8 : (⟨S3000x128, .f32⟩ : BufTy).Contents (Elt Ideal))

/-- The cluster's logits of row `R`. -/
abbrev zc2 (R : Fin 4094) : Fin 3000 → EReal :=
  Cert.Spec.logits (mat a8) (Cert.Spec.logits (mat a7) (hRow a0 a2 a3 R))

/-- Both products sum over the contracted axis, each weight matrix read transposed. -/
theorem v81_row (R : Fin 4094) (j : Fin 3000) :
    val_main_v81 (F := Ideal) a0 a2 a3 a7 a8 (ix2 R j) = zc2 a0 a2 a3 a7 a8 R j := by
  rw [val_main_v81_apply]
  unfold zc2 Cert.Spec.logits
  refine Finset.sum_congr rfl fun k _ => ?_
  rw [show lidx_main_v81 (ix2 R j) k = ix2 R k from eq_ix2 _, val_main_v80_apply,
    show idx_main_v80 (ridx_main_v81 (ix2 R j) k) = ix2 j k from eq_ix2 _, val_main_v79_apply]
  congr 1
  refine Finset.sum_congr rfl fun k' _ => ?_
  rw [show lidx_main_v79 (ix2 R k) k' = ix2 R k' from eq_ix2 _, val_main_v78_apply,
    show idx_main_v78 (ridx_main_v79 (ix2 R k) k') = ix2 k k' from eq_ix2 _, v25_row]

/-- The cluster's selection at row `R`: the head's column plus the gathered log-softmax, inside the label's range. -/
theorem v108_row (R : Fin 4094) :
    val_main_v108 (F := Ideal) a0 a1 a2 a3 a4 a5 a6 a7 a8 (ix1 R)
      = if Cert.Spec.inRange (lab a1 R) 2000 5000 then
          Cert.Spec.lsm (zHead a0 a2 a3 a4 R) ⟨1001, by norm_num⟩
          + Cert.Spec.lsm (zc2 a0 a2 a3 a7 a8 R) (Cert.Spec.clipIdx (lab a1 R) 2000 3000 (by norm_num))
        else val_main_v77 (F := Ideal) a0 a1 a2 a3 a4 a5 a6 (ix1 R) :=
  select_range (v27_row a1 R) (lo := 2000#32) (hi := 5000#32) (by decide) (by decide)
    ((col_apply _ 1001 slices_S4094x1003_S4094x1_0_1001 shapeCasts_S4094x1_S4094 R (by decide)).trans
      (v31_row a0 a2 a3 a4 R _))
    fun h => (gather_tail bcast_S_S4094 bcast_S4094_S4094x1_0 concatenates_S4094x1_S4094x1_S4094x2_d1 _
      gather_S4094x3000_S4094x2_S4094_n_01_n_n_01_1_11_wf (val_main_v28 (F := Ideal)) _ 4094#32 2999#32 3000#32 _ R _ rfl
      (congrArg (IntOp.subi · _) (v27_row a1 R)) (by decide) (by decide)
      (clip_sub _ 2000 3000 (by decide) (by decide) (by decide) h)).trans
      ((logSoftmax_apply _ bcast_S_S4094 bcast_S4094_S4094x1_0 bcast_S4094x1_S4094x3000_0_1
        reducesTo_S4094x3000_S4094_d1 h_S_ (by decide) R _).trans
        (congrArg (Cert.Spec.lsm · _) (funext (v81_row a0 a2 a3 a7 a8 R))))

end

end Cert.ReferenceIdeal.RefValue

end
-- ==== Proof.RefC3.lean ====
import proofs.«407706_j38671885534012_3_alg».proof.Proof.RefHeadB
import proofs.«407706_j38671885534012_3_alg».proof.Proof.RefLib

noncomputable section

namespace Cert.ReferenceIdeal.RefValue

open Cert.ReferenceIdeal.Gen Cert.ReferenceIdeal.Read Cert.ReferenceIdeal.RefLib Idealize.ShloMosaic Idealize.ShloMosaic.ValueIdx

section

variable (a0 : (⟨S2x2048x2048, .f32⟩ : BufTy).Contents (Elt Ideal))
  (a1 : (⟨S2x2048, .i32⟩ : BufTy).Contents (Elt Ideal))
  (a2 a3 : (⟨S2048, .f32⟩ : BufTy).Contents (Elt Ideal))
  (a4 : (⟨S1003x2048, .f32⟩ : BufTy).Contents (Elt Ideal))
  (a5 : (⟨S512x2048, .f32⟩ : BufTy).Contents (Elt Ideal))
  (a6 : (⟨S1000x512, .f32⟩ : BufTy).Contents (Elt Ideal))
  (a7 : (⟨S128x2048, .f32⟩ : BufTy).Contents (Elt Ideal))
  (a8 : (⟨S3000x128, .f32⟩ : BufTy).Contents (Elt Ideal))
  (a9 : (⟨S32x2048, .f32⟩ : BufTy).Contents (Elt Ideal))
  (a10 : (⟨S27000x32, .f32⟩ : BufTy).Contents (Elt Ideal))

/-- The cluster's logits of row `R`. -/
abbrev zc3 (R : Fin 4094) : Fin 27000 → EReal :=
  Cert.Spec.logits (mat a10) (Cert.Spec.logits (mat a9) (hRow a0 a2 a3 R))

/-- Both products sum over the contracted axis, each weight matrix read transposed. -/
theorem v112_row (R : Fin 4094) (j : Fin 27000) :
    val_main_v112 (F := Ideal) a0 a2 a3 a9 a10 (ix2 R j) = zc3 a0 a2 a3 a9 a10 R j := by
  rw [val_main_v112_apply]
  unfold zc3 Cert.Spec.logits
  refine Finset.sum_congr rfl fun k _ => ?_
  rw [show lidx_main_v112 (ix2 R j) k = ix2 R k from eq_ix2 _, val_main_v111_apply,
    show idx_main_v111 (ridx_main_v112 (ix2 R j) k) = ix2 j k from eq_ix2 _, val_main_v110_apply]
  congr 1
  refine Finset.sum_congr rfl fun k' _ => ?_
  rw [show lidx_main_v110 (ix2 R k) k' = ix2 R k' from eq_ix2 _, val_main_v109_apply,
    show idx_main_v109 (ridx_main_v110 (ix2 R k) k') = ix2 k k' from eq_ix2 _, v25_row]

/-- The cluster's selection at row `R`: the head's column plus the gathered log-softmax, inside the label's range. -/
theorem v139_row (R : Fin 4094) :
    val_main_v139 (F := Ideal) a0 a1 a2 a3 a4 a5 a6 a7 a8 a9 a10 (ix1 R)
      = if Cert.Spec.inRange (lab a1 R) 5000 32000 then
          Cert.Spec.lsm (zHead a0 a2 a3 a4 R) ⟨1002, by norm_num⟩
          + Cert.Spec.lsm (zc3 a0 a2 a3 a9 a10 R) (Cert.Spec.clipIdx (lab a1 R) 5000 27000 (by norm_num))
        else val_main_v108 (F := Ideal) a0 a1 a2 a3 a4 a5 a6 a7 a8 (ix1 R) :=
  select_range (v27_row a1 R) (lo := 5000#32) (hi := 32000#32) (by decide) (by decide)
    ((col_apply _ 1002 slices_S4094x1003_S4094x1_0_1002 shapeCasts_S4094x1_S4094 R (by decide)).trans
      (v31_row a0 a2 a3 a4 R _))
    fun h => (gather_tail bcast_S_S4094 bcast_S4094_S4094x1_0 concatenates_S4094x1_S4094x1_S4094x2_d1 _
      gather_S4094x27000_S4094x2_S4094_n_01_n_n_01_1_11_wf (val_main_v28 (F := Ideal)) _ 4094#32 26999#32 27000#32 _ R _ rfl
      (congrArg (IntOp.subi · _) (v27_row a1 R)) (by decide) (by decide)
      (clip_sub _ 5000 27000 (by decide) (by decide) (by decide) h)).trans
      ((logSoftmax_apply _ bcast_S_S4094 bcast_S4094_S4094x1_0 bcast_S4094x1_S4094x27000_0_1
        reducesTo_S4094x27000_S4094_d1 h_S_ (by decide) R _).trans
        (congrArg (Cert.Spec.lsm · _) (funext (v112_row a0 a2 a3 a9 a10 R))))

end

end Cert.ReferenceIdeal.RefValue

end
-- ==== Proof.RefValue.lean ====
/- The reference's result is minus the mean of the 4094 row values. -/
import proofs.«407706_j38671885534012_3_alg».proof.Proof.RefHeadC
import proofs.«407706_j38671885534012_3_alg».proof.Proof.RefC1
import proofs.«407706_j38671885534012_3_alg».proof.Proof.RefC2
import proofs.«407706_j38671885534012_3_alg».proof.Proof.RefC3
import Idealize.ShloMosaic.Lib.ValueIdxRank1

noncomputable section

namespace Cert.ReferenceIdeal.RefValue

open Cert.ReferenceIdeal.Gen Cert.ReferenceIdeal.Read Idealize.ShloMosaic Idealize.ShloMosaic.ValueIdx

section

variable (a0 : (⟨S2x2048x2048, .f32⟩ : BufTy).Contents (Elt Ideal)) (a1 : (⟨S2x2048, .i32⟩ : BufTy).Contents (Elt Ideal))
  (a2 a3 : (⟨S2048, .f32⟩ : BufTy).Contents (Elt Ideal)) (a4 : (⟨S1003x2048, .f32⟩ : BufTy).Contents (Elt Ideal))
  (a5 : (⟨S512x2048, .f32⟩ : BufTy).Contents (Elt Ideal)) (a6 : (⟨S1000x512, .f32⟩ : BufTy).Contents (Elt Ideal))
  (a7 : (⟨S128x2048, .f32⟩ : BufTy).Contents (Elt Ideal)) (a8 : (⟨S3000x128, .f32⟩ : BufTy).Contents (Elt Ideal))
  (a9 : (⟨S32x2048, .f32⟩ : BufTy).Contents (Elt Ideal)) (a10 : (⟨S27000x32, .f32⟩ : BufTy).Contents (Elt Ideal))

def refRow (R : Fin 4094) : EReal :=
  Cert.Spec.rrow (xRow a0 R) (vec a2) (vec a3) (mat a4) (mat a5) (mat a6) (mat a7) (mat a8) (mat a9) (mat a10) (lab a1 R)

theorem v139_refRow (R : Fin 4094) :
    val_main_v139 (F := Ideal) a0 a1 a2 a3 a4 a5 a6 a7 a8 a9 a10 (ix1 R) = refRow a0 a1 a2 a3 a4 a5 a6 a7 a8 a9 a10 R := by
  rw [v139_row, v108_row, v77_row, v46_row]
  rfl

theorem ref_result :
    val_main_v142 (F := Ideal) a0 a1 a2 a3 a4 a5 a6 a7 a8 a9 a10 ix0
      = -(Ideal.div (∑ R : Fin 4094, refRow a0 a1 a2 a3 a4 a5 a6 a7 a8 a9 a10 R) Cert.Spec.c4094) := by
  rw [val_main_v142_apply, val_main_v141_apply, val_main_v140_apply, val_main_cst_36_apply, val_main_cst_37_apply]
  show -(Ideal.div (Ideal.ofBits .f32 0x00000000#32 + ∑ j : S4094.Idx, val_main_v139 (F := Ideal) a0 a1 a2 a3 a4 a5 a6 a7 a8 a9 a10 j)
    (Ideal.ofBits .f32 0x457FE000#32)) = _
  rw [Ideal.ofBits_zero_f32, zero_add, ← Equiv.sum_comp idxEquiv1.symm]
  exact congrArg (fun s => -(Ideal.div s Cert.Spec.c4094))
    (Finset.sum_congr rfl fun R _ => v139_refRow a0 a1 a2 a3 a4 a5 a6 a7 a8 a9 a10 R)

end

end Cert.ReferenceIdeal.RefValue

end
-- ==== Proof.RefRun.lean ====
import proofs.«407706_j38671885534012_3_alg».proof.Proof.ReadDev
import proofs.«407706_j38671885534012_3_alg».proof.Proof.RefOps

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

theorem after_app (l₁ l₂ : List (HloOp τ sig (Elt F))) (V : Valuation τ sig (Elt F)) :
    after (l₁ ++ l₂) V = after l₂ (after l₁ V) := by
  induction l₁ generalizing V with
  | nil => rfl
  | cons op l ih => exact ih _

variable (x0 : (⟨S2x2048x2048, .f32⟩ : BufTy).Contents (Elt F)) (x1 : (⟨S2x2048, .i32⟩ : BufTy).Contents (Elt F)) (x2 : (⟨S2048, .f32⟩ : BufTy).Contents (Elt F)) (x3 : (⟨S2048, .f32⟩ : BufTy).Contents (Elt F)) (x4 : (⟨S1003x2048, .f32⟩ : BufTy).Contents (Elt F)) (x5 : (⟨S512x2048, .f32⟩ : BufTy).Contents (Elt F)) (x6 : (⟨S1000x512, .f32⟩ : BufTy).Contents (Elt F)) (x7 : (⟨S128x2048, .f32⟩ : BufTy).Contents (Elt F)) (x8 : (⟨S3000x128, .f32⟩ : BufTy).Contents (Elt F)) (x9 : (⟨S32x2048, .f32⟩ : BufTy).Contents (Elt F)) (x10 : (⟨S27000x32, .f32⟩ : BufTy).Contents (Elt F))

abbrev Args (V : Valuation τ sig (Elt F)) : Prop :=
  V (Proc.devRef .tc main_arg0) = x0
  ∧ V (Proc.devRef .tc main_arg1) = x1
  ∧ V (Proc.devRef .tc main_arg2) = x2
  ∧ V (Proc.devRef .tc main_arg3) = x3
  ∧ V (Proc.devRef .tc main_arg4) = x4
  ∧ V (Proc.devRef .tc main_arg5) = x5
  ∧ V (Proc.devRef .tc main_arg6) = x6
  ∧ V (Proc.devRef .tc main_arg7) = x7
  ∧ V (Proc.devRef .tc main_arg8) = x8
  ∧ V (Proc.devRef .tc main_arg9) = x9
  ∧ V (Proc.devRef .tc main_arg10) = x10
abbrev Inv1 (V : Valuation τ sig (Elt F)) : Prop :=
  Args x0 x1 x2 x3 x4 x5 x6 x7 x8 x9 x10 V
  ∧ V (Proc.devRef .tc main_v25) = val_main_v25 (F := F) x0 x2 x3
abbrev Inv2 (V : Valuation τ sig (Elt F)) : Prop :=
  Args x0 x1 x2 x3 x4 x5 x6 x7 x8 x9 x10 V
  ∧ V (Proc.devRef .tc main_v25) = val_main_v25 (F := F) x0 x2 x3
  ∧ V (Proc.devRef .tc main_v27) = val_main_v27 (F := F) x1
  ∧ V (Proc.devRef .tc main_v28) = val_main_v28 (F := F)
  ∧ V (Proc.devRef .tc main_v31) = val_main_v31 (F := F) x0 x2 x3 x4
abbrev Inv3 (V : Valuation τ sig (Elt F)) : Prop :=
  Args x0 x1 x2 x3 x4 x5 x6 x7 x8 x9 x10 V
  ∧ V (Proc.devRef .tc main_v25) = val_main_v25 (F := F) x0 x2 x3
  ∧ V (Proc.devRef .tc main_v27) = val_main_v27 (F := F) x1
  ∧ V (Proc.devRef .tc main_v28) = val_main_v28 (F := F)
  ∧ V (Proc.devRef .tc main_v31) = val_main_v31 (F := F) x0 x2 x3 x4
  ∧ V (Proc.devRef .tc main_v43) = val_main_v43 (F := F)
  ∧ V (Proc.devRef .tc main_v44) = val_main_v44 (F := F) x1
abbrev Inv4 (V : Valuation τ sig (Elt F)) : Prop :=
  Args x0 x1 x2 x3 x4 x5 x6 x7 x8 x9 x10 V
  ∧ V (Proc.devRef .tc main_v25) = val_main_v25 (F := F) x0 x2 x3
  ∧ V (Proc.devRef .tc main_v27) = val_main_v27 (F := F) x1
  ∧ V (Proc.devRef .tc main_v28) = val_main_v28 (F := F)
  ∧ V (Proc.devRef .tc main_v31) = val_main_v31 (F := F) x0 x2 x3 x4
  ∧ V (Proc.devRef .tc main_v46) = val_main_v46 (F := F) x0 x1 x2 x3 x4
  ∧ V (Proc.devRef .tc main_v51) = val_main_v51 (F := F) x0 x2 x3 x5 x6
abbrev Inv5 (V : Valuation τ sig (Elt F)) : Prop :=
  Args x0 x1 x2 x3 x4 x5 x6 x7 x8 x9 x10 V
  ∧ V (Proc.devRef .tc main_v25) = val_main_v25 (F := F) x0 x2 x3
  ∧ V (Proc.devRef .tc main_v27) = val_main_v27 (F := F) x1
  ∧ V (Proc.devRef .tc main_v28) = val_main_v28 (F := F)
  ∧ V (Proc.devRef .tc main_v31) = val_main_v31 (F := F) x0 x2 x3 x4
  ∧ V (Proc.devRef .tc main_v46) = val_main_v46 (F := F) x0 x1 x2 x3 x4
  ∧ V (Proc.devRef .tc main_v51) = val_main_v51 (F := F) x0 x2 x3 x5 x6
  ∧ V (Proc.devRef .tc main_v56) = val_main_v56 (F := F) x0 x2 x3 x4
  ∧ V (Proc.devRef .tc main_v67) = val_main_v67 (F := F)
  ∧ V (Proc.devRef .tc main_v68) = val_main_v68 (F := F) x1
abbrev Inv6 (V : Valuation τ sig (Elt F)) : Prop :=
  Args x0 x1 x2 x3 x4 x5 x6 x7 x8 x9 x10 V
  ∧ V (Proc.devRef .tc main_v25) = val_main_v25 (F := F) x0 x2 x3
  ∧ V (Proc.devRef .tc main_v27) = val_main_v27 (F := F) x1
  ∧ V (Proc.devRef .tc main_v28) = val_main_v28 (F := F)
  ∧ V (Proc.devRef .tc main_v31) = val_main_v31 (F := F) x0 x2 x3 x4
  ∧ V (Proc.devRef .tc main_v77) = val_main_v77 (F := F) x0 x1 x2 x3 x4 x5 x6
  ∧ V (Proc.devRef .tc main_v82) = val_main_v82 (F := F) x0 x2 x3 x7 x8
abbrev Inv7 (V : Valuation τ sig (Elt F)) : Prop :=
  Args x0 x1 x2 x3 x4 x5 x6 x7 x8 x9 x10 V
  ∧ V (Proc.devRef .tc main_v25) = val_main_v25 (F := F) x0 x2 x3
  ∧ V (Proc.devRef .tc main_v27) = val_main_v27 (F := F) x1
  ∧ V (Proc.devRef .tc main_v28) = val_main_v28 (F := F)
  ∧ V (Proc.devRef .tc main_v31) = val_main_v31 (F := F) x0 x2 x3 x4
  ∧ V (Proc.devRef .tc main_v77) = val_main_v77 (F := F) x0 x1 x2 x3 x4 x5 x6
  ∧ V (Proc.devRef .tc main_v82) = val_main_v82 (F := F) x0 x2 x3 x7 x8
  ∧ V (Proc.devRef .tc main_v87) = val_main_v87 (F := F) x0 x2 x3 x4
  ∧ V (Proc.devRef .tc main_v98) = val_main_v98 (F := F)
  ∧ V (Proc.devRef .tc main_v99) = val_main_v99 (F := F) x1
abbrev Inv8 (V : Valuation τ sig (Elt F)) : Prop :=
  Args x0 x1 x2 x3 x4 x5 x6 x7 x8 x9 x10 V
  ∧ V (Proc.devRef .tc main_v27) = val_main_v27 (F := F) x1
  ∧ V (Proc.devRef .tc main_v28) = val_main_v28 (F := F)
  ∧ V (Proc.devRef .tc main_v31) = val_main_v31 (F := F) x0 x2 x3 x4
  ∧ V (Proc.devRef .tc main_v108) = val_main_v108 (F := F) x0 x1 x2 x3 x4 x5 x6 x7 x8
  ∧ V (Proc.devRef .tc main_v113) = val_main_v113 (F := F) x0 x2 x3 x9 x10
abbrev Inv9 (V : Valuation τ sig (Elt F)) : Prop :=
  Args x0 x1 x2 x3 x4 x5 x6 x7 x8 x9 x10 V
  ∧ V (Proc.devRef .tc main_v27) = val_main_v27 (F := F) x1
  ∧ V (Proc.devRef .tc main_v108) = val_main_v108 (F := F) x0 x1 x2 x3 x4 x5 x6 x7 x8
  ∧ V (Proc.devRef .tc main_v113) = val_main_v113 (F := F) x0 x2 x3 x9 x10
  ∧ V (Proc.devRef .tc main_v118) = val_main_v118 (F := F) x0 x2 x3 x4
  ∧ V (Proc.devRef .tc main_v129) = val_main_v129 (F := F)
  ∧ V (Proc.devRef .tc main_v130) = val_main_v130 (F := F) x1
abbrev Inv10 (V : Valuation τ sig (Elt F)) : Prop :=
  V (Proc.devRef .tc main_v142) = val_main_v142 (F := F) x0 x1 x2 x3 x4 x5 x6 x7 x8 x9 x10

variable {x0} {x1} {x2} {x3} {x4} {x5} {x6} {x7} {x8} {x9} {x10}

theorem args_keep {l : List (HloOp τ sig (Elt F))} {W : List (Ref sig .tc)} {V : Valuation τ sig (Elt F)}
    (hW : l.Forall fun op => op.writes ⊆ (W.map (Proc.devRef (τ := τ) .tc)).toFinset)
    (hr : ∀ r ∈ [main_arg0, main_arg1, main_arg2, main_arg3, main_arg4, main_arg5, main_arg6, main_arg7, main_arg8, main_arg9, main_arg10], r ∉ W) (h : Args x0 x1 x2 x3 x4 x5 x6 x7 x8 x9 x10 V) : Args x0 x1 x2 x3 x4 x5 x6 x7 x8 x9 x10 (after l V) :=
  ⟨(after_of_writes_sub l V hW (hr _ (by decide))).trans h.1,
    (after_of_writes_sub l V hW (hr _ (by decide))).trans h.2.1,
    (after_of_writes_sub l V hW (hr _ (by decide))).trans h.2.2.1,
    (after_of_writes_sub l V hW (hr _ (by decide))).trans h.2.2.2.1,
    (after_of_writes_sub l V hW (hr _ (by decide))).trans h.2.2.2.2.1,
    (after_of_writes_sub l V hW (hr _ (by decide))).trans h.2.2.2.2.2.1,
    (after_of_writes_sub l V hW (hr _ (by decide))).trans h.2.2.2.2.2.2.1,
    (after_of_writes_sub l V hW (hr _ (by decide))).trans h.2.2.2.2.2.2.2.1,
    (after_of_writes_sub l V hW (hr _ (by decide))).trans h.2.2.2.2.2.2.2.2.1,
    (after_of_writes_sub l V hW (hr _ (by decide))).trans h.2.2.2.2.2.2.2.2.2.1,
    (after_of_writes_sub l V hW (hr _ (by decide))).trans h.2.2.2.2.2.2.2.2.2.2⟩

def W0 : List (Ref sig .tc) :=
  [main_cst, main_v0, main_v1, main_cst_0, main_v2, main_v3, main_v4, main_v5, main_v6, main_cst_1, main_v7, main_v8, main_cst_2, main_v9, main_v10, main_v11, main_v12, main_cst_3, main_v13, main_v14, main_v15, main_v16, main_v17, main_v18, main_v19, main_v20, main_v21, main_v22, main_v23, main_v24, main_v25]
theorem wr0 : (ops0 (F := F)).Forall fun op => op.writes ⊆ (W0.map (Proc.devRef (τ := τ) .tc)).toFinset := by
  unfold ops0 W0; simp only [List.Forall]
  and_intros <;> exact Finset.singleton_subset_iff.mpr (List.mem_toFinset.mpr (List.mem_map.mpr ⟨_, by decide, rfl⟩))
set_option maxHeartbeats 4000000 in
theorem step0 (V : Valuation τ sig (Elt F)) (h : Args x0 x1 x2 x3 x4 x5 x6 x7 x8 x9 x10 V) : Inv1 x0 x1 x2 x3 x4 x5 x6 x7 x8 x9 x10 (after (ops0 (F := F)) V) := by
  refine ⟨args_keep wr0 (by decide) h, ?_⟩
  all_goals (unfold ops0; after_results_simp; (try simp only [h, TRef.ofBuf, TRef.toBuf, cast_eq]); try rfl)

def W1 : List (Ref sig .tc) :=
  [main_v26, main_v27, main_v28, main_v29, main_v30, main_call0_cst, main_call0_v0, main_call0_cst_0, main_call0_v1, main_call0_v2, main_call0_v3, main_call0_v4, main_call0_v5, main_call0_v6, main_call0_cst_1, main_call0_v7, main_call0_v8, main_call0_v9, main_call0_v10, main_v31]
theorem wr1 : (ops1 (F := F)).Forall fun op => op.writes ⊆ (W1.map (Proc.devRef (τ := τ) .tc)).toFinset := by
  unfold ops1 W1; simp only [List.Forall]
  and_intros <;> exact Finset.singleton_subset_iff.mpr (List.mem_toFinset.mpr (List.mem_map.mpr ⟨_, by decide, rfl⟩))
set_option maxHeartbeats 4000000 in
theorem step1 (V : Valuation τ sig (Elt F)) (h : Inv1 x0 x1 x2 x3 x4 x5 x6 x7 x8 x9 x10 V) : Inv2 x0 x1 x2 x3 x4 x5 x6 x7 x8 x9 x10 (after (ops1 (F := F)) V) := by
  have keep := fun r hr => after_of_writes_sub (ops1 (F := F)) V wr1 (r := r) hr
  refine ⟨args_keep wr1 (by decide) h.1, (keep main_v25 (by decide)).trans h.2, ?_, ?_, ?_⟩
  all_goals (unfold ops1; after_results_simp; (try simp only [h, TRef.ofBuf, TRef.toBuf, cast_eq]); try rfl)

def W2 : List (Ref sig .tc) :=
  [main_c, main_c_4, main_call1_v0, main_call1_v1, main_call1_v2, main_call1_v3, main_call1_v4, main_v32, main_c_5, main_v33, main_v34, main_c_6, main_v35, main_v36, main_v37, main_c_7, main_v38, main_v39, main_c_8, main_v40, main_v41, main_v42, main_v43, main_v44]
theorem wr2 : (ops2 (F := F)).Forall fun op => op.writes ⊆ (W2.map (Proc.devRef (τ := τ) .tc)).toFinset := by
  unfold ops2 W2; simp only [List.Forall]
  and_intros <;> exact Finset.singleton_subset_iff.mpr (List.mem_toFinset.mpr (List.mem_map.mpr ⟨_, by decide, rfl⟩))
set_option maxHeartbeats 4000000 in
theorem step2 (V : Valuation τ sig (Elt F)) (h : Inv2 x0 x1 x2 x3 x4 x5 x6 x7 x8 x9 x10 V) : Inv3 x0 x1 x2 x3 x4 x5 x6 x7 x8 x9 x10 (after (ops2 (F := F)) V) := by
  have keep := fun r hr => after_of_writes_sub (ops2 (F := F)) V wr2 (r := r) hr
  refine ⟨args_keep wr2 (by decide) h.1, (keep main_v25 (by decide)).trans h.2.1, (keep main_v27 (by decide)).trans h.2.2.1, (keep main_v28 (by decide)).trans h.2.2.2.1, (keep main_v31 (by decide)).trans h.2.2.2.2, ?_, ?_⟩
  all_goals (unfold ops2; after_results_simp; (try simp only [h, TRef.ofBuf, TRef.toBuf, cast_eq]); try rfl)

def W3 : List (Ref sig .tc) :=
  [main_v45, main_v46, main_v47, main_v48, main_v49, main_v50, main_call2_cst, main_call2_v0, main_call2_cst_0, main_call2_v1, main_call2_v2, main_call2_v3, main_call2_v4, main_call2_v5, main_call2_v6, main_call2_cst_1, main_call2_v7, main_call2_v8, main_call2_v9, main_call2_v10, main_v51]
theorem wr3 : (ops3 (F := F)).Forall fun op => op.writes ⊆ (W3.map (Proc.devRef (τ := τ) .tc)).toFinset := by
  unfold ops3 W3; simp only [List.Forall]
  and_intros <;> exact Finset.singleton_subset_iff.mpr (List.mem_toFinset.mpr (List.mem_map.mpr ⟨_, by decide, rfl⟩))
set_option maxHeartbeats 4000000 in
theorem step3 (V : Valuation τ sig (Elt F)) (h : Inv3 x0 x1 x2 x3 x4 x5 x6 x7 x8 x9 x10 V) : Inv4 x0 x1 x2 x3 x4 x5 x6 x7 x8 x9 x10 (after (ops3 (F := F)) V) := by
  have keep := fun r hr => after_of_writes_sub (ops3 (F := F)) V wr3 (r := r) hr
  refine ⟨args_keep wr3 (by decide) h.1, (keep main_v25 (by decide)).trans h.2.1, (keep main_v27 (by decide)).trans h.2.2.1, (keep main_v28 (by decide)).trans h.2.2.2.1, (keep main_v31 (by decide)).trans h.2.2.2.2.1, ?_, ?_⟩
  all_goals (unfold ops3; after_results_simp; (try simp only [h, TRef.ofBuf, TRef.toBuf, cast_eq]); (try rw [h.2.2.2.2.2.1, h.2.2.2.2.2.2]); try rfl)

def W4 : List (Ref sig .tc) :=
  [main_c_9, main_v52, main_v53, main_c_10, main_c_11, main_call3_v0, main_call3_v1, main_call3_v2, main_call3_v3, main_call3_v4, main_v54, main_v55, main_v56, main_c_12, main_v57, main_v58, main_c_13, main_v59, main_v60, main_v61, main_c_14, main_v62, main_v63, main_c_15, main_v64, main_v65, main_v66, main_v67, main_v68]
theorem wr4 : (ops4 (F := F)).Forall fun op => op.writes ⊆ (W4.map (Proc.devRef (τ := τ) .tc)).toFinset := by
  unfold ops4 W4; simp only [List.Forall]
  and_intros <;> exact Finset.singleton_subset_iff.mpr (List.mem_toFinset.mpr (List.mem_map.mpr ⟨_, by decide, rfl⟩))
set_option maxHeartbeats 4000000 in
theorem step4 (V : Valuation τ sig (Elt F)) (h : Inv4 x0 x1 x2 x3 x4 x5 x6 x7 x8 x9 x10 V) : Inv5 x0 x1 x2 x3 x4 x5 x6 x7 x8 x9 x10 (after (ops4 (F := F)) V) := by
  have keep := fun r hr => after_of_writes_sub (ops4 (F := F)) V wr4 (r := r) hr
  refine ⟨args_keep wr4 (by decide) h.1, (keep main_v25 (by decide)).trans h.2.1, (keep main_v27 (by decide)).trans h.2.2.1, (keep main_v28 (by decide)).trans h.2.2.2.1, (keep main_v31 (by decide)).trans h.2.2.2.2.1, (keep main_v46 (by decide)).trans h.2.2.2.2.2.1, (keep main_v51 (by decide)).trans h.2.2.2.2.2.2, ?_, ?_, ?_⟩
  all_goals (unfold ops4; after_results_simp; (try simp only [h, TRef.ofBuf, TRef.toBuf, cast_eq]); try rfl)

def W5 : List (Ref sig .tc) :=
  [main_v69, main_v70, main_v71, main_c_16, main_v72, main_v73, main_c_17, main_v74, main_v75, main_v76, main_v77, main_v78, main_v79, main_v80, main_v81, main_call5_cst, main_call5_v0, main_call5_cst_0, main_call5_v1, main_call5_v2, main_call5_v3, main_call5_v4, main_call5_v5, main_call5_v6, main_call5_cst_1, main_call5_v7, main_call5_v8, main_call5_v9, main_call5_v10, main_v82]
theorem wr5 : (ops5 (F := F)).Forall fun op => op.writes ⊆ (W5.map (Proc.devRef (τ := τ) .tc)).toFinset := by
  unfold ops5 W5; simp only [List.Forall]
  and_intros <;> exact Finset.singleton_subset_iff.mpr (List.mem_toFinset.mpr (List.mem_map.mpr ⟨_, by decide, rfl⟩))
set_option maxHeartbeats 4000000 in
theorem step5 (V : Valuation τ sig (Elt F)) (h : Inv5 x0 x1 x2 x3 x4 x5 x6 x7 x8 x9 x10 V) : Inv6 x0 x1 x2 x3 x4 x5 x6 x7 x8 x9 x10 (after (ops5 (F := F)) V) := by
  have keep := fun r hr => after_of_writes_sub (ops5 (F := F)) V wr5 (r := r) hr
  refine ⟨args_keep wr5 (by decide) h.1, (keep main_v25 (by decide)).trans h.2.1, (keep main_v27 (by decide)).trans h.2.2.1, (keep main_v28 (by decide)).trans h.2.2.2.1, (keep main_v31 (by decide)).trans h.2.2.2.2.1, ?_, ?_⟩
  all_goals (unfold ops5; after_results_simp; (try simp only [h, TRef.ofBuf, TRef.toBuf, cast_eq]); (try rw [h.2.2.2.2.2.2.2.2.1, h.2.2.2.2.2.2.2.2.2]); try rfl)

def W6 : List (Ref sig .tc) :=
  [main_c_18, main_v83, main_v84, main_c_19, main_c_20, main_call6_v0, main_call6_v1, main_call6_v2, main_call6_v3, main_call6_v4, main_v85, main_v86, main_v87, main_c_21, main_v88, main_v89, main_c_22, main_v90, main_v91, main_v92, main_c_23, main_v93, main_v94, main_c_24, main_v95, main_v96, main_v97, main_v98, main_v99]
theorem wr6 : (ops6 (F := F)).Forall fun op => op.writes ⊆ (W6.map (Proc.devRef (τ := τ) .tc)).toFinset := by
  unfold ops6 W6; simp only [List.Forall]
  and_intros <;> exact Finset.singleton_subset_iff.mpr (List.mem_toFinset.mpr (List.mem_map.mpr ⟨_, by decide, rfl⟩))
set_option maxHeartbeats 4000000 in
theorem step6 (V : Valuation τ sig (Elt F)) (h : Inv6 x0 x1 x2 x3 x4 x5 x6 x7 x8 x9 x10 V) : Inv7 x0 x1 x2 x3 x4 x5 x6 x7 x8 x9 x10 (after (ops6 (F := F)) V) := by
  have keep := fun r hr => after_of_writes_sub (ops6 (F := F)) V wr6 (r := r) hr
  refine ⟨args_keep wr6 (by decide) h.1, (keep main_v25 (by decide)).trans h.2.1, (keep main_v27 (by decide)).trans h.2.2.1, (keep main_v28 (by decide)).trans h.2.2.2.1, (keep main_v31 (by decide)).trans h.2.2.2.2.1, (keep main_v77 (by decide)).trans h.2.2.2.2.2.1, (keep main_v82 (by decide)).trans h.2.2.2.2.2.2, ?_, ?_, ?_⟩
  all_goals (unfold ops6; after_results_simp; (try simp only [h, TRef.ofBuf, TRef.toBuf, cast_eq]); try rfl)

def W7 : List (Ref sig .tc) :=
  [main_v100, main_v101, main_v102, main_c_25, main_v103, main_v104, main_c_26, main_v105, main_v106, main_v107, main_v108, main_v109, main_v110, main_v111, main_v112, main_call8_cst, main_call8_v0, main_call8_cst_0, main_call8_v1, main_call8_v2, main_call8_v3, main_call8_v4, main_call8_v5, main_call8_v6, main_call8_cst_1, main_call8_v7, main_call8_v8, main_call8_v9, main_call8_v10, main_v113]
theorem wr7 : (ops7 (F := F)).Forall fun op => op.writes ⊆ (W7.map (Proc.devRef (τ := τ) .tc)).toFinset := by
  unfold ops7 W7; simp only [List.Forall]
  and_intros <;> exact Finset.singleton_subset_iff.mpr (List.mem_toFinset.mpr (List.mem_map.mpr ⟨_, by decide, rfl⟩))
set_option maxHeartbeats 4000000 in
theorem step7 (V : Valuation τ sig (Elt F)) (h : Inv7 x0 x1 x2 x3 x4 x5 x6 x7 x8 x9 x10 V) : Inv8 x0 x1 x2 x3 x4 x5 x6 x7 x8 x9 x10 (after (ops7 (F := F)) V) := by
  have keep := fun r hr => after_of_writes_sub (ops7 (F := F)) V wr7 (r := r) hr
  refine ⟨args_keep wr7 (by decide) h.1, (keep main_v27 (by decide)).trans h.2.2.1, (keep main_v28 (by decide)).trans h.2.2.2.1, (keep main_v31 (by decide)).trans h.2.2.2.2.1, ?_, ?_⟩
  all_goals (unfold ops7; after_results_simp; (try simp only [h, TRef.ofBuf, TRef.toBuf, cast_eq]); (try rw [h.2.2.2.2.2.2.2.2.1, h.2.2.2.2.2.2.2.2.2]); try rfl)

def W8 : List (Ref sig .tc) :=
  [main_c_27, main_v114, main_v115, main_c_28, main_c_29, main_call9_v0, main_call9_v1, main_call9_v2, main_call9_v3, main_call9_v4, main_v116, main_v117, main_v118, main_c_30, main_v119, main_v120, main_c_31, main_v121, main_v122, main_v123, main_c_32, main_v124, main_v125, main_c_33, main_v126, main_v127, main_v128, main_v129, main_v130]
theorem wr8 : (ops8 (F := F)).Forall fun op => op.writes ⊆ (W8.map (Proc.devRef (τ := τ) .tc)).toFinset := by
  unfold ops8 W8; simp only [List.Forall]
  and_intros <;> exact Finset.singleton_subset_iff.mpr (List.mem_toFinset.mpr (List.mem_map.mpr ⟨_, by decide, rfl⟩))
set_option maxHeartbeats 4000000 in
theorem step8 (V : Valuation τ sig (Elt F)) (h : Inv8 x0 x1 x2 x3 x4 x5 x6 x7 x8 x9 x10 V) : Inv9 x0 x1 x2 x3 x4 x5 x6 x7 x8 x9 x10 (after (ops8 (F := F)) V) := by
  have keep := fun r hr => after_of_writes_sub (ops8 (F := F)) V wr8 (r := r) hr
  refine ⟨args_keep wr8 (by decide) h.1, (keep main_v27 (by decide)).trans h.2.1, (keep main_v108 (by decide)).trans h.2.2.2.2.1, (keep main_v113 (by decide)).trans h.2.2.2.2.2, ?_, ?_, ?_⟩
  all_goals (unfold ops8; after_results_simp; (try simp only [h, TRef.ofBuf, TRef.toBuf, cast_eq]); try rfl)

def W9 : List (Ref sig .tc) :=
  [main_v131, main_v132, main_v133, main_c_34, main_v134, main_v135, main_c_35, main_v136, main_v137, main_v138, main_v139, main_cst_36, main_v140, main_cst_37, main_v141, main_v142]
theorem wr9 : (ops9 (F := F)).Forall fun op => op.writes ⊆ (W9.map (Proc.devRef (τ := τ) .tc)).toFinset := by
  unfold ops9 W9; simp only [List.Forall]
  and_intros <;> exact Finset.singleton_subset_iff.mpr (List.mem_toFinset.mpr (List.mem_map.mpr ⟨_, by decide, rfl⟩))
set_option maxHeartbeats 4000000 in
theorem step9 (V : Valuation τ sig (Elt F)) (h : Inv9 x0 x1 x2 x3 x4 x5 x6 x7 x8 x9 x10 V) : Inv10 x0 x1 x2 x3 x4 x5 x6 x7 x8 x9 x10 (after (ops9 (F := F)) V) := by
  unfold Inv10
  all_goals (unfold ops9; after_results_simp; (try simp only [h, TRef.ofBuf, TRef.toBuf, cast_eq]); (try rw [h.2.2.2.2.2.1, h.2.2.2.2.2.2]); try rfl)

theorem result_eq (V : Valuation τ sig (Elt F)) (h : Args x0 x1 x2 x3 x4 x5 x6 x7 x8 x9 x10 V) :
    after (ops (F := F)) V (Proc.devRef .tc main_v142) = val_main_v142 (F := F) x0 x1 x2 x3 x4 x5 x6 x7 x8 x9 x10 := by
  simp only [ops, after_app]
  exact step9 _ (step8 _ (step7 _ (step6 _ (step5 _ (step4 _ (step3 _ (step2 _ (step1 _ (step0 _ (h))))))))))

theorem keep_all (V : Valuation τ sig (Elt F)) (r : Ref sig .tc) (hr : r ∉ W0 ++ (W1 ++ (W2 ++ (W3 ++ (W4 ++ (W5 ++ (W6 ++ (W7 ++ (W8 ++ (W9)))))))))) :
    after (ops (F := F)) V (Proc.devRef .tc r) = V (Proc.devRef .tc r) := by
  simp only [List.mem_append, not_or] at hr
  simp only [ops, after_app]
  rw [after_of_writes_sub _ _ wr9 hr.2.2.2.2.2.2.2.2.2, after_of_writes_sub _ _ wr8 hr.2.2.2.2.2.2.2.2.1, after_of_writes_sub _ _ wr7 hr.2.2.2.2.2.2.2.1, after_of_writes_sub _ _ wr6 hr.2.2.2.2.2.2.1, after_of_writes_sub _ _ wr5 hr.2.2.2.2.2.1, after_of_writes_sub _ _ wr4 hr.2.2.2.2.1, after_of_writes_sub _ _ wr3 hr.2.2.2.1, after_of_writes_sub _ _ wr2 hr.2.2.1, after_of_writes_sub _ _ wr1 hr.2.1, after_of_writes_sub _ _ wr0 hr.1]

theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v142) = val_main_v142 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v142).trans (result_eq (launchContents m c) ⟨rfl, rfl, rfl, rfl, rfl, rfl, rfl, rfl, rfl, rfl, rfl⟩),
      (h c main_arg0).trans (keep_all _ main_arg0 (by decide)),
      (h c main_arg1).trans (keep_all _ main_arg1 (by decide)),
      (h c main_arg2).trans (keep_all _ main_arg2 (by decide)),
      (h c main_arg3).trans (keep_all _ main_arg3 (by decide)),
      (h c main_arg4).trans (keep_all _ main_arg4 (by decide)),
      (h c main_arg5).trans (keep_all _ main_arg5 (by decide)),
      (h c main_arg6).trans (keep_all _ main_arg6 (by decide)),
      (h c main_arg7).trans (keep_all _ main_arg7 (by decide)),
      (h c main_arg8).trans (keep_all _ main_arg8 (by decide)),
      (h c main_arg9).trans (keep_all _ main_arg9 (by decide)),
      (h c main_arg10).trans (keep_all _ main_arg10 (by decide))⟩)
    (run_after m ρ)

end Cert.ReferenceIdeal.Value

end
-- ==== Proof.lean ====
/- Both programs return minus the mean, over the 4094 labelled rows, of each row's adaptive log-softmax value: the three frames, then the two results compared row by row on finite inputs with nonnegative labels. -/
import proofs.«407706_j38671885534012_3_alg».proof.Defs
import proofs.«407706_j38671885534012_3_alg».proof.Proof.Gen.Kernel
import proofs.«407706_j38671885534012_3_alg».proof.Proof.Gen.KernelIdeal
import proofs.«407706_j38671885534012_3_alg».proof.Proof.Gen.ReferenceIdeal
import proofs.«407706_j38671885534012_3_alg».proof.Proof.Gen.Pre_finite_inputs
import proofs.«407706_j38671885534012_3_alg».proof.Proof.BitsFrameMain
import proofs.«407706_j38671885534012_3_alg».proof.Proof.FrameMain
import proofs.«407706_j38671885534012_3_alg».proof.Proof.KArray
import proofs.«407706_j38671885534012_3_alg».proof.Proof.KValue
import proofs.«407706_j38671885534012_3_alg».proof.Proof.KFinal
import proofs.«407706_j38671885534012_3_alg».proof.Proof.PreFacts
import proofs.«407706_j38671885534012_3_alg».proof.Proof.RefValue
import proofs.«407706_j38671885534012_3_alg».proof.Proof.RefRun
import Idealize.ShloMosaic.Adequacy
import Idealize.ShloMosaic.Init

noncomputable section

namespace Cert.Proof

open Idealize.ShloMosaic Idealize.ShloMosaic.ValueIdx Idealize.SL.Sem

theorem frame_p : Cert.frame_Kernel := fun m ρ _ => Cert.Kernel.Frame.frame m ρ

theorem frame_pi : Cert.frame_KernelIdeal := fun m ρ _ => Cert.KernelIdeal.Frame.frame m ρ

theorem frame_ri : Cert.frame_ReferenceIdeal := fun m ρ _ =>
  (θ_run Cert.ReferenceIdeal.defs _ _).mono (fun _ h c => (h c).2) (Cert.ReferenceIdeal.Value.run_val (F := Ideal) m ρ)

theorem refRow_eq (a0 a1 a2 a3 a4 a5 a6 a7 a8 a9 a10) (R : Fin 4094) :
    Cert.ReferenceIdeal.RefValue.refRow a0 a1 a2 a3 a4 a5 a6 a7 a8 a9 a10 R
      = Cert.KernelIdeal.KFinal.rvalArgs a0 a1 a2 a3 a4 a5 a6 a7 a8 a9 a10 R := rfl

theorem algebraic : Cert.algebraic_KernelIdeal_ReferenceIdeal := by
  intro m ρ m' ρ' hpre hagree
  refine ⟨fun c _ => -(Ideal.div (∑ t : Fin 32, Cert.KernelIdeal.KBlocks.cbAt m c
      ⟨t.val, by have : Cert.KernelIdeal.cfg0.N = 32 := Cert.KernelIdeal.Gen.N_0; omega⟩) Cert.Spec.c4094),
    Cert.KernelIdeal.KValue.kernel_run_of m (Cert.KernelIdeal.KValue.outsAt_last m) ρ, ?_⟩
  refine (θ_run Cert.ReferenceIdeal.defs _ _).mono (fun _ h c => ⟨(h c).1.trans ?_, (h c).2⟩)
    (Cert.ReferenceIdeal.Value.run_val (F := Ideal) m' ρ')
  obtain ⟨e0, e1, e2, e3, e4, e5, e6, e7, e8, e9, e10⟩ := hagree c
  obtain ⟨h0, h1, h2, h3, h4, h5, h6, h7, h8, h9, h10⟩ := Cert.Proof.PreFacts.of_pre _ _ _ _ _ _ _ _ _ _ _ (hpre c)
  rw [e0, e1, e2, e3, e4, e5, e6, e7, e8, e9, e10]
  funext i
  rw [eq_ix0 i, Cert.ReferenceIdeal.RefValue.ref_result]
  simp only [refRow_eq]
  rw [← Cert.KernelIdeal.KFinal.rows_sum_eq _ _ _ _ _ _ _ _ _ _ _ h0 h1 h2 h3 h4 h5 h6 h7 h8 h9 h10]
  simp only [Cert.KernelIdeal.KBlocks.cbAt_eq]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
